-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 256, 128]⟩ ⟨3, ![4, 256, 512]⟩ 2 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 128]⟩ ⟨2, ![128, 512]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 128]⟩ ⟨2, ![128, 512]⟩ 1 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 256, 128]⟩ ⟨3, ![4, 256, 512]⟩ 2 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4x256x128 : Shape := ⟨3, ![4, 256, 128]⟩
abbrev S4x128 : Shape := ⟨2, ![4, 128]⟩
abbrev S128x128 : Shape := ⟨2, ![128, 128]⟩
abbrev S_ : Shape := ⟨0, ![]⟩

class Facts : Prop where
  bcast_S_S4x256x128 : S_.BroadcastsInDim S4x256x128 (![] : Fin 0 → Fin S4x256x128.rank)
  reducesTo_S4x256x128_S_d0_1_2 : S4x256x128.ReducesTo [0, 1, 2] S_
  h_S_ : 0 < S_.numel
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S4x256x128 .f32) (main_arg1 : FVec F S4x128 .f32) (main_arg2 : FVec F S128x128 .f32) (main_arg3 : FVec F S128x128 .f32) : IVec S_ 1 :=
  let main_v0 : FVec F S4x256x128 .f32 := Host.absf main_arg0
  let main_cst : FVec F S_ .f32 := constant S_ .f32 0x7F800000#32
  let main_v1 : FVec F S4x256x128 .f32 := broadcastInDim S4x256x128 ![] bcast_S_S4x256x128 main_cst
  let main_v2 : IVec S4x256x128 1 := cmpf .olt main_v0 main_v1
  let main_c : IVec S_ 1 := constantI S_ 1 1#1
  let main_v3 : IVec S_ 1 := (fun x v => Host.reduce IntOp.andi x v reducesTo_S4x256x128_S_d0_1_2 h_S_) main_v2 main_c
  let main_v4 : FVec F S4x128 .f32 := Host.absf main_arg1
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Pre_finite_inputs_ReferenceIdeal.lean ====
abbrev S4x256x512 : Shape := ⟨3, ![4, 256, 512]⟩
abbrev S4x128 : Shape := ⟨2, ![4, 128]⟩
abbrev S128x512 : Shape := ⟨2, ![128, 512]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x128 : S_.BroadcastsInDim S4x128 (![] : Fin 0 → Fin S4x128.rank)
  reducesTo_S4x128_S_d0_1 : S4x128.ReducesTo [0, 1] S_
  bcast_S_S128x512 : S_.BroadcastsInDim S128x512 (![] : Fin 0 → Fin S128x512.rank)
  reducesTo_S128x512_S_d0_1 : S128x512.ReducesTo [0, 1] S_

variable [Facts]

def fn_part1 {F : FTy → Type} [FloatOps F] (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  main_v18

def fn {F : FTy → Type} [FloatOps F] (main_arg0 : FVec F S4x256x512 .f32) (main_arg1 : FVec F S4x128 .f32) (main_arg2 : FVec F S128x512 .f32) (main_arg3 : FVec F S128x512 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x128 .f32 := Host.absf main_arg1
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_v13 main_v16
-- ==== Kernel.lean ====
abbrev S4x256x128 : Shape := ⟨3, ![4, 256, 128]⟩
abbrev S4x128 : Shape := ⟨2, ![4, 128]⟩
abbrev S128x128 : Shape := ⟨2, ![128, 128]⟩
abbrev S2x4x128x128 : Shape := ⟨4, ![2, 4, 128, 128]⟩
abbrev S2x2x4x128 : Shape := ⟨4, ![2, 2, 4, 128]⟩
abbrev S6x2x4x128 : Shape := ⟨4, ![6, 2, 4, 128]⟩
abbrev S2 : Shape := ⟨1, ![2]⟩
abbrev S6 : Shape := ⟨1, ![6]⟩
abbrev S_ : Shape := ⟨0, ![]⟩
abbrev S1 : Shape := ⟨1, ![1]⟩
abbrev S4x128x128 : Shape := ⟨3, ![4, 128, 128]⟩
abbrev S1x1x4x128 : Shape := ⟨4, ![1, 1, 4, 128]⟩
abbrev S1x2x4x128 : Shape := ⟨4, ![1, 2, 4, 128]⟩
abbrev S2x4x128 : Shape := ⟨3, ![2, 4, 128]⟩
abbrev S1x4x128 : Shape := ⟨3, ![1, 4, 128]⟩
abbrev S4x128x1 : Shape := ⟨3, ![4, 128, 1]⟩
abbrev S4x1x128 : Shape := ⟨3, ![4, 1, 128]⟩
abbrev S1x4x128x128 : Shape := ⟨4, ![1, 4, 128, 128]⟩

abbrev nBuf : Space → Nat
  | .hbm => 5
  | .vmem => 7
  | .smem => 0
  | _ => 0

abbrev bufTy : (tb : Table) → Fin (tcTables nBuf tb) → BufTy
  | .hbm, ⟨0, _⟩ => ⟨S4x256x128, .f32⟩
  | .hbm, ⟨1, _⟩ => ⟨S4x128, .f32⟩
  | .hbm, ⟨2, _⟩ => ⟨S128x128, .f32⟩
  | .hbm, ⟨3, _⟩ => ⟨S128x128, .f32⟩
  | .hbm, ⟨4, _⟩ => ⟨S4x256x128, .f32⟩
  | .local _ .vmem, ⟨0, _⟩ => ⟨S4x128, .f32⟩
  | .local _ .vmem, ⟨1, _⟩ => ⟨S128x128, .f32⟩
  | .local _ .vmem, ⟨2, _⟩ => ⟨S128x128, .f32⟩
  | .local _ .vmem, ⟨3, _⟩ => ⟨S4x256x128, .f32⟩
  | .local _ .vmem, ⟨4, _⟩ => ⟨S2x4x128x128, .f32⟩
  | .local _ .vmem, ⟨5, _⟩ => ⟨S2x2x4x128, .f32⟩
  | .local _ .vmem, ⟨6, _⟩ => ⟨S6x2x4x128, .f32⟩
  | _, _ => ⟨S4x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_58 : BitVec 32 := 2#32
  let v65 : BitVec 32 := Scalar.addi v2 c2_i32_58
  let c4_i32_59 : BitVec 32 := 4#32
  let c0_i32_60 : BitVec 32 := 0#32
  let v66 : BitVec 1 := Scalar.cmpi .eq c4_i32_59 c0_i32_60
  let c1_i32_61 : BitVec 32 := 1#32
  let v67 : BitVec 32 := Scalar.select v66 c1_i32_61 c4_i32_59
  let v68 : BitVec 32 := Scalar.remsi v65 v67
  let c0_i32_63 : BitVec 32 := 0#32
  let v70 : BitVec 1 := Scalar.cmpi .slt v68 c0_i32_63
  let c0_i32_64 : BitVec 32 := 0#32
  let v71 : BitVec 1 := Scalar.cmpi .slt v67 c0_i32_64
  let v72 : BitVec 1 := Scalar.xori v70 v71
  let c0_i32_62 : BitVec 32 := 0#32
  let v69 : BitVec 1 := Scalar.cmpi .ne v68 c0_i32_62
  let v73 : BitVec 1 := Scalar.andi v72 v69
  let v74 : BitVec 32 := Scalar.addi v68 v67
  let v75 : BitVec 32 := Scalar.select v73 v74 v68
  let c1_i32_69 : BitVec 32 := 1#32
  let v76 : BitVec 32 := Scalar.muli v75 c1_i32_69
  let v77 : BitVec 32 := Scalar.addi c0_i32_70 v76
  v77.toNat
def k0_dev5 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_77 : BitVec 32 := 1#32
  let v86 : BitVec 32 := Scalar.addi v2 c1_i32_77
  let c4_i32_78 : BitVec 32 := 4#32
  let c0_i32_79 : BitVec 32 := 0#32
  let v87 : BitVec 1 := Scalar.cmpi .eq c4_i32_78 c0_i32_79
  let c1_i32_80 : BitVec 32 := 1#32
  let v88 : BitVec 32 := Scalar.select v87 c1_i32_80 c4_i32_78
  let v89 : BitVec 32 := Scalar.remsi v86 v88
  let c0_i32_82 : BitVec 32 := 0#32
  let v91 : BitVec 1 := Scalar.cmpi .slt v89 c0_i32_82
  let c0_i32_83 : BitVec 32 := 0#32
  let v92 : BitVec 1 := Scalar.cmpi .slt v88 c0_i32_83
  let v93 : BitVec 1 := Scalar.xori v91 v92
  let c0_i32_81 : BitVec 32 := 0#32
  let v90 : BitVec 1 := Scalar.cmpi .ne v89 c0_i32_81
  let v94 : BitVec 1 := Scalar.andi v93 v90
  let v95 : BitVec 32 := Scalar.addi v89 v88
  let v96 : BitVec 32 := Scalar.select v94 v95 v89
  let c1_i32_88 : BitVec 32 := 1#32
  let v97 : BitVec 32 := Scalar.muli v96 c1_i32_88
  let v98 : BitVec 32 := Scalar.addi c0_i32_89 v97
  v98.toNat
def k0_dev6 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_96 : BitVec 32 := 3#32
  let v107 : BitVec 32 := Scalar.addi v2 c3_i32_96
  let c4_i32_97 : BitVec 32 := 4#32
  let c0_i32_98 : BitVec 32 := 0#32
  let v108 : BitVec 1 := Scalar.cmpi .eq c4_i32_97 c0_i32_98
  let c1_i32_99 : BitVec 32 := 1#32
  let v109 : BitVec 32 := Scalar.select v108 c1_i32_99 c4_i32_97
  let v110 : BitVec 32 := Scalar.remsi v107 v109
  let c0_i32_101 : BitVec 32 := 0#32
  let v112 : BitVec 1 := Scalar.cmpi .slt v110 c0_i32_101
  let c0_i32_102 : BitVec 32 := 0#32
  let v113 : BitVec 1 := Scalar.cmpi .slt v109 c0_i32_102
  let v114 : BitVec 1 := Scalar.xori v112 v113
  let c0_i32_100 : BitVec 32 := 0#32
  let v111 : BitVec 1 := Scalar.cmpi .ne v110 c0_i32_100
  let v115 : BitVec 1 := Scalar.andi v114 v111
  let v116 : BitVec 32 := Scalar.addi v110 v109
  let v117 : BitVec 32 := Scalar.select v115 v116 v110
  let c1_i32_107 : BitVec 32 := 1#32
  let v118 : BitVec 32 := Scalar.muli v117 c1_i32_107
  let v119 : BitVec 32 := Scalar.addi c0_i32_108 v118
  v119.toNat
def k0_dev7 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_134 : BitVec 32 := 2#32
  let v142 : BitVec 32 := Scalar.addi v2 c2_i32_134
  let c4_i32_135 : BitVec 32 := 4#32
  let c0_i32_136 : BitVec 32 := 0#32
  let v143 : BitVec 1 := Scalar.cmpi .eq c4_i32_135 c0_i32_136
  let c1_i32_137 : BitVec 32 := 1#32
  let v144 : BitVec 32 := Scalar.select v143 c1_i32_137 c4_i32_135
  let v145 : BitVec 32 := Scalar.remsi v142 v144
  let c0_i32_139 : BitVec 32 := 0#32
  let v147 : BitVec 1 := Scalar.cmpi .slt v145 c0_i32_139
  let c0_i32_140 : BitVec 32 := 0#32
  let v148 : BitVec 1 := Scalar.cmpi .slt v144 c0_i32_140
  let v149 : BitVec 1 := Scalar.xori v147 v148
  let c0_i32_138 : BitVec 32 := 0#32
  let v146 : BitVec 1 := Scalar.cmpi .ne v145 c0_i32_138
  let v150 : BitVec 1 := Scalar.andi v149 v146
  let v151 : BitVec 32 := Scalar.addi v145 v144
  let v152 : BitVec 32 := Scalar.select v150 v151 v145
  let c1_i32_145 : BitVec 32 := 1#32
  let v153 : BitVec 32 := Scalar.muli v152 c1_i32_145
  let v154 : BitVec 32 := Scalar.addi c0_i32_146 v153
  v154.toNat
def k0_dev8 (d0 : Dev nD) : Nat :=
  let c0_i32_165 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_153 : BitVec 32 := 1#32
  let v163 : BitVec 32 := Scalar.addi v2 c1_i32_153
  let c4_i32_154 : BitVec 32 := 4#32
  let c0_i32_155 : BitVec 32 := 0#32
  let v164 : BitVec 1 := Scalar.cmpi .eq c4_i32_154 c0_i32_155
  let c1_i32_156 : BitVec 32 := 1#32
  let v165 : BitVec 32 := Scalar.select v164 c1_i32_156 c4_i32_154
  let v166 : BitVec 32 := Scalar.remsi v163 v165
  let c0_i32_158 : BitVec 32 := 0#32
  let v168 : BitVec 1 := Scalar.cmpi .slt v166 c0_i32_158
  let c0_i32_159 : BitVec 32 := 0#32
  let v169 : BitVec 1 := Scalar.cmpi .slt v165 c0_i32_159
  let v170 : BitVec 1 := Scalar.xori v168 v169
  let c0_i32_157 : BitVec 32 := 0#32
  let v167 : BitVec 1 := Scalar.cmpi .ne v166 c0_i32_157
  let v171 : BitVec 1 := Scalar.andi v170 v167
  let v172 : BitVec 32 := Scalar.addi v166 v165
  let v173 : BitVec 32 := Scalar.select v171 v172 v166
  let c1_i32_164 : BitVec 32 := 1#32
  let v174 : BitVec 32 := Scalar.muli v173 c1_i32_164
  let v175 : BitVec 32 := Scalar.addi c0_i32_165 v174
  v175.toNat
def k0_dev9 (d0 : Dev nD) : Nat :=
  let c0_i32_183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_172 : BitVec 32 := 3#32
  let v184 : BitVec 32 := Scalar.addi v2 c3_i32_172
  let c4_i32_173 : BitVec 32 := 4#32
  let c0_i32_174 : BitVec 32 := 0#32
  let v185 : BitVec 1 := Scalar.cmpi .eq c4_i32_173 c0_i32_174
  let c1_i32_175 : BitVec 32 := 1#32
  let v186 : BitVec 32 := Scalar.select v185 c1_i32_175 c4_i32_173
  let v187 : BitVec 32 := Scalar.remsi v184 v186
  let c0_i32_177 : BitVec 32 := 0#32
  let v189 : BitVec 1 := Scalar.cmpi .slt v187 c0_i32_177
  let c0_i32_178 : BitVec 32 := 0#32
  let v190 : BitVec 1 := Scalar.cmpi .slt v186 c0_i32_178
  let v191 : BitVec 1 := Scalar.xori v189 v190
  let c0_i32_176 : BitVec 32 := 0#32
  let v188 : BitVec 1 := Scalar.cmpi .ne v187 c0_i32_176
  let v192 : BitVec 1 := Scalar.andi v191 v188
  let v193 : BitVec 32 := Scalar.addi v187 v186
  let v194 : BitVec 32 := Scalar.select v192 v193 v187
  let c1_i32_182 : BitVec 32 := 1#32
  let v195 : BitVec 32 := Scalar.muli v194 c1_i32_182
  let v196 : BitVec 32 := Scalar.addi c0_i32_183 v195
  v196.toNat
abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S2_S1_0 : ∀ a, (![0] : Fin 1 → Nat) a + S1.size a ≤ S2.size a
  squeezes_S1_S_ : S1.Squeezes S_
  inb_S4x256x128_S4x128x128_0_0_0 : ∀ a, (![0, 0, 0] : Fin 3 → Nat) a + S4x128x128.size a ≤ S4x256x128.size a
  inb_S2_S1_1 : ∀ a, (![1] : Fin 1 → Nat) a + S1.size a ≤ S2.size a
  inb_S4x256x128_S4x128x128_0_128_0 : ∀ a, (![0, 128, 0] : Fin 3 → Nat) a + S4x128x128.size a ≤ S4x256x128.size a
  h_S4x128x128 : 0 < S4x128x128.numel
  reduces_S4x128x128_S4x128 : S4x128x128.Reduces [2] S4x128
  inb_S2x2x4x128_S1x1x4x128_0_0_0_0 : ∀ a, (![0, 0, 0, 0] : Fin 4 → Nat) a + S1x1x4x128.size a ≤ S2x2x4x128.size a
  h_S1x1x4x128 : 0 < S1x1x4x128.numel
  shapeCasts_S1x1x4x128_S4x128 : S1x1x4x128.ShapeCasts S4x128
  shapeCasts_S4x128_S1x1x4x128 : S4x128.ShapeCasts S1x1x4x128
  inb_S2x2x4x128_S1x1x4x128_0_1_0_0 : ∀ a, (![0, 1, 0, 0] : Fin 4 → Nat) a + S1x1x4x128.size a ≤ S2x2x4x128.size a
  hamt_3 : (3#32 : BitVec 32).msb = false
  inb_S6_S1_2 : ∀ a, (![2] : Fin 1 → Nat) a + S1.size a ≤ S6.size a
  inb_S6x2x4x128_S1x2x4x128_2_0_0_0 : ∀ a, (![2, 0, 0, 0] : Fin 4 → Nat) a + S1x2x4x128.size a ≤ S6x2x4x128.size a
  squeezes_S1x2x4x128_S2x4x128 : S1x2x4x128.Squeezes S2x4x128
  inb_S2x2x4x128_S1x2x4x128_0_0_0_0 : ∀ a, (![0, 0, 0, 0] : Fin 4 → Nat) a + S1x2x4x128.size a ≤ S2x2x4x128.size a
  inb_S6_S1_0 : ∀ a, (![0] : Fin 1 → Nat) a + S1.size a ≤ S6.size a
  inb_S6x2x4x128_S1x2x4x128_0_0_0_0 : ∀ a, (![0, 0, 0, 0] : Fin 4 → Nat) a + S1x2x4x128.size a ≤ S6x2x4x128.size a
  inb_S6_S1_4 : ∀ a, (![4] : Fin 1 → Nat) a + S1.size a ≤ S6.size a
  inb_S6x2x4x128_S1x2x4x128_4_0_0_0 : ∀ a, (![4, 0, 0, 0] : Fin 4 → Nat) a + S1x2x4x128.size a ≤ S6x2x4x128.size a
  inb_S2x2x4x128_S1x1x4x128_1_0_0_0 : ∀ a, (![1, 0, 0, 0] : Fin 4 → Nat) a + S1x1x4x128.size a ≤ S2x2x4x128.size a
  inb_S2x2x4x128_S1x1x4x128_1_1_0_0 : ∀ a, (![1, 1, 0, 0] : Fin 4 → Nat) a + S1x1x4x128.size a ≤ S2x2x4x128.size a
  inb_S6_S1_3 : ∀ a, (![3] : Fin 1 → Nat) a + S1.size a ≤ S6.size a
  inb_S6x2x4x128_S1x2x4x128_3_0_0_0 : ∀ a, (![3, 0, 0, 0] : Fin 4 → Nat) a + S1x2x4x128.size a ≤ S6x2x4x128.size a
  inb_S2x2x4x128_S1x2x4x128_1_0_0_0 : ∀ a, (![1, 0, 0, 0] : Fin 4 → Nat) a + S1x2x4x128.size a ≤ S2x2x4x128.size a
  inb_S6_S1_1 : ∀ a, (![1] : Fin 1 → Nat) a + S1.size a ≤ S6.size a
  inb_S6x2x4x128_S1x2x4x128_1_0_0_0 : ∀ a, (![1, 0, 0, 0] : Fin 4 → Nat) a + S1x2x4x128.size a ≤ S6x2x4x128.size a
  inb_S6_S1_5 : ∀ a, (![5] : Fin 1 → Nat) a + S1.size a ≤ S6.size a
  inb_S6x2x4x128_S1x2x4x128_5_0_0_0 : ∀ a, (![5, 0, 0, 0] : Fin 4 → Nat) a + S1x2x4x128.size a ≤ S6x2x4x128.size a
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  h_S1x2x4x128 : 0 < S1x2x4x128.numel
  shapeCasts_S1x2x4x128_S2x4x128 : S1x2x4x128.ShapeCasts S2x4x128
  slices_S2x4x128_o0_0_0_S1x4x128 : S2x4x128.Slices ![0, 0, 0] S1x4x128
  shapeCasts_S1x4x128_S4x128 : S1x4x128.ShapeCasts S4x128
  slices_S2x4x128_o1_0_0_S1x4x128 : S2x4x128.Slices ![1, 0, 0] S1x4x128
  shapeCasts_S4x128_S4x128x1 : S4x128.ShapeCasts S4x128x1
  broadcasts_S4x128x1_S4x128x128 : S4x128x1.Broadcasts S4x128x128
  shapeCasts_S4x128_S4x1x128 : S4x128.ShapeCasts S4x1x128
  broadcasts_S4x1x128_S4x128x128 : S4x1x128.Broadcasts S4x128x128
  inb_S2x4x128x128_S1x4x128x128_0_0_0_0 : ∀ a, (![0, 0, 0, 0] : Fin 4 → Nat) a + S1x4x128x128.size a ≤ S2x4x128x128.size a
  h_S1x4x128x128 : 0 < S1x4x128x128.numel
  shapeCasts_S1x4x128x128_S4x128x128 : S1x4x128x128.ShapeCasts S4x128x128
  shapeCasts_S4x128x128_S1x4x128x128 : S4x128x128.ShapeCasts S1x4x128x128
  squeezes_S1x4x128x128_S4x128x128 : S1x4x128x128.Squeezes S4x128x128
  inb_S2x4x128x128_S1x4x128x128_1_0_0_0 : ∀ a, (![1, 0, 0, 0] : Fin 4 → Nat) a + S1x4x128x128.size a ≤ S2x4x128x128.size a
  dot_S4x128_S128x128_S4x128_1_0_0_1_n_n_wf : DotDims.WF S4x128 S128x128 S4x128 [1] [0] [0] [1] [] []
  hcc0_scratch4 : 3 + S2.numel ≤ 19
  hcc0_scratch5 : 5 + S2.numel ≤ 19
  hcc0_scratch6 : 7 + S6.numel ≤ 19
  hcc0_scratch7 : 13 + S6.numel ≤ 19
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  hstage0_0 : ∀ j, (stage0_0 j).IsWhole
  hstage0_1 : ∀ j, (stage0_1 j).IsWhole
  hstage0_2 : ∀ j, (stage0_2 j).IsWhole

variable [Facts₀]

abbrev cc0_scratch4 : DmaSems sig S2 := SemArray.consecutive 3 S2 hcc0_scratch4
abbrev cc0_scratch5 : DmaSems sig S2 := SemArray.consecutive 5 S2 hcc0_scratch5
abbrev cc0_scratch6 : DmaSems sig S6 := SemArray.consecutive 7 S6 hcc0_scratch6
abbrev cc0_scratch7 : DmaSems sig S6 := SemArray.consecutive 13 S6 hcc0_scratch7
def dot_S4x128_S128x128_S4x128_1_0_0_1_n_n : DotDims S4x128 S128x128 S4x128 where
  lhsContracting := [1]
  rhsContracting := [0]
  lhsNonContracting := [0]
  rhsNonContracting := [1]
  lhsBatch := []
  rhsBatch := []
  wf := dot_S4x128_S128x128_S4x128_1_0_0_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_arg3) false false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x256x512 : Shape := ⟨3, ![4, 256, 512]⟩
abbrev S4x128 : Shape := ⟨2, ![4, 128]⟩
abbrev S128x512 : Shape := ⟨2, ![128, 512]⟩
abbrev S_ : Shape := ⟨0, ![]⟩
abbrev S4x256 : Shape := ⟨2, ![4, 256]⟩
abbrev S4x256x1 : Shape := ⟨3, ![4, 256, 1]⟩
abbrev S4x512 : Shape := ⟨2, ![4, 512]⟩
abbrev S4x1x512 : Shape := ⟨3, ![4, 1, 512]⟩

abbrev nBuf : Space → Nat
  | .hbm => 53
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x128, .f32⟩
  | .hbm, ⟨2, _⟩ => ⟨S128x512, .f32⟩
  | .hbm, ⟨3, _⟩ => ⟨S128x512, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .i32⟩
  | .hbm, ⟨11, _⟩ => ⟨S_, .f32⟩
  | .hbm, ⟨12, _⟩ => ⟨S4x256, .f32⟩
  | .hbm, ⟨13, _⟩ => ⟨S4x256x1, .f32⟩
  | .hbm, ⟨14, _⟩ => ⟨S_, .f32⟩
  | .hbm, ⟨15, _⟩ => ⟨S4x256x1, .f32⟩
  | .hbm, ⟨16, _⟩ => ⟨S4x256x1, .f32⟩
  | .hbm, ⟨17, _⟩ => ⟨S4x256x512, .f32⟩
  | .hbm, ⟨18, _⟩ => ⟨S4x256x512, .f32⟩
  | .hbm, ⟨19, _⟩ => ⟨S4x256x512, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x256, .f32⟩
  | .hbm, ⟨25, _⟩ => ⟨S4x256x1, .f32⟩
  | .hbm, ⟨26, _⟩ => ⟨S4x256x1, .f32⟩
  | .hbm, ⟨27, _⟩ => ⟨S4x256x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S4x256x1, .f32⟩
  | .hbm, ⟨33, _⟩ => ⟨S4x256x1, .f32⟩
  | .hbm, ⟨34, _⟩ => ⟨S4x256x512, .f32⟩
  | .hbm, ⟨35, _⟩ => ⟨S4x256x512, .f32⟩
  | .hbm, ⟨36, _⟩ => ⟨S_, .f32⟩
  | .hbm, ⟨37, _⟩ => ⟨S4x256x1, .f32⟩
  | .hbm, ⟨38, _⟩ => ⟨S4x256x1, .f32⟩
  | .hbm, ⟨39, _⟩ => ⟨S4x256x1, .f32⟩
  | .hbm, ⟨40, _⟩ => ⟨S4x256x512, .f32⟩
  | .hbm, ⟨41, _⟩ => ⟨S4x256x512, .f32⟩
  | .hbm, ⟨42, _⟩ => ⟨S4x512, .f32⟩
  | .hbm, ⟨43, _⟩ => ⟨S4x512, .f32⟩
  | .hbm, ⟨44, _⟩ => ⟨S4x1x512, .f32⟩
  | .hbm, ⟨45, _⟩ => ⟨S_, .f32⟩
  | .hbm, ⟨46, _⟩ => ⟨S4x1x512, .f32⟩
  | .hbm, ⟨47, _⟩ => ⟨S4x1x512, .f32⟩
  | .hbm, ⟨48, _⟩ => ⟨S4x256x512, .f32⟩
  | .hbm, ⟨49, _⟩ => ⟨S4x256x512, .f32⟩
  | .hbm, ⟨50, _⟩ => ⟨S4x1x512, .f32⟩
  | .hbm, ⟨51, _⟩ => ⟨S4x256x512, .f32⟩
  | .hbm, ⟨52, _⟩ => ⟨S4x256x512, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]

class Facts₀ : Prop where
  reducesTo_S4x256x512_S4x256_d2 : S4x256x512.ReducesTo [2] S4x256
  h_S_ : 0 < S_.numel
  bcast_S4x256_S4x256x1_0_1 : S4x256.BroadcastsInDim S4x256x1 (![0, 1] : Fin 2 → Fin S4x256x1.rank)
  bcast_S_S4x256x1 : S_.BroadcastsInDim S4x256x1 (![] : Fin 0 → Fin S4x256x1.rank)
  bcast_S4x256x1_S4x256x512_0_1_2 : S4x256x1.BroadcastsInDim S4x256x512 (![0, 1, 2] : Fin 3 → Fin S4x256x512.rank)
  bcast_S4x512_S4x1x512_0_2 : S4x512.BroadcastsInDim S4x1x512 (![0, 2] : Fin 2 → Fin S4x1x512.rank)
  bcast_S_S4x1x512 : S_.BroadcastsInDim S4x1x512 (![] : Fin 0 → Fin S4x1x512.rank)
  bcast_S4x1x512_S4x256x512_0_1_2 : S4x1x512.BroadcastsInDim S4x256x512 (![0, 1, 2] : Fin 3 → Fin S4x256x512.rank)
  dot_S4x128_S128x512_S4x512_1_0_0_1_n_n_wf : DotDims.WF S4x128 S128x512 S4x512 [1] [0] [0] [1] [] []

variable [Facts₀]

def dot_S4x128_S128x512_S4x512_1_0_0_1_n_n : DotDims S4x128 S128x512 S4x512 where
  lhsContracting := [1]
  rhsContracting := [0]
  lhsNonContracting := [0]
  rhsNonContracting := [1]
  lhsBatch := []
  rhsBatch := []
  wf := dot_S4x128_S128x512_S4x512_1_0_0_1_n_n_wf

class Facts : Prop extends Facts₀ where

variable [Facts]
-- ==== Proof.KernelData.lean ====
import proofs.«900517_g7700000000000518_dist_diff_adaln_cshard_i_b4_s256_c128_v7x_i4_f32_1_alg».proof.Proof.Gen.Kernel.Skeleton
import Idealize.ShloMosaic.Lib.ValueIdx

noncomputable section

namespace Cert.Kernel.KD

open Cert.Kernel Cert.Kernel.Gen
open Idealize.ShloMosaic Idealize.ShloMosaic.TcCoe Idealize.ShloMosaic.ValueIdx

variable {F : FTy → Type} [FloatOps F]
variable (m : (ℓ : Loc nD τ sig) → Buf (Elt F) ℓ)

-- The device d places after c on the ring of four; bwd is d places before.
def fwd (d : ℕ) (c : Dev nD) : Dev nD := ⟨(c.val + d) % 4, Nat.mod_lt _ (by decide)⟩
def bwd (d : ℕ) (c : Dev nD) : Dev nD := fwd (4 - d % 4) c

abbrev xA (c : Dev nD) : Vec F S4x256x128 .f32 := m ((c : Thread nD τ).loc main_arg0)
abbrev tA (c : Dev nD) : Vec F S4x128 .f32 := m ((c : Thread nD τ).loc main_arg1)
abbrev wscA (c : Dev nD) : Vec F S128x128 .f32 := m ((c : Thread nD τ).loc main_arg2)
abbrev wshA (c : Dev nD) : Vec F S128x128 .f32 := m ((c : Thread nD τ).loc main_arg3)

def halfOf (h : Fin 2) (x : Vec F S4x256x128 .f32) : Vec F S4x128x128 .f32 :=
  fun i => x (ix3 (n0 := 4) (n1 := 256) (n2 := 128) ⟨(i 0).val, (i 0).isLt⟩
    ⟨128 * h.val + (i 1).val, by have h1 : (i 1).val < 128 := (i 1).isLt; have h2 : h.val < 2 := h.isLt; omega⟩ ⟨(i 2).val, (i 2).isLt⟩)

def xh (h : Fin 2) (c : Dev nD) : Vec F S4x128x128 .f32 := halfOf h (xA m c)

-- The sum and the sum of squares over device c's own columns, for its rows of half h.
def stat (h : Fin 2) (c : Dev nD) : Vec F S1x2x4x128 .f32 :=
  fun i =>
    let j : S1x1x4x128.Idx := ix4 (n0 := 1) (n1 := 1) (n2 := 4) (n3 := 128) ⟨0, by decide⟩ ⟨0, by decide⟩ ⟨(i 2).val, (i 2).isLt⟩ ⟨(i 3).val, (i 3).isLt⟩
    if h.val = 0 then (if (i 1).val = 0 then k0_pay1 (xh m 0 c) j else k0_pay2 (xh m 0 c) j)
    else (if (i 1).val = 0 then k0_pay3 (xh m 1 c) j else k0_pay5 (k0_pay4 (xh m 1 c)) j)

def shiftv (c : Dev nD) : FVec F S4x128 .f32 := k0_pay7 (tA m c) (wshA m c)
def gainv (c : Dev nD) : FVec F S4x128 .f32 := k0_pay8 (tA m c) (wscA m c)

def outh0 (c : Dev nD) : FVec F S1x4x128x128 .f32 :=
  k0_pay11 (shiftv m c) (gainv m c)
    (k0_pay9 (stat m 0 c) (stat m 0 (bwd 1 c)) (stat m 0 (bwd 2 c)) (stat m 0 (bwd 3 c)))
    (k0_pay10 (stat m 0 c) (stat m 0 (bwd 1 c)) (stat m 0 (bwd 2 c)) (stat m 0 (bwd 3 c)))
    (xh m 0 c)
def outh1 (c : Dev nD) : FVec F S1x4x128x128 .f32 :=
  k0_pay13 (shiftv m c) (gainv m c) (k0_pay12 (stat m 1 c)) (stat m 1 (bwd 1 c)) (stat m 1 (bwd 2 c)) (stat m 1 (bwd 3 c)) (xh m 1 c)

-- Rows below 128 come from half 0, the rest from half 1.
def outAt (c : Dev nD) : Vec F S4x256x128 .f32 :=
  fun i =>
    if hlt : (i 1).val < 128 then
      outh0 m c (ix4 (n0 := 1) (n1 := 4) (n2 := 128) (n3 := 128) ⟨0, by decide⟩ ⟨(i 0).val, (i 0).isLt⟩ ⟨(i 1).val, hlt⟩ ⟨(i 2).val, (i 2).isLt⟩)
    else
      outh1 m c (ix4 (n0 := 1) (n1 := 4) (n2 := 128) (n3 := 128) ⟨0, by decide⟩ ⟨(i 0).val, (i 0).isLt⟩
        ⟨(i 1).val - 128, by have h1 : (i 1).val < 256 := (i 1).isLt; omega⟩ ⟨(i 2).val, (i 2).isLt⟩)

end Cert.Kernel.KD

end
-- ==== Proof.KernelProto.lean ====
import proofs.«900517_g7700000000000518_dist_diff_adaln_cshard_i_b4_s256_c128_v7x_i4_f32_1_alg».proof.Proof.Gen.Kernel.Skeleton
import proofs.«900517_g7700000000000518_dist_diff_adaln_cshard_i_b4_s256_c128_v7x_i4_f32_1_alg».proof.Proof.Gen.Kernel.Launch
import proofs.«900517_g7700000000000518_dist_diff_adaln_cshard_i_b4_s256_c128_v7x_i4_f32_1_alg».proof.Proof.Gen.Kernel.Points
import proofs.«900517_g7700000000000518_dist_diff_adaln_cshard_i_b4_s256_c128_v7x_i4_f32_1_alg».proof.Proof.KernelData
import Idealize.ShloMosaic.Lib.Pipeline.Launch
import Idealize.ShloMosaic.Lib.Pipeline.Kit
import Idealize.ShloMosaic.Lib.Tactic

noncomputable section

namespace Cert.Kernel.KP

open Cert.Kernel Cert.Kernel.Gen Cert.Kernel.KD

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

abbrev DT : Type := Fin 3
abbrev UB : Type := URounds (GSem nD τ sig) DT
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

abbrev xM : Memref sig .tc .hbm S4x256x128 .f32 := Memref.whole main_arg0
abbrev oM : Memref sig .tc .hbm S4x256x128 .f32 := Memref.whole main_v1
abbrev tM : Memref sig .tc .vmem S4x128 .f32 := Memref.whole cc0_stg0_0
abbrev wscM : Memref sig .tc .vmem S128x128 .f32 := Memref.whole cc0_stg1_0
abbrev wshM : Memref sig .tc .vmem S128x128 .f32 := Memref.whole cc0_stg2_0
abbrev xvM : Memref sig .tc .vmem S4x256x128 .f32 := Memref.whole cc0_scratch0
abbrev ovM : Memref sig .tc .vmem S2x4x128x128 .f32 := Memref.whole cc0_scratch1
abbrev msM : Memref sig .tc .vmem S2x2x4x128 .f32 := Memref.whole cc0_scratch2
abbrev cmM : Memref sig .tc .vmem S6x2x4x128 .f32 := Memref.whole cc0_scratch3

abbrev xS : Fin 2 → Memref sig .tc .hbm S4x128x128 .f32
  | 0 => xM.slice (Rect.unit (s := S4x256x128) ![0, 0, 0] S4x128x128.size inb_S4x256x128_S4x128x128_0_0_0) (fun _ => rfl)
  | 1 => xM.slice (Rect.unit (s := S4x256x128) ![0, 128, 0] S4x128x128.size inb_S4x256x128_S4x128x128_0_128_0) (fun _ => rfl)
abbrev xvS : Fin 2 → Memref sig .tc .vmem S4x128x128 .f32
  | 0 => xvM.slice (Rect.unit (s := S4x256x128) ![0, 0, 0] S4x128x128.size inb_S4x256x128_S4x128x128_0_0_0) (fun _ => rfl)
  | 1 => xvM.slice (Rect.unit (s := S4x256x128) ![0, 128, 0] S4x128x128.size inb_S4x256x128_S4x128x128_0_128_0) (fun _ => rfl)
abbrev oS : Fin 2 → Memref sig .tc .hbm S4x128x128 .f32
  | 0 => oM.slice (Rect.unit (s := S4x256x128) ![0, 0, 0] S4x128x128.size inb_S4x256x128_S4x128x128_0_0_0) (fun _ => rfl)
  | 1 => oM.slice (Rect.unit (s := S4x256x128) ![0, 128, 0] S4x128x128.size inb_S4x256x128_S4x128x128_0_128_0) (fun _ => rfl)

abbrev ovS : Fin 2 → Memref sig .tc .vmem S4x128x128 .f32
  | 0 => (ovM.slice (Rect.unit (s := S2x4x128x128) ![0, 0, 0, 0] S1x4x128x128.size inb_S2x4x128x128_S1x4x128x128_0_0_0_0) (fun _ => rfl)).squeeze S4x128x128 squeezes_S1x4x128x128_S4x128x128
  | 1 => (ovM.slice (Rect.unit (s := S2x4x128x128) ![1, 0, 0, 0] S1x4x128x128.size inb_S2x4x128x128_S1x4x128x128_1_0_0_0) (fun _ => rfl)).squeeze S4x128x128 squeezes_S1x4x128x128_S4x128x128

abbrev msS : Fin 2 → Memref sig .tc .vmem S2x4x128 .f32
  | 0 => (msM.slice (Rect.unit (s := S2x2x4x128) ![0, 0, 0, 0] S1x2x4x128.size inb_S2x2x4x128_S1x2x4x128_0_0_0_0) (fun _ => rfl)).squeeze S2x4x128 squeezes_S1x2x4x128_S2x4x128
  | 1 => (msM.slice (Rect.unit (s := S2x2x4x128) ![1, 0, 0, 0] S1x2x4x128.size inb_S2x2x4x128_S1x2x4x128_1_0_0_0) (fun _ => rfl)).squeeze S2x4x128 squeezes_S1x2x4x128_S2x4x128

abbrev cmS : Fin 6 → Memref sig .tc .vmem S2x4x128 .f32
  | 0 => (cmM.slice (Rect.unit (s := S6x2x4x128) ![0, 0, 0, 0] S1x2x4x128.size inb_S6x2x4x128_S1x2x4x128_0_0_0_0) (fun _ => rfl)).squeeze S2x4x128 squeezes_S1x2x4x128_S2x4x128
  | 1 => (cmM.slice (Rect.unit (s := S6x2x4x128) ![1, 0, 0, 0] S1x2x4x128.size inb_S6x2x4x128_S1x2x4x128_1_0_0_0) (fun _ => rfl)).squeeze S2x4x128 squeezes_S1x2x4x128_S2x4x128
  | 2 => (cmM.slice (Rect.unit (s := S6x2x4x128) ![2, 0, 0, 0] S1x2x4x128.size inb_S6x2x4x128_S1x2x4x128_2_0_0_0) (fun _ => rfl)).squeeze S2x4x128 squeezes_S1x2x4x128_S2x4x128
  | 3 => (cmM.slice (Rect.unit (s := S6x2x4x128) ![3, 0, 0, 0] S1x2x4x128.size inb_S6x2x4x128_S1x2x4x128_3_0_0_0) (fun _ => rfl)).squeeze S2x4x128 squeezes_S1x2x4x128_S2x4x128
  | 4 => (cmM.slice (Rect.unit (s := S6x2x4x128) ![4, 0, 0, 0] S1x2x4x128.size inb_S6x2x4x128_S1x2x4x128_4_0_0_0) (fun _ => rfl)).squeeze S2x4x128 squeezes_S1x2x4x128_S2x4x128
  | 5 => (cmM.slice (Rect.unit (s := S6x2x4x128) ![5, 0, 0, 0] S1x2x4x128.size inb_S6x2x4x128_S1x2x4x128_5_0_0_0) (fun _ => rfl)).squeeze S2x4x128 squeezes_S1x2x4x128_S2x4x128

abbrev barS : Sem sig := (SemArray.scalar (sig.barrier 0 rfl) : Sems sig S_).sem
abbrev loadS : Fin 2 → DmaSem sig
  | 0 => ((cc0_scratch4.slice (Rect.unit (s := S2) ![0] S1.size inb_S2_S1_0)).squeeze S_ squeezes_S1_S_).sem
  | 1 => ((cc0_scratch4.slice (Rect.unit (s := S2) ![1] S1.size inb_S2_S1_1)).squeeze S_ squeezes_S1_S_).sem
abbrev storeS : Fin 2 → DmaSem sig
  | 0 => ((cc0_scratch5.slice (Rect.unit (s := S2) ![0] S1.size inb_S2_S1_0)).squeeze S_ squeezes_S1_S_).sem
  | 1 => ((cc0_scratch5.slice (Rect.unit (s := S2) ![1] S1.size inb_S2_S1_1)).squeeze S_ squeezes_S1_S_).sem
abbrev sendS : Fin 6 → DmaSem sig
  | 0 => ((cc0_scratch6.slice (Rect.unit (s := S6) ![0] S1.size inb_S6_S1_0)).squeeze S_ squeezes_S1_S_).sem
  | 1 => ((cc0_scratch6.slice (Rect.unit (s := S6) ![1] S1.size inb_S6_S1_1)).squeeze S_ squeezes_S1_S_).sem
  | 2 => ((cc0_scratch6.slice (Rect.unit (s := S6) ![2] S1.size inb_S6_S1_2)).squeeze S_ squeezes_S1_S_).sem
  | 3 => ((cc0_scratch6.slice (Rect.unit (s := S6) ![3] S1.size inb_S6_S1_3)).squeeze S_ squeezes_S1_S_).sem
  | 4 => ((cc0_scratch6.slice (Rect.unit (s := S6) ![4] S1.size inb_S6_S1_4)).squeeze S_ squeezes_S1_S_).sem
  | 5 => ((cc0_scratch6.slice (Rect.unit (s := S6) ![5] S1.size inb_S6_S1_5)).squeeze S_ squeezes_S1_S_).sem
abbrev recvS : Fin 6 → DmaSem sig
  | 0 => ((cc0_scratch7.slice (Rect.unit (s := S6) ![0] S1.size inb_S6_S1_0)).squeeze S_ squeezes_S1_S_).sem
  | 1 => ((cc0_scratch7.slice (Rect.unit (s := S6) ![1] S1.size inb_S6_S1_1)).squeeze S_ squeezes_S1_S_).sem
  | 2 => ((cc0_scratch7.slice (Rect.unit (s := S6) ![2] S1.size inb_S6_S1_2)).squeeze S_ squeezes_S1_S_).sem
  | 3 => ((cc0_scratch7.slice (Rect.unit (s := S6) ![3] S1.size inb_S6_S1_3)).squeeze S_ squeezes_S1_S_).sem
  | 4 => ((cc0_scratch7.slice (Rect.unit (s := S6) ![4] S1.size inb_S6_S1_4)).squeeze S_ squeezes_S1_S_).sem
  | 5 => ((cc0_scratch7.slice (Rect.unit (s := S6) ![5] S1.size inb_S6_S1_5)).squeeze S_ squeezes_S1_S_).sem

-- The sixteen semaphores a kernel owns; csem is all seventeen, the barrier semaphore first.
abbrev osem : Fin 16 → SemLoc sig := fun i =>
  if h : i.val < 2 then .dma (loadS ⟨i.val, h⟩)
  else if h2 : i.val < 4 then .dma (storeS ⟨i.val - 2, by omega⟩)
  else if h3 : i.val < 10 then .dma (sendS ⟨i.val - 4, by omega⟩)
  else .dma (recvS ⟨i.val - 10, by have := i.isLt; omega⟩)
abbrev csem : Fin 17 → SemLoc sig := fun i => if h : i.val = 0 then .reg barS else osem ⟨i.val - 1, by have := i.isLt; omega⟩

abbrev barCell (c : Dev nD) : GSem nD τ sig := ((c : Thread nD τ), .reg barS)
abbrev recvCell (c : Dev nD) (k : Fin 6) : GSem nD τ sig := ((c : Thread nD τ), .dma (recvS k))
abbrev kcell (ck : Dev nD × Fin 17) : GSem nD τ sig := ((ck.1 : Thread nD τ), csem ck.2)

-- The number of a semaphore among the seventeen, if it is one of them.
def semIdx (s : SemLoc sig) : Option (Fin 17) := (List.finRange 17).find? fun i => decide (csem i = s)

theorem semIdx_csem : ∀ i : Fin 17, semIdx (csem i) = some i := by decide

abbrev NL : ℕ := (xvS 0).view.dmaCredit
abbrev NO : ℕ := (oS 0).view.dmaCredit
abbrev N2 : ℕ := (cmS 0).view.dmaCredit

-- Entry (h, r, b, s) is the device's statistic r of half h.
def msFull (c : Dev nD) : Vec F S2x2x4x128 .f32 := fun i =>
  stat m ⟨(i 0).val, (i 0).isLt⟩ c (ix4 (n0 := 1) (n1 := 2) (n2 := 4) (n3 := 128) ⟨0, by decide⟩ ⟨(i 1).val, (i 1).isLt⟩ ⟨(i 2).val, (i 2).isLt⟩ ⟨(i 3).val, (i 3).isLt⟩)

-- Slot k = 2(d-1)+h holds the statistic of half h of the device d places before c.
def cmFull (c : Dev nD) : Vec F S6x2x4x128 .f32 := fun i =>
  stat m ⟨(i 0).val % 2, Nat.mod_lt _ (by decide)⟩ (bwd ((i 0).val / 2 + 1) c)
    (ix4 (n0 := 1) (n1 := 2) (n2 := 4) (n3 := 128) ⟨0, by decide⟩ ⟨(i 1).val, (i 1).isLt⟩ ⟨(i 2).val, (i 2).isLt⟩ ⟨(i 3).val, (i 3).isLt⟩)

def ovFull (c : Dev nD) : Vec F S2x4x128x128 .f32 := fun i =>
  let j : S1x4x128x128.Idx := ix4 (n0 := 1) (n1 := 4) (n2 := 128) (n3 := 128) ⟨0, by decide⟩ ⟨(i 1).val, (i 1).isLt⟩ ⟨(i 2).val, (i 2).isLt⟩ ⟨(i 3).val, (i 3).isLt⟩
  if (i 0).val = 0 then outh0 m c j else outh1 m c j

abbrev dOf (k : Fin 6) : ℕ := k.val / 2 + 1

def loadPay (c : Dev nD) : Fin 2 → sProp 𝕄
  | 0 => iprop(((xvS 0).view.loc (c : Thread nD τ) ↦[(xvS 0).view.set]{fullShare} xA m c)
      ∗ ((xS 0).view.loc (c : Thread nD τ) ↦[(xS 0).view.set]{fullShare} xA m c))
  | 1 => iprop(((xvS 1).view.loc (c : Thread nD τ) ↦[(xvS 1).view.set]{fullShare} xA m c)
      ∗ ((xS 1).view.loc (c : Thread nD τ) ↦[(xS 1).view.set]{fullShare} xA m c))
def storePay (c : Dev nD) : Fin 2 → sProp 𝕄
  | 0 => iprop(((oS 0).view.loc (c : Thread nD τ) ↦[(oS 0).view.set]{fullShare} outAt m c)
      ∗ ((ovS 0).view.loc (c : Thread nD τ) ↦[(ovS 0).view.set]{fullShare} ovFull m c))
  | 1 => iprop(((oS 1).view.loc (c : Thread nD τ) ↦[(oS 1).view.set]{fullShare} outAt m c)
      ∗ ((ovS 1).view.loc (c : Thread nD τ) ↦[(ovS 1).view.set]{fullShare} ovFull m c))
def sendPay (c : Dev nD) : Fin 6 → sProp 𝕄
  | 0 => (msS 0).view.loc (c : Thread nD τ) ↦[(msS 0).view.set]{fullShare.left} msFull m c
  | 1 => (msS 1).view.loc (c : Thread nD τ) ↦[(msS 1).view.set]{fullShare.left} msFull m c
  | 2 => (msS 0).view.loc (c : Thread nD τ) ↦[(msS 0).view.set]{fullShare.right.left} msFull m c
  | 3 => (msS 1).view.loc (c : Thread nD τ) ↦[(msS 1).view.set]{fullShare.right.left} msFull m c
  | 4 => (msS 0).view.loc (c : Thread nD τ) ↦[(msS 0).view.set]{fullShare.right.right.left} msFull m c
  | 5 => (msS 1).view.loc (c : Thread nD τ) ↦[(msS 1).view.set]{fullShare.right.right.left} msFull m c
def slotPts (c : Dev nD) : Fin 6 → Vec F S6x2x4x128 .f32 → sProp 𝕄
  | 0, f => (cmS 0).view.loc (c : Thread nD τ) ↦[(cmS 0).view.set]{fullShare} f
  | 1, f => (cmS 1).view.loc (c : Thread nD τ) ↦[(cmS 1).view.set]{fullShare} f
  | 2, f => (cmS 2).view.loc (c : Thread nD τ) ↦[(cmS 2).view.set]{fullShare} f
  | 3, f => (cmS 3).view.loc (c : Thread nD τ) ↦[(cmS 3).view.set]{fullShare} f
  | 4, f => (cmS 4).view.loc (c : Thread nD τ) ↦[(cmS 4).view.set]{fullShare} f
  | 5, f => (cmS 5).view.loc (c : Thread nD τ) ↦[(cmS 5).view.set]{fullShare} f

instance slotPts_storable (c : Dev nD) (k : Fin 6) (f : Vec F S6x2x4x128 .f32) : BI.Storable (upEmb : UEmb _ 𝕄) (slotPts (F := F) c k f) := by
  unfold slotPts; split <;> infer_instance

def recvPay (c : Dev nD) (k : Fin 6) : sProp 𝕄 := slotPts c k (cmFull m c)

-- With its barrier unit the device e+1 places before c hands c the two slots that c's copies fill, and that their cells stand at round 0.
def barPay (c : Dev nD) : Fin 3 → sProp 𝕄
  | 0 => iprop((∃ f, slotPts (bwd 1 c) 4 f) ∗ (∃ f, slotPts (bwd 1 c) 5 f)
      ∗ reached ER (recvCell (bwd 1 c) 4) 0 ∗ reached ER (recvCell (bwd 1 c) 5) 0)
  | 1 => iprop((∃ f, slotPts (bwd 2 c) 2 f) ∗ (∃ f, slotPts (bwd 2 c) 3 f)
      ∗ reached ER (recvCell (bwd 2 c) 2) 0 ∗ reached ER (recvCell (bwd 2 c) 3) 0)
  | 2 => iprop((∃ f, slotPts (bwd 3 c) 0 f) ∗ (∃ f, slotPts (bwd 3 c) 1 f)
      ∗ reached ER (recvCell (bwd 3 c) 0) 0 ∗ reached ER (recvCell (bwd 3 c) 1) 0)

def pay (c : Dev nD) : Fin 17 → DT → sProp 𝕄
  | ⟨0, _⟩, d => barPay (F := F) c d
  | ⟨1, _⟩, _ => loadPay m c 0
  | ⟨2, _⟩, _ => loadPay m c 1
  | ⟨3, _⟩, _ => storePay m c 0
  | ⟨4, _⟩, _ => storePay m c 1
  | ⟨5, _⟩, _ => sendPay m c 0
  | ⟨6, _⟩, _ => sendPay m c 1
  | ⟨7, _⟩, _ => sendPay m c 2
  | ⟨8, _⟩, _ => sendPay m c 3
  | ⟨9, _⟩, _ => sendPay m c 4
  | ⟨10, _⟩, _ => sendPay m c 5
  | ⟨11, _⟩, _ => recvPay m c 0
  | ⟨12, _⟩, _ => recvPay m c 1
  | ⟨13, _⟩, _ => recvPay m c 2
  | ⟨14, _⟩, _ => recvPay m c 3
  | ⟨15, _⟩, _ => recvPay m c 4
  | ⟨16, _⟩, _ => recvPay m c 5
  | ⟨_ + 17, h⟩, _ => absurd h (by omega)

def amt (i : Fin 17) : ℕ := if i.val = 0 then 1 else if i.val < 3 then NL else if i.val < 5 then NO else N2

theorem amt_pos (i : Fin 17) : 0 < amt i := by
  unfold amt
  repeat' split
  all_goals first | exact Nat.one_pos | exact View.dmaCredit_pos _ (by decide)

-- One round per cell: the barrier cell has three duties of one unit, every other cell one duty of its copy's credit.
def Rd : Rounds.Schedule (GSem nD τ sig) DT 𝕄 where
  duties g r := if r = 0 ∧ g.1.2 = .tc then (match semIdx g.2 with | some i => if i.val = 0 then Finset.univ else {0} | none => ∅) else ∅
  unitless _ := False
  amount g _ _ := match semIdx g.2 with | some i => amt i | none => 1
  payload g _ d := match semIdx g.2 with | some i => pay m g.1.1 i d | none => iprop(emp)
  amount_pos g _ _ _ := by
    show 0 < (match semIdx g.2 with | some i => amt i | none => 1)
    split
    · exact amt_pos _
    · exact Nat.one_pos

theorem pay_storable (c : Dev nD) (i : Fin 17) (d : DT) : BI.Storable (upEmb : UEmb _ 𝕄) (pay (F := F) m c i d) := by
  unfold pay
  split
  · unfold barPay; split <;> infer_instance
  all_goals first
    | (unfold loadPay; infer_instance)
    | (unfold storePay; infer_instance)
    | (unfold sendPay; infer_instance)
    | (unfold recvPay; infer_instance)
    | (rename_i h; exact absurd h (by omega))

instance Rd_payload_storable (g : GSem nD τ sig) (r : ℕ) (d : DT) :
    BI.Storable (upEmb : UEmb _ 𝕄) ((Rd (F := F) m).payload g r d) := by
  show BI.Storable upEmb (match semIdx g.2 with | some i => pay m g.1.1 i d | none => iprop(emp))
  split
  · exact pay_storable m _ _ _
  · infer_instance

section Sched
variable (c : Dev nD)

theorem duties_at (i : Fin 17) : (Rd (F := F) m).duties (kcell (c, i)) 0 = if i.val = 0 then Finset.univ else {0} := by
  dsimp only [Rd]; rw [if_pos ⟨rfl, rfl⟩, semIdx_csem]
theorem amount_at (i : Fin 17) (d : DT) : (Rd (F := F) m).amount (kcell (c, i)) 0 d = amt i := by
  dsimp only [Rd]; rw [semIdx_csem]
theorem payload_at (i : Fin 17) (d : DT) : (Rd (F := F) m).payload (kcell (c, i)) 0 d = pay m c i d := by
  dsimp only [Rd]; rw [semIdx_csem]
theorem duties_later (g : GSem nD τ sig) : ∀ r, 1 ≤ r → (Rd (F := F) m).duties g r = ∅ :=
  fun r hr => by dsimp only [Rd]; rw [if_neg fun h => by omega]

theorem duties_bar : (Rd (F := F) m).duties (barCell c) 0 = Finset.univ := duties_at m c 0
theorem duties_own (i : Fin 17) (hi : i.val ≠ 0) : (Rd (F := F) m).duties (kcell (c, i)) 0 = {0} := by
  rw [duties_at, if_neg hi]
theorem expect_bar : (Rd (F := F) m).expect (barCell c) 0 = 3 := by
  unfold Schedule.expect Schedule.amountOf
  have h : ∀ d, (Rd (F := F) m).amount (barCell c) 0 d = 1 := fun d => amount_at m c 0 d
  rw [duties_bar]; simp only [h]; simp
theorem expect_own (i : Fin 17) (hi : i.val ≠ 0) : (Rd (F := F) m).expect (kcell (c, i)) 0 = amt i := by
  unfold Schedule.expect Schedule.amountOf; rw [duties_own m c i hi, Finset.sum_singleton, amount_at]
theorem rest_own (i : Fin 17) (hi : i.val ≠ 0) :
    bigSep ((Rd (F := F) m).duties (kcell (c, i)) 0 \ ∅) (fun d => (Rd (F := F) m).payload (kcell (c, i)) 0 d) = pay m c i 0 := by
  rw [Finset.sdiff_empty, duties_own m c i hi, bigSep_singleton, payload_at]
theorem rest_bar :
    bigSep ((Rd (F := F) m).duties (barCell c) 0 \ ∅) (fun d => (Rd (F := F) m).payload (barCell c) 0 d)
      = iprop(barPay c 0 ∗ barPay c 1 ∗ barPay (F := F) c 2) := by
  rw [Finset.sdiff_empty, duties_bar, bigSep_univ_eq_bigSepL [(0 : Fin 3), 1, 2] (by decide) (by decide),
    show (Rd (F := F) m).payload (barCell c) 0 = barPay c from funext (payload_at m c 0)]
  rfl

end Sched

-- Summed so that each payment, in program order, takes off the last summand.
def O₀ (c : Dev nD) : CellTallies nD τ sig Unit :=
  tallyAt (recvCell (fwd 3 c) 5) () N2 + tallyAt (recvCell (fwd 1 c) 1) () N2 + tallyAt (recvCell (fwd 2 c) 3) () N2
    + tallyAt (recvCell (fwd 3 c) 4) () N2 + tallyAt (recvCell (fwd 1 c) 0) () N2 + tallyAt (recvCell (fwd 2 c) 2) () N2
    + tallyAt (barCell (fwd 3 c)) () 1 + tallyAt (barCell (fwd 2 c)) () 1 + tallyAt (barCell (fwd 1 c)) () 1

def L (g : GSem nD τ sig) : Finset Unit := if g.1.2 = .tc then {()} else ∅
-- Barrier cells at level 1, landing cells at level 2, all others at 0.
def lv (g : GSem nD τ sig) (_ : Unit) : ℕ :=
  if g.2 = .reg barS then 1 else if (∃ k : Fin 6, g.2 = .dma (recvS k)) then 2 else 0

theorem L_of_ne (g : GSem nD τ sig) (h : g.1.2 ≠ .tc) : L g = ∅ := if_neg h
theorem L_tc (c : Dev nD) (sm : SemLoc sig) : L ((c : Thread nD τ), sm) = {()} := if_pos rfl

def records (K : Dev nD × Fin 17 → ℕ) : sProp 𝕄 :=
  iprop((bigSep Finset.univ fun ck : Dev nD × Fin 17 => cellInv ER (Rd m) (K ck) (kcell ck))
    ∗ bigSep Finset.univ fun ck : Dev nD × Fin 17 => reached ER (kcell ck) 0)

instance records_persistent (K : Dev nD × Fin 17 → ℕ) : BI.Persistent (records (F := F) m K) := by unfold records; infer_instance

theorem inv_at (K : Dev nD × Fin 17 → ℕ) (ck : Dev nD × Fin 17) :
    records (F := F) m K ⊢ cellInv ER (Rd m) (K ck) (kcell ck) := by
  unfold records; exact sep_elim_left.trans (bigSep_elim (Finset.mem_univ ck))
theorem reached_at (K : Dev nD × Fin 17 → ℕ) (ck : Dev nD × Fin 17) :
    records (F := F) m K ⊢ reached ER (kcell ck) 0 := by
  unfold records; exact sep_elim_right.trans (bigSep_elim (Finset.mem_univ ck))

-- The tokens of the duties device c itself pays.
def payToks (c : Dev nD) : sProp 𝕄 :=
  iprop((bigSep Finset.univ fun e : Fin 3 => dutyTok ER (barCell (fwd (e.val + 1) c)) 0 e)
    ∗ (bigSep Finset.univ fun k : Fin 6 => dutyTok ER (recvCell (fwd (dOf k) c) k) 0 (0 : DT))
    ∗ (bigSep Finset.univ fun i : Fin 10 => dutyTok ER (kcell (c, ⟨i.val + 1, by omega⟩)) 0 (0 : DT)))

def linear (c : Dev nD) : sProp 𝕄 :=
  iprop((bigSep Finset.univ fun i : Fin 17 => atPos ER (kcell (c, i)) 0 ∅ 0) ∗ payToks c)

def ghost (K : Dev nD × Fin 17 → ℕ) (c : Dev nD) : sProp 𝕄 := iprop(records m K ∗ linear c)

def creds (c : Dev nD) : sProp 𝕄 :=
  iprop(cred (tallyAt (barCell c) () 3) ∗ bigSep Finset.univ fun k : Fin 6 => cred (tallyAt (recvCell c k) () N2))

def start (c : Dev nD) : sProp 𝕄 :=
  iprop((∃ K, ghost m K c) ∗ creds c ∗ levAts L lv)

abbrev someW (c : Dev nD) (b : Ref sig .tc) : sProp 𝕄 :=
  iprop(∃ f : Buf (Elt F) ((c : Thread nD τ).loc b), ((c : Thread nD τ).loc b) ↦{fullShare} f)

def Φ₀ (c : Dev nD) : sProp 𝕄 :=
  iprop(start m c ∗ (someW c cc0_scratch0 ∗ someW c cc0_scratch1 ∗ someW c cc0_scratch2 ∗ someW c cc0_scratch3)
    ∗ (((c : Thread nD τ).loc main_arg0) ↦{fullShare} m ((c : Thread nD τ).loc main_arg0))
    ∗ (((c : Thread nD τ).loc main_v1) ↦{fullShare} m ((c : Thread nD τ).loc main_v1)))

def Φ₁ (c : Dev nD) : sProp 𝕄 :=
  iprop((someW c cc0_scratch0 ∗ someW c cc0_scratch1 ∗ someW c cc0_scratch2 ∗ someW c cc0_scratch3)
    ∗ (bigSep Finset.univ fun i : Fin 16 => semVal ((c : Thread nD τ), osem i) 0)
    ∗ (((c : Thread nD τ).loc main_arg0) ↦{fullShare} m ((c : Thread nD τ).loc main_arg0))
    ∗ (((c : Thread nD τ).loc main_v1) ↦{fullShare} (outAt m c : Vec F S4x256x128 .f32)))

def tB (c : Dev nD) : (cc0_stg0_0 : Ref sig .tc).ty.Contents (Elt F) :=
  (win0_0.blk t0_0).view.read (Elt F) (m ((c : Thread nD τ).loc main_arg1))
def wscB (c : Dev nD) : (cc0_stg1_0 : Ref sig .tc).ty.Contents (Elt F) :=
  (win0_1.blk t0_0).view.read (Elt F) (m ((c : Thread nD τ).loc main_arg2))
def wshB (c : Dev nD) : (cc0_stg2_0 : Ref sig .tc).ty.Contents (Elt F) :=
  (win0_2.blk t0_0).view.read (Elt F) (m ((c : Thread nD τ).loc main_arg3))

def dats (_ : Fin 1) (c : Dev nD) : Dat τ (Elt F) Unit ℕ UU ℕ cfg0 c where
  A w := m ((cfg0.win w).arr.view.loc (c : Thread nD τ))
  after w _ := match w with
    | ⟨0, _⟩ => tB m c
    | ⟨1, _⟩ => wscB m c
    | ⟨2, _⟩ => wshB m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem dev1_eq (c : Dev nD) : (⟨k0_dev1 c, k0_dev1_lt c⟩ : Dev nD) = fwd 1 c := by revert c; decide +kernel
theorem dev2_eq (c : Dev nD) : (⟨k0_dev2 c, k0_dev2_lt c⟩ : Dev nD) = fwd 2 c := by revert c; decide +kernel
theorem dev3_eq (c : Dev nD) : (⟨k0_dev3 c, k0_dev3_lt c⟩ : Dev nD) = fwd 3 c := by revert c; decide +kernel
theorem dev4_eq (c : Dev nD) : (⟨k0_dev4 c, k0_dev4_lt c⟩ : Dev nD) = fwd 2 c := by revert c; decide +kernel
theorem dev5_eq (c : Dev nD) : (⟨k0_dev5 c, k0_dev5_lt c⟩ : Dev nD) = fwd 1 c := by revert c; decide +kernel
theorem dev6_eq (c : Dev nD) : (⟨k0_dev6 c, k0_dev6_lt c⟩ : Dev nD) = fwd 3 c := by revert c; decide +kernel
theorem dev7_eq (c : Dev nD) : (⟨k0_dev7 c, k0_dev7_lt c⟩ : Dev nD) = fwd 2 c := by revert c; decide +kernel
theorem dev8_eq (c : Dev nD) : (⟨k0_dev8 c, k0_dev8_lt c⟩ : Dev nD) = fwd 1 c := by revert c; decide +kernel
theorem dev9_eq (c : Dev nD) : (⟨k0_dev9 c, k0_dev9_lt c⟩ : Dev nD) = fwd 3 c := by revert c; decide +kernel

theorem bwd_fwd (d : Fin 4) (c : Dev nD) : bwd d.val (fwd d.val c) = c := by revert d c; decide
theorem fwd_bwd (d : Fin 4) (c : Dev nD) : fwd d.val (bwd d.val c) = c := by revert d c; decide

end Cert.Kernel.KP

end
-- ==== Proof.KernelViewsA.lean ====
import proofs.«900517_g7700000000000518_dist_diff_adaln_cshard_i_b4_s256_c128_v7x_i4_f32_1_alg».proof.Proof.KernelProto
import Idealize.ShloMosaic.Lib.Ring

noncomputable section

namespace Cert.Kernel.KV

open Cert.Kernel Cert.Kernel.Gen Cert.Kernel.KD Cert.Kernel.KP
open Idealize.ShloMosaic Idealize.ShloMosaic.TcCoe
open Idealize.SL Idealize.SL.RA Idealize.SL.BI Idealize.SL.BI.BIBase
open scoped Idealize.SL.BI

variable {F : FTy → Type} [FloatOps F]

local notation "𝕄" => MT nD τ sig Unit (Elt F) ℕ UU ℕ

/-- The rectangles the buffers are cut into, each by the offset that varies. -/
abbrev rowsR (r : ℕ) (inb : ∀ a, (![0, r, 0] : Fin 3 → ℕ) a + S4x128x128.size a ≤ S4x256x128.size a := by decide) : Rect S4x256x128 :=
  Rect.unit ![0, r, 0] S4x128x128.size inb
abbrev ovR (h : ℕ) (inb : ∀ a, (![h, 0, 0, 0] : Fin 4 → ℕ) a + S1x4x128x128.size a ≤ S2x4x128x128.size a := by decide) : Rect S2x4x128x128 :=
  Rect.unit ![h, 0, 0, 0] S1x4x128x128.size inb
abbrev msR (h : ℕ) (inb : ∀ a, (![h, 0, 0, 0] : Fin 4 → ℕ) a + S1x2x4x128.size a ≤ S2x2x4x128.size a := by decide) : Rect S2x2x4x128 :=
  Rect.unit ![h, 0, 0, 0] S1x2x4x128.size inb
abbrev msrR (h r : ℕ) (inb : ∀ a, (![h, r, 0, 0] : Fin 4 → ℕ) a + S1x1x4x128.size a ≤ S2x2x4x128.size a) : Rect S2x2x4x128 :=
  Rect.unit ![h, r, 0, 0] S1x1x4x128.size inb
abbrev cmR (k : ℕ) (inb : ∀ a, (![k, 0, 0, 0] : Fin 4 → ℕ) a + S1x2x4x128.size a ≤ S6x2x4x128.size a := by decide) : Rect S6x2x4x128 :=
  Rect.unit ![k, 0, 0, 0] S1x2x4x128.size inb

section
variable {κ : Kind} {b : Ref sig κ} {off size off' size' : Fin b.ty.shape.rank → ℕ} {inb : ∀ a, off a + size a ≤ b.ty.shape.size a}
  {inb' : ∀ a, off' a + size' a ≤ b.ty.shape.size a} {s' : Shape}

/-- Slicing a whole buffer, and dropping unit axes afterwards, keeps exactly the rectangle's elements. -/
theorem set_w : ((Memref.whole b).slice (Rect.unit off size inb) fun _ => rfl).view.set = (Rect.unit off size inb).set :=
  View.set_slice_whole b _
theorem set_sq (hq : (Rect.unit off size inb).shape.Squeezes s') :
    (((Memref.whole b).slice (Rect.unit off size inb) fun _ => rfl).squeeze s' hq).view.set = (Rect.unit off size inb).set :=
  (View.set_reshape _ _).trans set_w

/-- A whole buffer's view sends an index to itself. -/
theorem setOn_whole (M : Finset b.ty.shape.Idx) : (Memref.whole b : Memref sig κ _ _ _).view.setOn M = M :=
  Finset.map_refl

/-- Unit-stride rectangles are nested when their spans are, axis by axis. -/
theorem unit_subset (h : ∀ a, off' a ≤ off a ∧ off a + size a ≤ off' a + size' a) :
    (Rect.unit off size inb).set ⊆ (Rect.unit off' size' inb').set := fun i hi =>
  Rect.mem_set_unit.mpr fun a => by have h1 := Rect.mem_set_unit.mp hi a; have h2 := h a; omega

/-- Hence an access at a rectangle nested in a piece's rectangle stays among the piece's elements. -/
theorem fp_w (h : ∀ a, off' a ≤ off a ∧ off a + size a ≤ off' a + size' a) :
    (Memref.whole b : Memref sig κ _ _ _).view.setOn (Rect.unit off size inb).toLoadRect.set
      ⊆ ((Memref.whole b).slice (Rect.unit off' size' inb') fun _ => rfl).view.set := by
  rw [setOn_whole, set_w]; exact unit_subset h
theorem fp_sq (hq : (Rect.unit off' size' inb').shape.Squeezes s') (h : ∀ a, off' a ≤ off a ∧ off a + size a ≤ off' a + size' a) :
    (Memref.whole b : Memref sig κ _ _ _).view.setOn (Rect.unit off size inb).toLoadRect.set
      ⊆ (((Memref.whole b).slice (Rect.unit off' size' inb') fun _ => rfl).squeeze s' hq).view.set := by
  rw [setOn_whole, set_sq]; exact unit_subset h
theorem fps_sq (hq : (Rect.unit off' size' inb').shape.Squeezes s') (h : ∀ a, off' a ≤ off a ∧ off a + size a ≤ off' a + size' a) :
    ((Memref.whole b : Memref sig κ _ _ _).access (Rect.unit off size inb)).setOn Finset.univ
      ⊆ (((Memref.whole b).slice (Rect.unit off' size' inb') fun _ => rfl).squeeze s' hq).view.set := by
  rw [View.setOn_univ, set_sq]
  show ((View.whole b).slice _).set ⊆ _
  rw [View.set_slice_whole]; exact unit_subset h
end

/-- Equal pieces along one axis share no element and cover the buffer, so holding it is holding them all. -/
theorem held_cut (c : Dev nD) (b : Ref sig .tc) {n : ℕ} (I : Fin n → Finset b.ty.shape.Idx) (a₀ : Fin b.ty.shape.rank) (R : ℕ)
    (off : Fin n → Fin b.ty.shape.rank → ℕ) (size : Fin b.ty.shape.rank → ℕ) (inb : ∀ k a, off k a + size a ≤ b.ty.shape.size a)
    (hI : ∀ k, I k = (Rect.unit (off k) size (inb k)).set) (hoff₀ : ∀ k, off k a₀ = R * k.val)
    (hoff : ∀ k a, a ≠ a₀ → off k a = 0) (hsz₀ : size a₀ = R) (hsz : ∀ a, a ≠ a₀ → size a = b.ty.shape.size a)
    (hN : n * R = b.ty.shape.size a₀) (q : PosShare TreeShare) (f : Buf (Elt F) ((c : Thread nD τ).loc b)) :
    (((c : Thread nD τ).loc b ↦{q} f) : sProp 𝕄) = bigSep Finset.univ fun k => (c : Thread nD τ).loc b ↦[I k]{q} f := by
  obtain rfl : I = fun k => (Rect.unit (off k) size (inb k)).set := funext hI
  exact Ring.pointsTo_blocks _ (Ring.lead_disjoint a₀ R off size inb hoff₀ hsz₀)
    (Ring.lead_cover a₀ R off size inb hoff₀ hoff hsz₀ hsz hN) f

theorem split_x (c : Dev nD) (q : PosShare TreeShare) (f : Vec F S4x256x128 .f32) :
    (((c : Thread nD τ).loc main_arg0 ↦{q} f) : sProp 𝕄)
      ⊣⊢ iprop(((xS 0).view.loc (c : Thread nD τ) ↦[(xS 0).view.set]{q} f) ∗ ((xS 1).view.loc (c : Thread nD τ) ↦[(xS 1).view.set]{q} f)) := by
  rw [held_cut c main_arg0 ![(xS 0).view.set, (xS 1).view.set] 1 128 (fun h => ![0, 128 * h.val, 0]) S4x128x128.size (by decide) (fun | 0 | 1 => set_w)
    (by decide) (by decide) rfl (by decide) rfl q f, Ring.bigSep_fin2]; exact .rfl
theorem split_xv (c : Dev nD) (q : PosShare TreeShare) (f : Vec F S4x256x128 .f32) :
    (((c : Thread nD τ).loc cc0_scratch0 ↦{q} f) : sProp 𝕄)
      ⊣⊢ iprop(((xvS 0).view.loc (c : Thread nD τ) ↦[(xvS 0).view.set]{q} f) ∗ ((xvS 1).view.loc (c : Thread nD τ) ↦[(xvS 1).view.set]{q} f)) := by
  rw [held_cut c cc0_scratch0 ![(xvS 0).view.set, (xvS 1).view.set] 1 128 (fun h => ![0, 128 * h.val, 0]) S4x128x128.size (by decide) (fun | 0 | 1 => set_w)
    (by decide) (by decide) rfl (by decide) rfl q f, Ring.bigSep_fin2]; exact .rfl
theorem split_o (c : Dev nD) (q : PosShare TreeShare) (f : Vec F S4x256x128 .f32) :
    (((c : Thread nD τ).loc main_v1 ↦{q} f) : sProp 𝕄)
      ⊣⊢ iprop(((oS 0).view.loc (c : Thread nD τ) ↦[(oS 0).view.set]{q} f) ∗ ((oS 1).view.loc (c : Thread nD τ) ↦[(oS 1).view.set]{q} f)) := by
  rw [held_cut c main_v1 ![(oS 0).view.set, (oS 1).view.set] 1 128 (fun h => ![0, 128 * h.val, 0]) S4x128x128.size (by decide) (fun | 0 | 1 => set_w)
    (by decide) (by decide) rfl (by decide) rfl q f, Ring.bigSep_fin2]; exact .rfl
theorem split_ov (c : Dev nD) (q : PosShare TreeShare) (f : Vec F S2x4x128x128 .f32) :
    (((c : Thread nD τ).loc cc0_scratch1 ↦{q} f) : sProp 𝕄)
      ⊣⊢ iprop(((ovS 0).view.loc (c : Thread nD τ) ↦[(ovS 0).view.set]{q} f) ∗ ((ovS 1).view.loc (c : Thread nD τ) ↦[(ovS 1).view.set]{q} f)) := by
  rw [held_cut c cc0_scratch1 ![(ovS 0).view.set, (ovS 1).view.set] 0 1 (fun h => ![h.val, 0, 0, 0]) S1x4x128x128.size (by decide) (fun | 0 | 1 => set_sq (b := cc0_scratch1) squeezes_S1x4x128x128_S4x128x128)
    (by decide) (by decide) rfl (by decide) rfl q f, Ring.bigSep_fin2]; exact .rfl
theorem split_ms (c : Dev nD) (q : PosShare TreeShare) (f : Vec F S2x2x4x128 .f32) :
    (((c : Thread nD τ).loc cc0_scratch2 ↦{q} f) : sProp 𝕄)
      ⊣⊢ iprop(((msS 0).view.loc (c : Thread nD τ) ↦[(msS 0).view.set]{q} f) ∗ ((msS 1).view.loc (c : Thread nD τ) ↦[(msS 1).view.set]{q} f)) := by
  rw [held_cut c cc0_scratch2 ![(msS 0).view.set, (msS 1).view.set] 0 1 (fun h => ![h.val, 0, 0, 0]) S1x2x4x128.size (by decide) (fun | 0 | 1 => set_sq (b := cc0_scratch2) squeezes_S1x2x4x128_S2x4x128)
    (by decide) (by decide) rfl (by decide) rfl q f, Ring.bigSep_fin2]; exact .rfl
theorem split_cm (c : Dev nD) (f : Vec F S6x2x4x128 .f32) :
    (((c : Thread nD τ).loc cc0_scratch3 ↦{fullShare} f) : sProp 𝕄)
      ⊣⊢ iprop(slotPts c 0 f ∗ slotPts c 1 f ∗ slotPts c 2 f ∗ slotPts c 3 f ∗ slotPts c 4 f ∗ slotPts c 5 f) := by
  rw [held_cut c cc0_scratch3
    ![(cmS 0).view.set, (cmS 1).view.set, (cmS 2).view.set, (cmS 3).view.set, (cmS 4).view.set, (cmS 5).view.set]
    0 1 (fun k => ![k.val, 0, 0, 0]) S1x2x4x128.size (by decide) (fun | 0 | 1 | 2 | 3 | 4 | 5 => set_sq (b := cc0_scratch3) squeezes_S1x2x4x128_S2x4x128) (by decide) (by decide) rfl
    (by decide) rfl fullShare f, bigSep_univ_eq_bigSepL [0, 1, 2, 3, 4, 5] (by decide) (by decide)]; exact .rfl

theorem fp_xv0 : xvM.view.setOn (rowsR 0).toLoadRect.set ⊆ (xvS 0).view.set := fp_w (by decide)
theorem fp_xv1 : xvM.view.setOn (rowsR 128).toLoadRect.set ⊆ (xvS 1).view.set := fp_w (by decide)
theorem fp_ms0 : msM.view.setOn (msR 0).toLoadRect.set ⊆ (msS 0).view.set := fp_sq (by exact squeezes_S1x2x4x128_S2x4x128) (by decide)
theorem fp_ov0 : ovM.view.setOn (ovR 0).toLoadRect.set ⊆ (ovS 0).view.set := fp_sq (by exact squeezes_S1x4x128x128_S4x128x128) (by decide)
theorem fps_ov0 : (ovM.access (ovR 0)).setOn Finset.univ ⊆ (ovS 0).view.set := fps_sq (by exact squeezes_S1x4x128x128_S4x128x128) (by decide)
theorem fp_ms00 : msM.view.setOn (msrR 0 0 inb_S2x2x4x128_S1x1x4x128_0_0_0_0).toLoadRect.set ⊆ (msS 0).view.set := fp_sq (by exact squeezes_S1x2x4x128_S2x4x128) (by decide)
theorem fps_ms00 : (msM.access (msrR 0 0 inb_S2x2x4x128_S1x1x4x128_0_0_0_0)).setOn Finset.univ ⊆ (msS 0).view.set := fps_sq (by exact squeezes_S1x2x4x128_S2x4x128) (by decide)
theorem fp_ms01 : msM.view.setOn (msrR 0 1 inb_S2x2x4x128_S1x1x4x128_0_1_0_0).toLoadRect.set ⊆ (msS 0).view.set := fp_sq (by exact squeezes_S1x2x4x128_S2x4x128) (by decide)
theorem fps_ms01 : (msM.access (msrR 0 1 inb_S2x2x4x128_S1x1x4x128_0_1_0_0)).setOn Finset.univ ⊆ (msS 0).view.set := fps_sq (by exact squeezes_S1x2x4x128_S2x4x128) (by decide)
theorem fp_ms1 : msM.view.setOn (msR 1).toLoadRect.set ⊆ (msS 1).view.set := fp_sq (by exact squeezes_S1x2x4x128_S2x4x128) (by decide)
theorem fp_ov1 : ovM.view.setOn (ovR 1).toLoadRect.set ⊆ (ovS 1).view.set := fp_sq (by exact squeezes_S1x4x128x128_S4x128x128) (by decide)
theorem fps_ov1 : (ovM.access (ovR 1)).setOn Finset.univ ⊆ (ovS 1).view.set := fps_sq (by exact squeezes_S1x4x128x128_S4x128x128) (by decide)
theorem fp_ms10 : msM.view.setOn (msrR 1 0 inb_S2x2x4x128_S1x1x4x128_1_0_0_0).toLoadRect.set ⊆ (msS 1).view.set := fp_sq (by exact squeezes_S1x2x4x128_S2x4x128) (by decide)
theorem fps_ms10 : (msM.access (msrR 1 0 inb_S2x2x4x128_S1x1x4x128_1_0_0_0)).setOn Finset.univ ⊆ (msS 1).view.set := fps_sq (by exact squeezes_S1x2x4x128_S2x4x128) (by decide)
theorem fp_ms11 : msM.view.setOn (msrR 1 1 inb_S2x2x4x128_S1x1x4x128_1_1_0_0).toLoadRect.set ⊆ (msS 1).view.set := fp_sq (by exact squeezes_S1x2x4x128_S2x4x128) (by decide)
theorem fps_ms11 : (msM.access (msrR 1 1 inb_S2x2x4x128_S1x1x4x128_1_1_0_0)).setOn Finset.univ ⊆ (msS 1).view.set := fps_sq (by exact squeezes_S1x2x4x128_S2x4x128) (by decide)
theorem fp_cm0 : cmM.view.setOn (cmR 0).toLoadRect.set ⊆ (cmS 0).view.set := fp_sq (by exact squeezes_S1x2x4x128_S2x4x128) (by decide)
theorem fp_cm1 : cmM.view.setOn (cmR 1).toLoadRect.set ⊆ (cmS 1).view.set := fp_sq (by exact squeezes_S1x2x4x128_S2x4x128) (by decide)
theorem fp_cm2 : cmM.view.setOn (cmR 2).toLoadRect.set ⊆ (cmS 2).view.set := fp_sq (by exact squeezes_S1x2x4x128_S2x4x128) (by decide)
theorem fp_cm3 : cmM.view.setOn (cmR 3).toLoadRect.set ⊆ (cmS 3).view.set := fp_sq (by exact squeezes_S1x2x4x128_S2x4x128) (by decide)
theorem fp_cm4 : cmM.view.setOn (cmR 4).toLoadRect.set ⊆ (cmS 4).view.set := fp_sq (by exact squeezes_S1x2x4x128_S2x4x128) (by decide)
theorem fp_cm5 : cmM.view.setOn (cmR 5).toLoadRect.set ⊆ (cmS 5).view.set := fp_sq (by exact squeezes_S1x2x4x128_S2x4x128) (by decide)

end Cert.Kernel.KV

end
-- ==== Proof.KernelViewsB.lean ====
import proofs.«900517_g7700000000000518_dist_diff_adaln_cshard_i_b4_s256_c128_v7x_i4_f32_1_alg».proof.Proof.KernelProto
import Idealize.ShloMosaic.Lib.ValueLayout

noncomputable section

namespace Cert.Kernel.KV

open Cert.Kernel Cert.Kernel.Gen Cert.Kernel.KD Cert.Kernel.KP
open Idealize.ShloMosaic Idealize.ShloMosaic.ValueIdx

variable {F : FTy → Type} [FloatOps F]

variable (m : (ℓ : Loc nD τ sig) → Buf (Elt F) ℓ)

section Generic
variable {sg : RefSig} {κ : Kind} {Val : EltTy → Type}

/-- A whole-piece write shows the written vector on the piece, so it lands g once the source reads as g does. -/
theorem land_of_read {spd sps : Space} {s : Shape} {e : EltTy} (vd : View sg κ spd s e) (vs : View sg κ sps s e)
    (fd g : vd.ty.Contents Val) (fs : vs.ty.Contents Val) (h : ∀ x, vs.read Val fs x = vd.read Val g x) :
    ∀ i ∈ vd.set, vd.write Val fd (vs.read Val fs) Finset.univ i = g i := by
  intro i hi
  obtain ⟨x, -, rfl⟩ := Finset.mem_map.mp hi
  rw [View.write_emb_of_mem _ _ (Finset.mem_univ x), h x, View.read_apply, cast_cast, cast_eq]

/-- On its own rectangle a whole write shows the written vector. -/
theorem one_store (b : Ref sg κ) (r : Rect b.ty.shape) (f g : b.ty.Contents Val) (w : r.shape.Idx → Val b.ty.elt)
    (h : ∀ y, g (r.emb y) = w y) (i : b.ty.shape.Idx) (hi : i ∈ r.set) :
    ((View.whole b).slice r).write Val f w Finset.univ i = g i := by
  obtain ⟨y, rfl⟩ := r.exists_idx_of_mem hi
  exact (View.write_emb_of_mem (v := (View.whole b).slice r) f w (Finset.mem_univ y)).trans (h y).symm

/-- A second whole write hides the first only on its own rectangle. -/
theorem two_stores (b : Ref sg κ) (r₁ r₂ : Rect b.ty.shape) (f g : b.ty.Contents Val)
    (w₁ : r₁.shape.Idx → Val b.ty.elt) (w₂ : r₂.shape.Idx → Val b.ty.elt)
    (h₁ : ∀ y, r₁.emb y ∉ r₂.set → g (r₁.emb y) = w₁ y) (h₂ : ∀ y, g (r₂.emb y) = w₂ y) (i : b.ty.shape.Idx)
    (hi : i ∈ r₁.set ∨ i ∈ r₂.set) :
    ((View.whole b).slice r₂).write Val (((View.whole b).slice r₁).write Val f w₁ Finset.univ) w₂ Finset.univ i = g i := by
  by_cases h2 : i ∈ r₂.set
  · exact one_store b r₂ _ g w₂ h₂ i h2
  · have h1 : i ∈ r₁.set := hi.resolve_right h2
    obtain ⟨y, rfl⟩ := r₁.exists_idx_of_mem h1
    rw [View.write_of_not_mem (v := (View.whole b).slice r₂) _ w₂ Finset.univ
      (by rw [View.setOn_univ, View.set_slice_whole]; exact h2)]
    exact (View.write_emb_of_mem (v := (View.whole b).slice r₁) f w₁ (Finset.mem_univ y)).trans (h₁ y h2).symm

end Generic

/-- The piece's embedding adds its offset: only the first coordinate moves, to o. -/
theorem emb_lead4 {n0 n1 n2 n3 : ℕ} (o : ℕ) (ho : o < n0)
    (inb : ∀ a, (![o, 0, 0, 0] : Fin 4 → ℕ) a + (![1, n1, n2, n3] : Fin 4 → ℕ) a ≤ (⟨4, ![n0, n1, n2, n3]⟩ : Shape).size a)
    (u : Fin 1) (r : Fin n1) (b : Fin n2) (s : Fin n3) :
    (Rect.unit (s := ⟨4, ![n0, n1, n2, n3]⟩) ![o, 0, 0, 0] ![1, n1, n2, n3] inb).emb (ix4 u r b s) = ix4 ⟨o, ho⟩ r b s := by
  funext a; apply Fin.ext
  have hu : u.val = 0 := by omega
  match a with
  | ⟨0, _⟩ => show o + 1 * u.val = o; omega
  | ⟨1, _⟩ => show 0 + 1 * r.val = r.val; omega
  | ⟨2, _⟩ => show 0 + 1 * b.val = b.val; omega
  | ⟨3, _⟩ => show 0 + 1 * s.val = s.val; omega

/-- Likewise with the second coordinate pinned at p as well. -/
theorem emb_lead4' {n0 n1 n2 n3 : ℕ} (o p : ℕ) (ho : o < n0) (hp : p < n1)
    (inb : ∀ a, (![o, p, 0, 0] : Fin 4 → ℕ) a + (![1, 1, n2, n3] : Fin 4 → ℕ) a ≤ (⟨4, ![n0, n1, n2, n3]⟩ : Shape).size a)
    (u w : Fin 1) (b : Fin n2) (s : Fin n3) :
    (Rect.unit (s := ⟨4, ![n0, n1, n2, n3]⟩) ![o, p, 0, 0] ![1, 1, n2, n3] inb).emb (ix4 u w b s) = ix4 ⟨o, ho⟩ ⟨p, hp⟩ b s := by
  funext a; apply Fin.ext
  have hu : u.val = 0 := by omega
  have hw : w.val = 0 := by omega
  match a with
  | ⟨0, _⟩ => show o + 1 * u.val = o; omega
  | ⟨1, _⟩ => show p + 1 * w.val = p; omega
  | ⟨2, _⟩ => show 0 + 1 * b.val = b.val; omega
  | ⟨3, _⟩ => show 0 + 1 * s.val = s.val; omega

/-- Here only the row moves, by o. -/
theorem emb_mid3 {n0 n1 n2 k : ℕ} (o : ℕ) (hk : o + k ≤ n1)
    (inb : ∀ a, (![0, o, 0] : Fin 3 → ℕ) a + (![n0, k, n2] : Fin 3 → ℕ) a ≤ (⟨3, ![n0, n1, n2]⟩ : Shape).size a)
    (b : Fin n0) (s : Fin k) (j : Fin n2) :
    (Rect.unit (s := ⟨3, ![n0, n1, n2]⟩) ![0, o, 0] ![n0, k, n2] inb).emb (ix3 b s j)
      = ix3 b ⟨o + s.val, by have := s.isLt; omega⟩ j := by
  funext a; apply Fin.ext
  match a with
  | ⟨0, _⟩ => show 0 + 1 * b.val = b.val; omega
  | ⟨1, _⟩ => show o + 1 * s.val = o + s.val; omega
  | ⟨2, _⟩ => show 0 + 1 * j.val = j.val; omega

theorem land_x0 (c : Dev nD) (fd : Vec F S4x256x128 .f32) (fs : Vec F S4x256x128 .f32) :
    ∀ i ∈ (xvS 0).view.set, ((xvS 0).view.write (Elt F) fd ((xS 0).view.read (Elt F) fs) Finset.univ : Vec F S4x256x128 .f32) i = fs i :=
  land_of_read (xvS 0).view (xS 0).view fd fs fs (fun _ => rfl)
theorem land_x1 (c : Dev nD) (fd : Vec F S4x256x128 .f32) (fs : Vec F S4x256x128 .f32) :
    ∀ i ∈ (xvS 1).view.set, ((xvS 1).view.write (Elt F) fd ((xS 1).view.read (Elt F) fs) Finset.univ : Vec F S4x256x128 .f32) i = fs i :=
  land_of_read (xvS 1).view (xS 1).view fd fs fs (fun _ => rfl)

/-- Both sides are the result of half h at the same coordinates: row 128 h + s of the array is row s of the half. -/
theorem o_lands (c : Dev nD) (h : ℕ) (hh : h < 2)
    {inbs : ∀ a, (![h, 0, 0, 0] : Fin 4 → ℕ) a + S1x4x128x128.size a ≤ S2x4x128x128.size a}
    {inbd : ∀ a, (![0, 128 * h, 0] : Fin 3 → ℕ) a + S4x128x128.size a ≤ S4x256x128.size a} (x : S4x128x128.Idx) :
    ovFull m c ((Rect.unit (s := S2x4x128x128) ![h, 0, 0, 0] S1x4x128x128.size inbs).emb (Shape.reshapeEquiv squeezes_S1x4x128x128_S4x128x128.numel_eq x))
      = outAt m c ((Rect.unit (s := S4x256x128) ![0, 128 * h, 0] S4x128x128.size inbd).emb x) := by
  obtain ⟨b, s, j, rfl⟩ : ∃ (b : Fin 4) (s j : Fin 128), x = ix3 b s j := ⟨x 0, x 1, x 2, eq_ix3 x⟩
  rw [reshapeEquiv_ix3_1abc, emb_lead4 (n0 := 2) h hh, emb_mid3 (n1 := 256) (128 * h) (by omega)]
  unfold ovFull outAt
  show (if h = 0 then _ else _) = (if hlt : 128 * h + s.val < 128 then _ else _)
  have hs := s.isLt
  by_cases h0 : h = 0
  · subst h0
    rw [if_pos rfl, dif_pos (by omega)]
    exact congrArg (outh0 m c) (funext fun a => Fin.ext (by
      match a with
      | ⟨0, _⟩ => rfl
      | ⟨1, _⟩ => rfl
      | ⟨2, _⟩ => show s.val = 128 * 0 + s.val; omega
      | ⟨3, _⟩ => rfl))
  · obtain rfl : h = 1 := by omega
    rw [if_neg h0, dif_neg (by omega)]
    exact congrArg (outh1 m c) (funext fun a => Fin.ext (by
      match a with
      | ⟨0, _⟩ => rfl
      | ⟨1, _⟩ => rfl
      | ⟨2, _⟩ => show s.val = 128 * 1 + s.val - 128; omega
      | ⟨3, _⟩ => rfl))

theorem land_o0 (c : Dev nD) (fd : Vec F S4x256x128 .f32) :
    ∀ i ∈ (oS 0).view.set, ((oS 0).view.write (Elt F) fd ((ovS 0).view.read (Elt F) (ovFull m c)) Finset.univ : Vec F S4x256x128 .f32) i = outAt m c i :=
  land_of_read (oS 0).view (ovS 0).view fd _ _ (o_lands m c 0 (by decide))
theorem land_o1 (c : Dev nD) (fd : Vec F S4x256x128 .f32) :
    ∀ i ∈ (oS 1).view.set, ((oS 1).view.write (Elt F) fd ((ovS 1).view.read (Elt F) (ovFull m c)) Finset.univ : Vec F S4x256x128 .f32) i = outAt m c i :=
  land_of_read (oS 1).view (ovS 1).view fd _ _ (o_lands m c 1 (by decide))

/-- Both sides are device c's statistic of half k mod 2, since d places on and d places back is c again. -/
theorem cm_lands (c : Dev nD) (k : ℕ) (hk : k < 6) (d : Fin 4) (hd : k / 2 + 1 = d.val)
    {inbs : ∀ a, (![k % 2, 0, 0, 0] : Fin 4 → ℕ) a + S1x2x4x128.size a ≤ S2x2x4x128.size a}
    {inbd : ∀ a, (![k, 0, 0, 0] : Fin 4 → ℕ) a + S1x2x4x128.size a ≤ S6x2x4x128.size a} (x : S2x4x128.Idx) :
    msFull m c ((Rect.unit (s := S2x2x4x128) ![k % 2, 0, 0, 0] S1x2x4x128.size inbs).emb (Shape.reshapeEquiv squeezes_S1x2x4x128_S2x4x128.numel_eq x))
      = cmFull m (fwd d.val c) ((Rect.unit (s := S6x2x4x128) ![k, 0, 0, 0] S1x2x4x128.size inbd).emb (Shape.reshapeEquiv squeezes_S1x2x4x128_S2x4x128.numel_eq x)) := by
  obtain ⟨r, b, s, rfl⟩ : ∃ (r : Fin 2) (b : Fin 4) (s : Fin 128), x = ix3 r b s := ⟨x 0, x 1, x 2, eq_ix3 x⟩
  rw [reshapeEquiv_ix3_1abc, emb_lead4 (n0 := 2) (k % 2) (Nat.mod_lt _ (by decide)), emb_lead4 (n0 := 6) k hk]
  show stat m _ c _ = stat m _ (bwd (k / 2 + 1) (fwd d.val c)) _
  rw [hd, bwd_fwd]

theorem land_cm0 (c : Dev nD) (fd : Vec F S6x2x4x128 .f32) :
    ∀ i ∈ (cmS 0).view.set, ((cmS 0).view.write (Elt F) fd ((msS 0).view.read (Elt F) (msFull m c)) Finset.univ : Vec F S6x2x4x128 .f32) i
      = cmFull m (fwd 1 c) i :=
  land_of_read (cmS 0).view (msS 0).view fd _ _ (cm_lands m c 0 (by decide) 1 rfl)
theorem land_cm1 (c : Dev nD) (fd : Vec F S6x2x4x128 .f32) :
    ∀ i ∈ (cmS 1).view.set, ((cmS 1).view.write (Elt F) fd ((msS 1).view.read (Elt F) (msFull m c)) Finset.univ : Vec F S6x2x4x128 .f32) i
      = cmFull m (fwd 1 c) i :=
  land_of_read (cmS 1).view (msS 1).view fd _ _ (cm_lands m c 1 (by decide) 1 rfl)
theorem land_cm2 (c : Dev nD) (fd : Vec F S6x2x4x128 .f32) :
    ∀ i ∈ (cmS 2).view.set, ((cmS 2).view.write (Elt F) fd ((msS 0).view.read (Elt F) (msFull m c)) Finset.univ : Vec F S6x2x4x128 .f32) i
      = cmFull m (fwd 2 c) i :=
  land_of_read (cmS 2).view (msS 0).view fd _ _ (cm_lands m c 2 (by decide) 2 rfl)
theorem land_cm3 (c : Dev nD) (fd : Vec F S6x2x4x128 .f32) :
    ∀ i ∈ (cmS 3).view.set, ((cmS 3).view.write (Elt F) fd ((msS 1).view.read (Elt F) (msFull m c)) Finset.univ : Vec F S6x2x4x128 .f32) i
      = cmFull m (fwd 2 c) i :=
  land_of_read (cmS 3).view (msS 1).view fd _ _ (cm_lands m c 3 (by decide) 2 rfl)
theorem land_cm4 (c : Dev nD) (fd : Vec F S6x2x4x128 .f32) :
    ∀ i ∈ (cmS 4).view.set, ((cmS 4).view.write (Elt F) fd ((msS 0).view.read (Elt F) (msFull m c)) Finset.univ : Vec F S6x2x4x128 .f32) i
      = cmFull m (fwd 3 c) i :=
  land_of_read (cmS 4).view (msS 0).view fd _ _ (cm_lands m c 4 (by decide) 3 rfl)
theorem land_cm5 (c : Dev nD) (fd : Vec F S6x2x4x128 .f32) :
    ∀ i ∈ (cmS 5).view.set, ((cmS 5).view.write (Elt F) fd ((msS 1).view.read (Elt F) (msFull m c)) Finset.univ : Vec F S6x2x4x128 .f32) i
      = cmFull m (fwd 3 c) i :=
  land_of_read (cmS 5).view (msS 1).view fd _ _ (cm_lands m c 5 (by decide) 3 rfl)

/-- On the half's elements the first coordinate is h, so the contents there are whichever half was stored. -/
theorem ov_stored (h : ℕ) (hh : h < 2) (c : Dev nD) (f : Vec F S2x4x128x128 .f32) (w : S1x4x128x128.Idx → Elt F .f32)
    {inb : ∀ a, (![h, 0, 0, 0] : Fin 4 → ℕ) a + S1x4x128x128.size a ≤ S2x4x128x128.size a}
    (hw : ∀ i : S2x4x128x128.Idx, (i 0).val = h → ovFull m c i = w (ix4 (n0 := 1) (n1 := 4) (n2 := 128) (n3 := 128) ⟨0, by decide⟩ ⟨(i 1).val, (i 1).isLt⟩ ⟨(i 2).val, (i 2).isLt⟩ ⟨(i 3).val, (i 3).isLt⟩)) :
    ∀ i ∈ ((ovM.slice (Rect.unit (s := S2x4x128x128) ![h, 0, 0, 0] S1x4x128x128.size inb) fun _ => rfl).squeeze S4x128x128 squeezes_S1x4x128x128_S4x128x128).view.set,
      ((ovM.access (Rect.unit (s := S2x4x128x128) ![h, 0, 0, 0] S1x4x128x128.size inb)).write (Elt F) f w Finset.univ : Vec F S2x4x128x128 .f32) i = ovFull m c i := by
  intro i hi
  have hm := Eq.mp (congrArg (fun S => i ∈ S) ((View.set_reshape (ovM.access (Rect.unit (s := S2x4x128x128) ![h, 0, 0, 0] S1x4x128x128.size inb)) squeezes_S1x4x128x128_S4x128x128.numel_eq).trans (View.set_slice_whole cc0_scratch1 _))) hi
  refine one_store cc0_scratch1 (Rect.unit (s := S2x4x128x128) ![h, 0, 0, 0] S1x4x128x128.size inb) f (ovFull m c) w (fun y => ?_) i hm
  obtain ⟨u, b, s, j, rfl⟩ : ∃ (u : Fin 1) (b : Fin 4) (s j : Fin 128), y = ix4 u b s j := ⟨y 0, y 1, y 2, y 3, eq_ix4 y⟩
  rw [emb_lead4 (n0 := 2) h hh]
  refine (hw _ rfl).trans (congrArg w (funext fun a => Fin.ext ?_))
  match a with
  | ⟨0, _⟩ => show 0 = u.val; omega
  | ⟨1, _⟩ => rfl
  | ⟨2, _⟩ => rfl
  | ⟨3, _⟩ => rfl

theorem stored_ov0 (c : Dev nD) (f : Vec F S2x4x128x128 .f32) :
    ∀ i ∈ (ovS 0).view.set, ((ovM.access (Rect.unit (s := S2x4x128x128) ![0, 0, 0, 0] S1x4x128x128.size inb_S2x4x128x128_S1x4x128x128_0_0_0_0)).write (Elt F) f (outh0 m c) Finset.univ : Vec F S2x4x128x128 .f32) i = ovFull m c i :=
  ov_stored m 0 (by decide) c f (outh0 m c) (fun _ h0 => if_pos h0)
theorem stored_ov1 (c : Dev nD) (f : Vec F S2x4x128x128 .f32) :
    ∀ i ∈ (ovS 1).view.set, ((ovM.access (Rect.unit (s := S2x4x128x128) ![1, 0, 0, 0] S1x4x128x128.size inb_S2x4x128x128_S1x4x128x128_1_0_0_0)).write (Elt F) f (outh1 m c) Finset.univ : Vec F S2x4x128x128 .f32) i = ovFull m c i :=
  ov_stored m 1 (by decide) c f (outh1 m c) (fun _ h0 => if_neg (by omega))

/-- The half's elements are those of its two rows; on each the contents are the row's stored statistic. -/
theorem ms_stored (h : ℕ) (hh : h < 2) (c : Dev nD) (f : Vec F S2x2x4x128 .f32) (w₀ w₁ : S1x1x4x128.Idx → Elt F .f32)
    {inb : ∀ a, (![h, 0, 0, 0] : Fin 4 → ℕ) a + S1x2x4x128.size a ≤ S2x2x4x128.size a}
    {inb₀ : ∀ a, (![h, 0, 0, 0] : Fin 4 → ℕ) a + S1x1x4x128.size a ≤ S2x2x4x128.size a}
    {inb₁ : ∀ a, (![h, 1, 0, 0] : Fin 4 → ℕ) a + S1x1x4x128.size a ≤ S2x2x4x128.size a}
    (h₀ : ∀ i : S1x2x4x128.Idx, (i 1).val = 0 → stat m ⟨h, hh⟩ c i = w₀ (ix4 (n0 := 1) (n1 := 1) (n2 := 4) (n3 := 128) ⟨0, by decide⟩ ⟨0, by decide⟩ ⟨(i 2).val, (i 2).isLt⟩ ⟨(i 3).val, (i 3).isLt⟩))
    (h₁ : ∀ i : S1x2x4x128.Idx, ¬(i 1).val = 0 → stat m ⟨h, hh⟩ c i = w₁ (ix4 (n0 := 1) (n1 := 1) (n2 := 4) (n3 := 128) ⟨0, by decide⟩ ⟨0, by decide⟩ ⟨(i 2).val, (i 2).isLt⟩ ⟨(i 3).val, (i 3).isLt⟩)) :
    ∀ i ∈ ((msM.slice (Rect.unit (s := S2x2x4x128) ![h, 0, 0, 0] S1x2x4x128.size inb) fun _ => rfl).squeeze S2x4x128 squeezes_S1x2x4x128_S2x4x128).view.set,
      ((msM.access (Rect.unit (s := S2x2x4x128) ![h, 1, 0, 0] S1x1x4x128.size inb₁)).write (Elt F) ((msM.access (Rect.unit (s := S2x2x4x128) ![h, 0, 0, 0] S1x1x4x128.size inb₀)).write (Elt F) f w₀ Finset.univ) w₁ Finset.univ : Vec F S2x2x4x128 .f32) i
        = msFull m c i := by
  intro i hi
  have hm := Rect.mem_set_unit.mp (Eq.mp (congrArg (fun S => i ∈ S) ((View.set_reshape (msM.access (Rect.unit (s := S2x2x4x128) ![h, 0, 0, 0] S1x2x4x128.size inb)) squeezes_S1x2x4x128_S2x4x128.numel_eq).trans (View.set_slice_whole cc0_scratch2 _))) hi)
  have h0 : h ≤ (i 0).val ∧ (i 0).val < h + 1 := hm 0
  have h1 : (i 1).val < 0 + 2 := (hm 1).2
  refine two_stores cc0_scratch2 (Rect.unit (s := S2x2x4x128) ![h, 0, 0, 0] S1x1x4x128.size inb₀) (Rect.unit (s := S2x2x4x128) ![h, 1, 0, 0] S1x1x4x128.size inb₁) f (msFull m c) w₀ w₁ (fun y _ => ?_) (fun y => ?_) i ?_
  · obtain ⟨u, w, b, s, rfl⟩ : ∃ (u w : Fin 1) (b : Fin 4) (s : Fin 128), y = ix4 u w b s := ⟨y 0, y 1, y 2, y 3, eq_ix4 y⟩
    rw [emb_lead4' (n0 := 2) (n1 := 2) h 0 hh (by decide)]
    refine (h₀ _ rfl).trans (congrArg w₀ (funext fun a => Fin.ext ?_))
    match a with
    | ⟨0, _⟩ => show 0 = u.val; omega
    | ⟨1, _⟩ => show 0 = w.val; omega
    | ⟨2, _⟩ => rfl
    | ⟨3, _⟩ => rfl
  · obtain ⟨u, w, b, s, rfl⟩ : ∃ (u w : Fin 1) (b : Fin 4) (s : Fin 128), y = ix4 u w b s := ⟨y 0, y 1, y 2, y 3, eq_ix4 y⟩
    rw [emb_lead4' (n0 := 2) (n1 := 2) h 1 hh (by decide)]
    refine (h₁ _ (by show ¬((1 : ℕ) = 0); omega)).trans (congrArg w₁ (funext fun a => Fin.ext ?_))
    match a with
    | ⟨0, _⟩ => show 0 = u.val; omega
    | ⟨1, _⟩ => show 0 = w.val; omega
    | ⟨2, _⟩ => rfl
    | ⟨3, _⟩ => rfl
  · by_cases hr : (i 1).val = 0
    · refine Or.inl (Rect.mem_set_unit.mpr fun a => ?_)
      match a with
      | ⟨0, _⟩ => exact h0
      | ⟨1, _⟩ => show 0 ≤ (i 1).val ∧ (i 1).val < 0 + 1; omega
      | ⟨2, _⟩ => exact hm 2
      | ⟨3, _⟩ => exact hm 3
    · refine Or.inr (Rect.mem_set_unit.mpr fun a => ?_)
      match a with
      | ⟨0, _⟩ => exact h0
      | ⟨1, _⟩ => show 1 ≤ (i 1).val ∧ (i 1).val < 1 + 1; omega
      | ⟨2, _⟩ => exact hm 2
      | ⟨3, _⟩ => exact hm 3

theorem stored_ms0 (c : Dev nD) (f : Vec F S2x2x4x128 .f32) :
    ∀ i ∈ (msS 0).view.set,
      ((msM.access (Rect.unit (s := S2x2x4x128) ![0, 1, 0, 0] S1x1x4x128.size inb_S2x2x4x128_S1x1x4x128_0_1_0_0)).write (Elt F) ((msM.access (Rect.unit (s := S2x2x4x128) ![0, 0, 0, 0] S1x1x4x128.size inb_S2x2x4x128_S1x1x4x128_0_0_0_0)).write (Elt F) f (k0_pay1 (xh m 0 c)) Finset.univ) (k0_pay2 (xh m 0 c)) Finset.univ : Vec F S2x2x4x128 .f32) i
        = msFull m c i :=
  ms_stored m 0 (by decide) c f (k0_pay1 (xh m 0 c)) (k0_pay2 (xh m 0 c)) (fun _ hr => if_pos hr) (fun _ hr => if_neg hr)
theorem stored_ms1 (c : Dev nD) (f : Vec F S2x2x4x128 .f32) :
    ∀ i ∈ (msS 1).view.set,
      ((msM.access (Rect.unit (s := S2x2x4x128) ![1, 1, 0, 0] S1x1x4x128.size inb_S2x2x4x128_S1x1x4x128_1_1_0_0)).write (Elt F) ((msM.access (Rect.unit (s := S2x2x4x128) ![1, 0, 0, 0] S1x1x4x128.size inb_S2x2x4x128_S1x1x4x128_1_0_0_0)).write (Elt F) f (k0_pay3 (xh m 1 c)) Finset.univ) (k0_pay5 (k0_pay4 (xh m 1 c))) Finset.univ : Vec F S2x2x4x128 .f32) i
        = msFull m c i :=
  ms_stored m 1 (by decide) c f (k0_pay3 (xh m 1 c)) (k0_pay5 (k0_pay4 (xh m 1 c))) (fun _ hr => if_pos hr) (fun _ hr => if_neg hr)

end Cert.Kernel.KV

end
-- ==== Proof.KernelViewsC.lean ====
import proofs.«900517_g7700000000000518_dist_diff_adaln_cshard_i_b4_s256_c128_v7x_i4_f32_1_alg».proof.Proof.KernelProto

noncomputable section

namespace Cert.Kernel.KV

open Cert.Kernel Cert.Kernel.Gen Cert.Kernel.KD Cert.Kernel.KP
open Idealize.ShloMosaic

variable {F : FTy → Type} [FloatOps F]

variable (m : (ℓ : Loc nD τ sig) → Buf (Elt F) ℓ)

/-- The statistic depends only on the values of its three arguments. -/
theorem stat_congr {h h' : Fin 2} {c c' : Dev nD} {i i' : S1x2x4x128.Idx} (eh : h = h') (ec : c = c') (ei : i = i') :
    stat m h c i = stat m h' c' i' := by subst eh ec ei; rfl

/-- Reading 128 rows from row 128 h gives the row half h: both look up (b, 128 h + s, l). -/
theorem read_xv (h : Fin 2) (r : ℕ) (hr : r = 128 * h.val)
    {inb : ∀ a, (![0, r, 0] : Fin 3 → ℕ) a + S4x128x128.size a ≤ S4x256x128.size a} (f : Vec F S4x256x128 .f32) :
    xvM.view.readAt (Elt F) (Rect.unit (s := S4x256x128) ![0, r, 0] S4x128x128.size inb).toLoadRect f = halfOf h f := by
  subst hr
  funext (x : S4x128x128.Idx)
  show f _ = f _
  refine congrArg f (funext fun a => Fin.ext ?_)
  match a with
  | ⟨0, _⟩ => show 0 + 1 * (x 0).val = (x 0).val; omega
  | ⟨1, _⟩ => show 128 * h.val + 1 * (x 1).val = 128 * h.val + (x 1).val; omega
  | ⟨2, _⟩ => show 0 + 1 * (x 2).val = (x 2).val; omega

/-- Half h of the statistics buffer is filled from the device's statistic of half h, entry by entry. -/
theorem read_ms (h : Fin 2) (k : ℕ) (hk : k = h.val)
    {inb : ∀ a, (![k, 0, 0, 0] : Fin 4 → ℕ) a + S1x2x4x128.size a ≤ S2x2x4x128.size a} (c : Dev nD) :
    msM.view.readAt (Elt F) (Rect.unit (s := S2x2x4x128) ![k, 0, 0, 0] S1x2x4x128.size inb).toLoadRect (msFull m c) = stat m h c := by
  subst hk
  funext (x : S1x2x4x128.Idx)
  have h0 : (x 0).val < 1 := (x 0).isLt
  show msFull m c _ = _
  unfold msFull
  refine stat_congr m (Fin.ext ?_) rfl (funext fun a => Fin.ext ?_)
  · show h.val + 1 * (x 0).val = h.val; omega
  · match a with
    | ⟨0, _⟩ => show 0 = (x 0).val; omega
    | ⟨1, _⟩ => show 0 + 1 * (x 1).val = (x 1).val; omega
    | ⟨2, _⟩ => show 0 + 1 * (x 2).val = (x 2).val; omega
    | ⟨3, _⟩ => show 0 + 1 * (x 3).val = (x 3).val; omega

/-- Slot k is filled from half k mod 2 of the device k / 2 + 1 places back, entry by entry. -/
theorem read_cm (k : ℕ) (h : Fin 2) (d : ℕ) (hh : k % 2 = h.val) (hd : k / 2 + 1 = d)
    {inb : ∀ a, (![k, 0, 0, 0] : Fin 4 → ℕ) a + S1x2x4x128.size a ≤ S6x2x4x128.size a} (c : Dev nD) :
    cmM.view.readAt (Elt F) (Rect.unit (s := S6x2x4x128) ![k, 0, 0, 0] S1x2x4x128.size inb).toLoadRect (cmFull m c) = stat m h (bwd d c) := by
  subst hd
  funext (x : S1x2x4x128.Idx)
  have h0 : (x 0).val < 1 := (x 0).isLt
  have e : k + 1 * (x 0).val = k := by omega
  show cmFull m c _ = _
  unfold cmFull
  refine stat_congr m (Fin.ext ?_) (congrArg (fun d => bwd d c) ?_) (funext fun a => Fin.ext ?_)
  · show (k + 1 * (x 0).val) % 2 = h.val
    rw [e, hh]
  · show (k + 1 * (x 0).val) / 2 + 1 = k / 2 + 1
    rw [e]
  · match a with
    | ⟨0, _⟩ => show 0 = (x 0).val; omega
    | ⟨1, _⟩ => show 0 + 1 * (x 1).val = (x 1).val; omega
    | ⟨2, _⟩ => show 0 + 1 * (x 2).val = (x 2).val; omega
    | ⟨3, _⟩ => show 0 + 1 * (x 3).val = (x 3).val; omega

/-- A block that spans its whole array reads as the array. -/
theorem tB_eq (c : Dev nD) : tB m c = tA m c :=
  Memref.read_access_unit_zero (Elt F) main_arg1 (funext fun a => Nat.zero_mul _) _ _
theorem wscB_eq (c : Dev nD) : wscB m c = wscA m c :=
  Memref.read_access_unit_zero (Elt F) main_arg2 (funext fun a => Nat.zero_mul _) _ _
theorem wshB_eq (c : Dev nD) : wshB m c = wshA m c :=
  Memref.read_access_unit_zero (Elt F) main_arg3 (funext fun a => Nat.zero_mul _) _ _

end Cert.Kernel.KV

end
-- ==== Proof.KernelBodyDefs.lean ====
import proofs.«900517_g7700000000000518_dist_diff_adaln_cshard_i_b4_s256_c128_v7x_i4_f32_1_alg».proof.Proof.KernelProto
import proofs.«900517_g7700000000000518_dist_diff_adaln_cshard_i_b4_s256_c128_v7x_i4_f32_1_alg».proof.Proof.KernelViewsA
import proofs.«900517_g7700000000000518_dist_diff_adaln_cshard_i_b4_s256_c128_v7x_i4_f32_1_alg».proof.Proof.KernelViewsB
import proofs.«900517_g7700000000000518_dist_diff_adaln_cshard_i_b4_s256_c128_v7x_i4_f32_1_alg».proof.Proof.KernelViewsC

noncomputable section

namespace Cert.Kernel.KB

open Cert.Kernel Cert.Kernel.Gen Cert.Kernel.KD Cert.Kernel.KP Cert.Kernel.KV

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
theorem bigSep_fin17 (Φ : Fin 17 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

theorem bwd_fwd1 (c : Dev nD) : bwd 1 (fwd 1 c) = c := by revert c; decide
theorem bwd_fwd2 (c : Dev nD) : bwd 2 (fwd 2 c) = c := by revert c; decide
theorem bwd_fwd3 (c : Dev nD) : bwd 3 (fwd 3 c) = c := by revert c; decide

def RecvOnly (O : CellTallies nD τ sig Unit) : Prop := ∀ g u, 0 < O g u → ∃ c' k, g = recvCell c' k

theorem lv_recv (c' : Dev nD) (k : Fin 6) : lv (recvCell c' k) () = 2 := by
  unfold lv; rw [if_neg (by intro h; cases h), if_pos ⟨k, rfl⟩]

-- Level 1 cuts a wait at level at most 1 from debts that sit only on landing cells, at level 2.
theorem mayWait_low (c : Dev nD) (s : SemLoc sig) (hs : lv ((c : Thread nD τ), s) () ≤ 1) (O : CellTallies nD τ sig Unit)
    (hO : RecvOnly O) : (levAts L lv : sProp 𝕄) ⊢ MayWait (c : Thread nD τ) s () O :=
  MayOwe.of_cut (L := L) (lev := lv) 1
    (fun p hp => by rw [Finset.mem_singleton.mp hp, L_tc]; exact Finset.mem_singleton_self _)
    (fun g u hg => by obtain ⟨c', k, rfl⟩ := hO g u hg; rw [L_tc]; exact Finset.mem_singleton_self _)
    (fun p hp => by rw [Finset.mem_singleton.mp hp]; exact hs)
    (fun g u hg => by obtain ⟨c', k, rfl⟩ := hO g u hg; rw [lv_recv]; decide)

theorem lv_bar (c : Dev nD) : lv ((c : Thread nD τ), .reg barS) () ≤ 1 := by unfold lv; rw [if_pos rfl]
theorem lv_own (c : Dev nD) (s : DmaSem sig) (hs : ∀ k : Fin 6, s ≠ recvS k) : lv ((c : Thread nD τ), .dma s) () ≤ 1 := by
  unfold lv; rw [if_neg (by intro h; cases h), if_neg (by rintro ⟨k, hk⟩; exact hs k (by injection hk))]; decide

abbrev T4 (c : Dev nD) : CellTallies nD τ sig Unit := tallyAt (recvCell (fwd 2 c) 2) () N2
abbrev T5 (c : Dev nD) : CellTallies nD τ sig Unit := tallyAt (recvCell (fwd 1 c) 0) () N2
abbrev T6 (c : Dev nD) : CellTallies nD τ sig Unit := tallyAt (recvCell (fwd 3 c) 4) () N2
abbrev T7 (c : Dev nD) : CellTallies nD τ sig Unit := tallyAt (recvCell (fwd 2 c) 3) () N2
abbrev T8 (c : Dev nD) : CellTallies nD τ sig Unit := tallyAt (recvCell (fwd 1 c) 1) () N2
abbrev T9 (c : Dev nD) : CellTallies nD τ sig Unit := tallyAt (recvCell (fwd 3 c) 5) () N2
abbrev O1 (c : Dev nD) : CellTallies nD τ sig Unit := T9 c
abbrev O2 (c : Dev nD) : CellTallies nD τ sig Unit := T9 c + T8 c
abbrev O3 (c : Dev nD) : CellTallies nD τ sig Unit := T9 c + T8 c + T7 c
abbrev O4 (c : Dev nD) : CellTallies nD τ sig Unit := T9 c + T8 c + T7 c + T6 c
abbrev O5 (c : Dev nD) : CellTallies nD τ sig Unit := T9 c + T8 c + T7 c + T6 c + T5 c
abbrev O6 (c : Dev nD) : CellTallies nD τ sig Unit := T9 c + T8 c + T7 c + T6 c + T5 c + T4 c

-- A sum is positive where a summand is, and every summand sits on one landing cell.
theorem ro3 (c : Dev nD) : RecvOnly (O3 c) := fun g u h => by
  repeat' (rcases Pipeline.add_pos_cases h with h | h)
  all_goals exact ⟨_, _, (Pipeline.tallyAt_pos h).1⟩
theorem ro6 (c : Dev nD) : RecvOnly (O6 c) := fun g u h => by
  repeat' (rcases Pipeline.add_pos_cases h with h | h)
  all_goals exact ⟨_, _, (Pipeline.tallyAt_pos h).1⟩

-- A semaphore found at number 0 is the barrier semaphore, however it is spelt.
theorem rest_bar_of (c : Dev nD) (s : SemLoc sig) (hs : semIdx s = some 0) :
    bigSep ((Rd (F := F) m).duties ((c : Thread nD τ), s) 0 \ ∅) (fun d => (Rd (F := F) m).payload ((c : Thread nD τ), s) 0 d)
      = iprop(barPay c 0 ∗ barPay c 1 ∗ barPay (F := F) c 2) := by
  have h := List.find?_some hs
  obtain rfl : csem 0 = s := of_decide_eq_true h
  exact rest_bar m c

theorem bwd1_eq (c : Dev nD) : bwd 1 c = fwd 3 c := by revert c; decide
theorem bwd2_eq (c : Dev nD) : bwd 2 c = fwd 2 c := by revert c; decide
theorem bwd3_eq (c : Dev nD) : bwd 3 c = fwd 1 c := by revert c; decide

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 17 → ℕ) (c : Dev nD) : sProp 𝕄 :=
  iprop((ghost m K c ∗ creds c ∗ levAts L lv
      ∗ (someW c cc0_scratch0 ∗ someW c cc0_scratch1 ∗ someW c cc0_scratch2 ∗ someW c cc0_scratch3)
      ∗ (((c : Thread nD τ).loc main_arg0) ↦{fullShare} m ((c : Thread nD τ).loc main_arg0))
      ∗ (((c : Thread nD τ).loc main_v1) ↦{fullShare} m ((c : Thread nD τ).loc main_v1)))
    ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ m c ∗ (dats m 0 c).owesAt () t0_0.succ
    ∗ stg c cc0_stg0_0 (tB m c) ∗ stg c cc0_stg1_0 (wscB m c) ∗ stg c cc0_stg2_0 (wshB m c))

end Cert.Kernel.KB

end
-- ==== Proof.KernelSound.lean ====
import proofs.«900517_g7700000000000518_dist_diff_adaln_cshard_i_b4_s256_c128_v7x_i4_f32_1_alg».proof.Proof.KernelBodyDefs

noncomputable section

namespace Cert.Kernel.KB

open Cert.Kernel Cert.Kernel.Gen Cert.Kernel.KD Cert.Kernel.KP Cert.Kernel.KV

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem mayWait0 (c : Dev nD) (s : SemLoc sig) : (levAts L lv : sProp 𝕄) ⊢ MayWait (c : Thread nD τ) s () 0 := by
  rw [MayWait_zero]; iintro -; iempintro

theorem wait_own (K : Dev nD × Fin 17 → ℕ) (c : Dev nD) (i : Fin 17)
    {w : TpuEff nD τ sig (Elt F) Λ₀ .tc PUnit} {n : ℕ}
    (O : CellTallies nD τ sig Unit) (hM : (levAts L lv : sProp 𝕄) ⊢ MayWait (c : Thread nD τ) (csem i) () O)
    (P : sProp 𝕄) (hP : pay m c i 0 = P) {W : Waits sig Unit}
    {α : Type} {Q : α → sProp 𝕄} {k : PUnit → Prog (TpuEff nD τ sig (Elt F) Λ₀ .tc) α} (hi : i.val ≠ 0 := by decide)
    (hw : ∀ Kk : PUnit → sProp 𝕄, wpE (defs₀ (F := F)) 𝒱₀ (c : Thread nD τ) none Set.univ w Kk = waitSpec (c : Thread nD τ) Set.univ (csem i) n Kk := by exact fun _ => rfl)
    (hn : n = amt i := by rfl) :
    records m K ⊢ iprop(levAts L lv -∗ cred (tallyAt (kcell (c, i)) () n) -∗ owes (c : Thread nD τ) O W -∗ atPos ER (kcell (c, i)) 0 ∅ 0
      -∗ (owes (c : Thread nD τ) O (insert (csem i, ()) W) -∗ atPos ER (kcell (c, i)) (0 + 1) ∅ 0 -∗ P
          -∗ wp frame (wpE (defs₀ (F := F)) 𝒱₀ (c : Thread nD τ) none) Set.univ (k ⟨⟩) Q)
      -∗ wp frame (wpE (defs₀ (F := F)) 𝒱₀ (c : Thread nD τ) none) Set.univ (.op w k) Q) := by
  subst hP hn
  iintro #Hrec #Hlev Hc HO Hat Hk
  iapply (Rounds.wp_wait_rest_token 𝒱₀ ER (Rd m) (c : Thread nD τ) none (κ := K (c, i)) hw (Set.mem_univ _) () (O := O) (R := 0) (m := 0) (T := ∅)
      (by rw [Nat.zero_add, expect_own m c i hi])) $$ [Hc HO Hat]
  · isplitr; · (iapply (inv_at m K (c, i)); iexact Hrec)
    iframe
    iapply hM; iexact Hlev
  iintro ⟨HO, Hat, -, Hpay⟩
  ihave Hp := (Entails.of_eq (rest_own m c i hi)) $$ Hpay
  iapply Hk $$ HO Hat Hp

theorem close_own (K : Dev nD × Fin 17 → ℕ) (c : Dev nD) (i : Fin 17) (s : SemLoc sig) (hs : csem i = s := by rfl) :
    records m K ⊢ iprop(atPos ER (kcell (c, i)) (0 + 1) ∅ 0 -∗ |={Set.univ}=> semVal ((c : Thread nD τ), s) 0) := by
  subst hs
  iintro #Hrec Hat
  iapply (Rounds.cell_close ER (Rd m) (Set.mem_univ (K (c, i))) (fun h => h) (R := 0 + 1) (duties_later m _))
  isplitr; · (iapply (inv_at m K (c, i)); iexact Hrec)
  iexact Hat

theorem copy_own (K : Dev nD × Fin 17 → ℕ) (c : Dev nD) (i : Fin 17) {sp sp' : Space} {s : Shape} {e : EltTy}
    {src : Memref sig (c : Thread nD τ).2.kind sp s e} {dst : Memref sig (c : Thread nD τ).2.kind sp' s e}
    {hsrc : src.view.WordExact} {hdst : dst.view.WordExact} {hsem : DmaTarget.Typed (nD := nD) sp (csem i) (.here dst)}
    {α : Type} {Q : α → sProp 𝕄} {k : PUnit → Prog (TpuEff nD τ sig (Elt F) Λ₀ .tc) α}
    (fs : Buf (Elt F) (src.view.loc (c : Thread nD τ))) (fd : Buf (Elt F) (dst.view.loc (c : Thread nD τ)))
    (hpay : iprop((dst.view.loc (c : Thread nD τ) ↦[dst.view.set]{fullShare} (dst.view.write (Elt F) fd (src.view.read (Elt F) fs) Finset.univ))
              ∗ (src.view.loc (c : Thread nD τ) ↦[src.view.set]{fullShare} fs)) ⊢ pay m c i 0)
    (hi : i.val ≠ 0 := by decide) (hN : dst.view.amount (csem i) = amt i := by rfl) :
    records m K ⊢ iprop((src.view.loc (c : Thread nD τ) ↦[src.view.set]{fullShare} fs) -∗ (dst.view.loc (c : Thread nD τ) ↦[dst.view.set]{fullShare} fd)
      -∗ dutyTok ER (kcell (c, i)) 0 (0 : DT)
      -∗ (cred (tallyAt (kcell (c, i)) () (amt i)) -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma src (.here dst) (csem i) hsrc hdst hsem) k) Q) := by
  iintro #Hrec Hs Hd Ht Hk
  iapply (Rounds.wp_copy_pointsTo 𝒱₀ ER (Rd m) (c : Thread nD τ) none (r := 0) (d := (0 : DT)) (κ := K (c, i))
      (by rw [duties_own m c i hi]; exact Finset.mem_singleton_self _) () (amt i) hN (amount_at m c i 0)
      (by rw [payload_at m c i 0]; exact hpay)) $$ [Hs Hd Ht]
  · isplitr; · (iapply (inv_at m K (c, i)); iexact Hrec)
    iframe
    (iapply (reached_at m K (c, i)); iexact Hrec)
  iexact Hk

theorem send_peer (K : Dev nD × Fin 17 → ℕ) (c : Dev nD) {n : Dev nD} (c' : Dev nD) (hn : n = c') (iS iR : Fin 17)
    {src dst : Memref sig .tc .vmem S2x4x128 .f32}
    {hsc : (dst : Memref sig (Dev.tc n : Thread nD τ).2.kind .vmem S2x4x128 .f32).view.ref.isScScratch = false}
    {hsrc : src.view.WordExact} {hdst : dst.view.WordExact}
    {hsem : DmaTarget.Typed .vmem (csem iR) (.remote (Dev.tc n : Thread nD τ) dst (csem iS) hsc)}
    {α : Type} {Q : α → sProp 𝕄} {k : PUnit → Prog (TpuEff nD τ sig (Elt F) Λ₀ .tc) α}
    (q : PosShare TreeShare) (fs : Buf (Elt F) (src.view.loc (c : Thread nD τ))) (fd : Buf (Elt F) (dst.view.loc (c' : Thread nD τ)))
    (O₁ O : CellTallies nD τ sig Unit) (hO : O₁ = O + tallyAt (kcell (c', iR)) () N2) {W : Waits sig Unit}
    (hp1 : (src.view.loc (c : Thread nD τ) ↦[src.view.set]{q} fs) ⊢ pay m c iS 0)
    (hp2 : (dst.view.loc (c' : Thread nD τ) ↦[dst.view.set]{fullShare} (dst.view.write (Elt F) fd (src.view.read (Elt F) fs) Finset.univ)) ⊢ pay m c' iR 0)
    (hS0 : iS.val ≠ 0 := by decide) (hR0 : iR.val ≠ 0 := by decide) (haS : amt iS = N2 := by rfl) (haR : amt iR = N2 := by rfl)
    (hN : dst.view.amount (csem iR) = N2 := by rfl) :
    records m K ⊢ iprop((src.view.loc (c : Thread nD τ) ↦[src.view.set]{q} fs) -∗ (dst.view.loc (c' : Thread nD τ) ↦[dst.view.set]{fullShare} fd)
        -∗ owes (c : Thread nD τ) O₁ W -∗ dutyTok ER (kcell (c, iS)) 0 (0 : DT) -∗ dutyTok ER (kcell (c', iR)) 0 (0 : DT)
        -∗ (cred (tallyAt (kcell (c, iS)) () (amt iS)) -∗ owes (c : Thread nD τ) O W -∗ wp frame (wpE (defs₀ (F := F)) 𝒱₀ (c : Thread nD τ) none) Set.univ (k ⟨⟩) Q)
        -∗ wp frame (wpE (defs₀ (F := F)) 𝒱₀ (c : Thread nD τ) none) Set.univ
              (.op (.enqueueDma src (.remote (Dev.tc n : Thread nD τ) dst (csem iS) hsc) (csem iR) hsrc hdst hsem) k) Q) := by
  subst hn
  rw [haS]
  iintro #Hrec Hs Hd HO Ht Ht' Hk
  iapply (Rounds.wp_send_pointsTo 𝒱₀ ER (Rd m) (c : Thread nD τ) none (κ₁ := K (c, iS)) (κ₂ := K (n, iR))
    (r₁ := 0) (r₂ := 0) (d₁ := (0 : DT)) (d₂ := (0 : DT)) (fd := fd)
    (by rw [duties_own m c iS hS0]; exact Finset.mem_singleton_self _)
    (by rw [duties_own m n iR hR0]; exact Finset.mem_singleton_self _)
    () () N2 hN ((amount_at m c iS 0).trans haS) ((amount_at m n iR 0).trans haR) O hO (W := W)
    (by rw [payload_at m c iS 0]; exact hp1) (by rw [payload_at m n iR 0]; exact hp2)) $$ [Hs Hd HO Ht Ht']
  · isplitr; · (iapply (inv_at m K (c, iS)); iexact Hrec)
    isplitr; · (iapply (inv_at m K (n, iR)); iexact Hrec)
    iframe Hs Hd HO Ht
    isplitr; · (iapply (reached_at m K (c, iS)); iexact Hrec)
    isplitl [Ht']; · iexact Ht'
    (iapply (reached_at m K (n, iR)); iexact Hrec)
  iintro ⟨Hc, HO⟩
  iapply Hk $$ Hc HO

theorem sig_peer (K : Dev nD × Fin 17 → ℕ) (c c' : Dev nD) (d : DT) (s s' : Fin 6) (i i' : Fin 17)
    (hpay : iprop((∃ f, slotPts (F := F) c s f) ∗ (∃ f, slotPts c s' f) ∗ reached ER (kcell (c, i)) 0 ∗ reached ER (kcell (c, i')) 0) ⊢ barPay c' d)
    (O₁ O : CellTallies nD τ sig Unit) (hO : O₁ = O + tallyAt (barCell c') () 1) (f f' : Vec F S6x2x4x128 .f32) {W : Waits sig Unit}
    {α : Type} {Q : α → sProp 𝕄} {k : PUnit → Prog (TpuEff nD τ sig (Elt F) Λ₀ .tc) α} :
    records m K ⊢ iprop(owes (c : Thread nD τ) O₁ W -∗ dutyTok ER (barCell c') 0 d -∗ slotPts c s f -∗ slotPts c s' f'
      -∗ (owes (c : Thread nD τ) O W -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (c' : Thread nD τ) barS 1) k) Q) := by
  iintro #Hrec HO Ht Hs Hs' Hk
  iapply (Rounds.wp_signal 𝒱₀ ER (Rd m) (c : Thread nD τ) none (dst := (c' : Thread nD τ)) (κ := K (c', 0)) (d := d)
      (by rw [duties_bar]; exact Finset.mem_univ _) ((amount_at m c' 0 d).trans (by decide)) () O hO) $$ [HO Ht Hs Hs']
  · isplitr; · (iapply (inv_at m K (c', 0)); iexact Hrec)
    isplitl [HO]; · iexact HO
    isplitl [Ht]; · iexact Ht
    isplitl [Hs Hs']
    · rw [show (Rd (F := F) m).payload (barCell c') 0 d = barPay c' d from payload_at m c' 0 d]
      iapply hpay
      isplitl [Hs]; · (iexists f; iexact Hs)
      isplitl [Hs']; · (iexists f'; iexact Hs')
      isplitr; · (iapply (reached_at m K (c, i)); iexact Hrec)
      (iapply (reached_at m K (c, i')); iexact Hrec)
    · (iapply (reached_at m K (c', 0)); iexact Hrec)
  iexact Hk

theorem four_shares {ℓ : Loc nD τ sig} (I : Finset (Idx ℓ)) (f : Buf (Elt F) ℓ) :
    ((ℓ ↦[I]{fullShare} f) : sProp 𝕄) ⊣⊢ iprop((ℓ ↦[I]{fullShare.left} f) ∗ (ℓ ↦[I]{fullShare.right.left} f)
      ∗ (ℓ ↦[I]{fullShare.right.right.left} f) ∗ (ℓ ↦[I]{fullShare.right.right.right} f)) :=
  (pointsTo_share (PosShare.mem_left_op_right fullShare)).trans (sep_congr_right
    ((pointsTo_share (PosShare.mem_left_op_right fullShare.right)).trans (sep_congr_right (pointsTo_share (PosShare.mem_left_op_right fullShare.right.right)))))

theorem hz2 : (![0, 0] : Fin 2 → Nat) = fun _ => 0 := funext fun a => by fin_cases a <;> rfl
theorem read_t (f : (cc0_stg0_0 : Ref sig .tc).ty.Contents (Elt F)) :
    (tM : Memref sig .tc .vmem S4x128 .f32).view.readAt (Elt F) (Rect.unit (s := S4x128) ![0, 0] S4x128.size inb_S4x128_S4x128_0_0).toLoadRect f = f :=
  Memref.readAt_unit_zero (Elt F) cc0_stg0_0 hz2 _ f
theorem read_wsc (f : (cc0_stg1_0 : Ref sig .tc).ty.Contents (Elt F)) :
    (wscM : Memref sig .tc .vmem S128x128 .f32).view.readAt (Elt F) (Rect.unit (s := S128x128) ![0, 0] S128x128.size inb_S128x128_S128x128_0_0).toLoadRect f = f :=
  Memref.readAt_unit_zero (Elt F) cc0_stg1_0 hz2 _ f
theorem read_wsh (f : (cc0_stg2_0 : Ref sig .tc).ty.Contents (Elt F)) :
    (wshM : Memref sig .tc .vmem S128x128 .f32).view.readAt (Elt F) (Rect.unit (s := S128x128) ![0, 0] S128x128.size inb_S128x128_S128x128_0_0).toLoadRect f = f :=
  Memref.readAt_unit_zero (Elt F) cc0_stg2_0 hz2 _ f

set_option maxHeartbeats 16000000 in
theorem sound_body (K : Dev nD × Fin 17 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole cc0_stg0_0) (Memref.isWhole_whole _)
            (Memref.whole cc0_stg1_0) (Memref.isWhole_whole _) (Memref.whole cc0_stg2_0) (Memref.isWhole_whole _)
            (Memref.whole main_v1) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7) Kt := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel,
    semSignalWord, semWaitWord, Prog.lift, Prog.bind_op, Prog.bind_ret, Prog.pure_eq_ret, wp_deviceId, dev1_eq c, dev2_eq c, dev3_eq c]
  unfold bodyPre ghost linear payToks creds
  iintro ⟨⟨⟨⟨#Hrec, Hat, HtB, HtR, HtO⟩, ⟨HcB, HcR⟩, #Hlev, ⟨Hxv, Hov, Hms, Hcm⟩, Hx, Hout⟩, Ho, Hst0, Hst1, Hst2⟩, Hk⟩
  unfold Dat.owesAt Pipeline.owesWithin
  icases Ho with ⟨%W, %hW, HO⟩
  rw [show (dats m 0 c).owed t0_0.castSucc = O₀ c from rfl]
  unfold O₀
  ihave HtB' := (Entails.of_eq (bigSep_fin3 _)) $$ HtB
  icases HtB' with ⟨HtB0, HtB1, HtB2⟩
  icases Hcm with ⟨%fcm, Hcm⟩
  ihave Hs := (split_cm (F := F) c fcm).1 $$ Hcm
  icases Hs with ⟨Hs0, Hs1, Hs2, Hs3, Hs4, Hs5⟩
  iapply (sig_peer m K c (fwd 1 c) 0 4 5 15 16 (by simp only [barPay, bwd_fwd1]; exact .rfl) _ _ rfl fcm fcm) $$ Hrec [HO] [HtB0] Hs4 Hs5
  · iexact HO
  · iexact HtB0
  iintro HO
  iapply (sig_peer m K c (fwd 2 c) 1 2 3 13 14 (by simp only [barPay, bwd_fwd2]; exact .rfl) _ _ rfl fcm fcm) $$ Hrec [HO] [HtB1] Hs2 Hs3
  · iexact HO
  · iexact HtB1
  iintro HO
  iapply (sig_peer m K c (fwd 3 c) 2 0 1 11 12 (by simp only [barPay, bwd_fwd3]; exact .rfl) _ _ rfl fcm fcm) $$ Hrec [HO] [HtB2] Hs0 Hs1
  · iexact HO
  · iexact HtB2
  iintro HO
  ihave Hx' := (split_x (F := F) c fullShare _).1 $$ Hx
  icases Hx' with ⟨Hx0, Hx1⟩
  icases Hxv with ⟨%fxv, Hxv⟩
  ihave Hxv' := (split_xv (F := F) c fullShare fxv).1 $$ Hxv
  icases Hxv' with ⟨Hxv0, Hxv1⟩
  icases Hms with ⟨%fms, Hms⟩
  ihave Hms' := (split_ms (F := F) c fullShare fms).1 $$ Hms
  icases Hms' with ⟨Hms0, Hms1⟩
  ihave HtO' := (Entails.of_eq (bigSep_fin10 _)) $$ HtO
  icases HtO' with ⟨HtO0, HtO1, HtO2, HtO3, HtO4, HtO5, HtO6, HtO7, HtO8, HtO9⟩
  ihave Hat' := (Entails.of_eq (bigSep_fin17 _)) $$ Hat
  icases Hat' with ⟨Hat0, Hat1, Hat2, Hat3, Hat4, Hat5, Hat6, Hat7, Hat8, Hat9, Hat10, Hat11, Hat12, Hat13, Hat14, Hat15, Hat16⟩
  iapply (copy_own m K c 1 (xA m c) (fxv) (by show _ ⊢ loadPay m c 0; simp only [loadPay]; rw [pointsTo_congr (land_x0 (F := F) c fxv (xA m c))])) $$ Hrec [Hx0] [Hxv0] [HtO0] <;> try iassumption
  · iexact HtO0
  iintro HcL0
  iapply (copy_own m K c 2 (xA m c) (fxv) (by show _ ⊢ loadPay m c 1; simp only [loadPay]; rw [pointsTo_congr (land_x1 (F := F) c fxv (xA m c))])) $$ Hrec [Hx1] [Hxv1] [HtO1] <;> try iassumption
  · iexact HtO1
  iintro HcL1
  iapply (wait_own m K c 1 (O6 c) (mayWait_low c _ (lv_own c _ (by decide)) _ (ro6 c)) _ rfl) $$ Hrec Hlev [HcL0] HO Hat1
  · iexact HcL0
  iintro HO Hat1 HpL0
  ihave HpL0' := (Entails.of_eq (show pay m c 1 0 = loadPay m c 0 from rfl)) $$ HpL0
  simp only [loadPay]
  icases HpL0' with ⟨Hxv0, Hx0⟩
  iapply (wp_load 𝒱₀ (c : Thread nD τ) none Set.univ (m := xvM) fp_xv0) $$ Hxv0; iintro Hxv0
  rw [read_xv 0 0 rfl, show halfOf 0 (xA m c) = xh m 0 c from rfl]
  iapply (wp_load 𝒱₀ (c : Thread nD τ) none Set.univ (m := msM) fp_ms00) $$ Hms0; iintro Hms0
  iapply (wp_store 𝒱₀ (c : Thread nD τ) none Set.univ (m := msM) (r := (Rect.unit (s := S2x2x4x128) ![0, 0, 0, 0] S1x1x4x128.size inb_S2x2x4x128_S1x1x4x128_0_0_0_0)) (Mk := Finset.univ) fps_ms00) $$ Hms0; iintro Hms0
  iapply (wp_load 𝒱₀ (c : Thread nD τ) none Set.univ (m := msM) fp_ms01) $$ Hms0; iintro Hms0
  iapply (wp_store 𝒱₀ (c : Thread nD τ) none Set.univ (m := msM) (r := (Rect.unit (s := S2x2x4x128) ![0, 1, 0, 0] S1x1x4x128.size inb_S2x2x4x128_S1x1x4x128_0_1_0_0)) (Mk := Finset.univ) fps_ms01) $$ Hms0
  rw [pointsTo_congr (ℓ := (msS 0).view.loc (c : Thread nD τ)) (q := fullShare) (stored_ms0 m c fms)]
  iintro Hms0
  iapply (Rounds.wp_wait_rest_token 𝒱₀ ER (Rd m) (c : Thread nD τ) none (κ := K (c, 0))
      (wpE_semWait_eq 𝒱₀ (c : Thread nD τ) none Set.univ) (Set.mem_univ _) () (O := O6 c) (R := 0) (m := 0) (T := ∅)
      (by rw [Nat.zero_add, show ((c : Thread nD τ), SemLoc.reg (SemArray.scalar (sig.barrier 0 rfl) : Sems sig S_).sem) = barCell c from rfl, expect_bar]; rfl)) $$ [HcB HO Hat0]
  · isplitr; · (iapply (inv_at m K (c, 0)); iexact Hrec)
    isplitl [HcB]; · iexact HcB
    isplitl [HO]; · iexact HO
    isplitr; · (iapply (mayWait_low c _ (lv_bar c) _ (ro6 c)); iexact Hlev)
    iexact Hat0
  iintro ⟨HO, Hat0, -, Hpay⟩
  ihave Hp := (Entails.of_eq (rest_bar_of m c _ (by decide))) $$ Hpay
  simp only [barPay, bwd1_eq, bwd2_eq, bwd3_eq]
  icases Hp with ⟨⟨⟨%fp4, Hp4⟩, ⟨%fp5, Hp5⟩, -, -⟩, ⟨⟨%fp2, Hp2⟩, ⟨%fp3, Hp3⟩, -, -⟩, ⟨%fp0, Hp0⟩, ⟨%fp1, Hp1⟩, -, -⟩
  simp only [slotPts]
  ihave HtR' := (Entails.of_eq (bigSep_fin6 _)) $$ HtR
  icases HtR' with ⟨HtR0, HtR1, HtR2, HtR3, HtR4, HtR5⟩
  ihave Hm := (four_shares _ _).1 $$ Hms0
  icases Hm with ⟨Hms0a, Hms0b, Hms0c, Hms0k⟩
  iapply (send_peer m K c (fwd 2 c) (dev4_eq c) 7 13 fullShare.right.left (msFull m c) fp2 (O6 c) (O5 c) rfl
      (by show _ ⊢ sendPay m c 2; simp only [sendPay]; exact .rfl)
      (by show _ ⊢ recvPay m (fwd 2 c) 2; simp only [recvPay, slotPts]; rw [pointsTo_congr (land_cm2 m c fp2)])) $$ Hrec [Hms0b] [Hp2] HO [HtO6] [HtR2] <;> try iassumption
  · iexact HtO6
  · iexact HtR2
  iintro HcS2 HO
  iapply (send_peer m K c (fwd 1 c) (dev5_eq c) 5 11 fullShare.left (msFull m c) fp0 (O5 c) (O4 c) rfl
      (by show _ ⊢ sendPay m c 0; simp only [sendPay]; exact .rfl)
      (by show _ ⊢ recvPay m (fwd 1 c) 0; simp only [recvPay, slotPts]; rw [pointsTo_congr (land_cm0 m c fp0)])) $$ Hrec [Hms0a] [Hp0] HO [HtO4] [HtR0] <;> try iassumption
  · iexact HtO4
  · iexact HtR0
  iintro HcS0 HO
  iapply (send_peer m K c (fwd 3 c) (dev6_eq c) 9 15 fullShare.right.right.left (msFull m c) fp4 (O4 c) (O3 c) rfl
      (by show _ ⊢ sendPay m c 4; simp only [sendPay]; exact .rfl)
      (by show _ ⊢ recvPay m (fwd 3 c) 4; simp only [recvPay, slotPts]; rw [pointsTo_congr (land_cm4 m c fp4)])) $$ Hrec [Hms0c] [Hp4] HO [HtO8] [HtR4] <;> try iassumption
  · iexact HtO8
  · iexact HtR4
  iintro HcS4 HO
  iapply (wait_own m K c 2 (O3 c) (mayWait_low c _ (lv_own c _ (by decide)) _ (ro3 c)) _ rfl) $$ Hrec Hlev [HcL1] HO Hat2
  · iexact HcL1
  iintro HO Hat2 HpL1
  ihave HpL1' := (Entails.of_eq (show pay m c 2 0 = loadPay m c 1 from rfl)) $$ HpL1
  simp only [loadPay]
  icases HpL1' with ⟨Hxv1, Hx1⟩
  iapply (wp_load 𝒱₀ (c : Thread nD τ) none Set.univ (m := xvM) fp_xv1) $$ Hxv1; iintro Hxv1
  rw [read_xv 1 128 rfl, show halfOf 1 (xA m c) = xh m 1 c from rfl]
  iapply (wp_load 𝒱₀ (c : Thread nD τ) none Set.univ (m := msM) fp_ms10) $$ Hms1; iintro Hms1
  iapply (wp_store 𝒱₀ (c : Thread nD τ) none Set.univ (m := msM) (r := (Rect.unit (s := S2x2x4x128) ![1, 0, 0, 0] S1x1x4x128.size inb_S2x2x4x128_S1x1x4x128_1_0_0_0)) (Mk := Finset.univ) fps_ms10) $$ Hms1; iintro Hms1
  iapply (wp_load 𝒱₀ (c : Thread nD τ) none Set.univ (m := msM) fp_ms11) $$ Hms1; iintro Hms1
  iapply (wp_store 𝒱₀ (c : Thread nD τ) none Set.univ (m := msM) (r := (Rect.unit (s := S2x2x4x128) ![1, 1, 0, 0] S1x1x4x128.size inb_S2x2x4x128_S1x1x4x128_1_1_0_0)) (Mk := Finset.univ) fps_ms11) $$ Hms1
  rw [pointsTo_congr (ℓ := (msS 1).view.loc (c : Thread nD τ)) (q := fullShare) (stored_ms1 m c fms)]
  iintro Hms1
  ihave Hm := (four_shares _ _).1 $$ Hms1
  icases Hm with ⟨Hms1a, Hms1b, Hms1c, Hms1k⟩
  iapply (send_peer m K c (fwd 2 c) (dev7_eq c) 8 14 fullShare.right.left (msFull m c) fp3 (O3 c) (O2 c) rfl
      (by show _ ⊢ sendPay m c 3; simp only [sendPay]; exact .rfl)
      (by show _ ⊢ recvPay m (fwd 2 c) 3; simp only [recvPay, slotPts]; rw [pointsTo_congr (land_cm3 m c fp3)])) $$ Hrec [Hms1b] [Hp3] HO [HtO7] [HtR3] <;> try iassumption
  · iexact HtO7
  · iexact HtR3
  iintro HcS3 HO
  iapply (send_peer m K c (fwd 1 c) (dev8_eq c) 6 12 fullShare.left (msFull m c) fp1 (O2 c) (O1 c) rfl
      (by show _ ⊢ sendPay m c 1; simp only [sendPay]; exact .rfl)
      (by show _ ⊢ recvPay m (fwd 1 c) 1; simp only [recvPay, slotPts]; rw [pointsTo_congr (land_cm1 m c fp1)])) $$ Hrec [Hms1a] [Hp1] HO [HtO5] [HtR1] <;> try iassumption
  · iexact HtO5
  · iexact HtR1
  iintro HcS1 HO
  iapply (send_peer m K c (fwd 3 c) (dev9_eq c) 10 16 fullShare.right.right.left (msFull m c) fp5 (O1 c) (0) (zero_add _).symm
      (by show _ ⊢ sendPay m c 5; simp only [sendPay]; exact .rfl)
      (by show _ ⊢ recvPay m (fwd 3 c) 5; simp only [recvPay, slotPts]; rw [pointsTo_congr (land_cm5 m c fp5)])) $$ Hrec [Hms1c] [Hp5] HO [HtO9] [HtR5] <;> try iassumption
  · iexact HtO9
  · iexact HtR5
  iintro HcS5 HO
  icases Hst0 with ⟨%d0, %g0, %hg0, Hst0⟩
  have hx0 : g0 = tB m c := by rw [hg0]; unfold Dat.before; rw [if_pos (fetch0_0 t0_0)]; rfl
  subst hx0
  iapply (wp_load 𝒱₀ (c : Thread nD τ) none Set.univ (m := tM) (Finset.subset_univ _)) $$ Hst0
  rw [read_t, tB_eq m c]
  iintro Hst0
  icases Hst1 with ⟨%d1, %g1, %hg1, Hst1⟩
  have hx1 : g1 = wscB m c := by rw [hg1]; unfold Dat.before; rw [if_pos (fetch0_1 t0_0)]; rfl
  subst hx1
  iapply (wp_load 𝒱₀ (c : Thread nD τ) none Set.univ (m := wscM) (Finset.subset_univ _)) $$ Hst1
  rw [read_wsc, wscB_eq m c]
  iintro Hst1
  icases Hst2 with ⟨%d2, %g2, %hg2, Hst2⟩
  have hx2 : g2 = wshB m c := by rw [hg2]; unfold Dat.before; rw [if_pos (fetch0_2 t0_0)]; rfl
  subst hx2
  iapply (wp_load 𝒱₀ (c : Thread nD τ) none Set.univ (m := wshM) (Finset.subset_univ _)) $$ Hst2
  rw [read_wsh, wshB_eq m c]
  iintro Hst2
  ihave HcR' := (Entails.of_eq (bigSep_fin6 _)) $$ HcR
  icases HcR' with ⟨HcR0, HcR1, HcR2, HcR3, HcR4, HcR5⟩
  iapply (wait_own m K c 13 0 (mayWait0 c _) (slotPts c 2 (cmFull m c)) rfl) $$ Hrec Hlev [HcR2] HO Hat13
  · iexact HcR2
  iintro HO Hat13 Hcm2
  iapply (wait_own m K c 11 0 (mayWait0 c _) (slotPts c 0 (cmFull m c)) rfl) $$ Hrec Hlev [HcR0] HO Hat11
  · iexact HcR0
  iintro HO Hat11 Hcm0
  iapply (wait_own m K c 15 0 (mayWait0 c _) (slotPts c 4 (cmFull m c)) rfl) $$ Hrec Hlev [HcR4] HO Hat15
  · iexact HcR4
  iintro HO Hat15 Hcm4
  simp only [slotPts]
  iapply (wp_load 𝒱₀ (c : Thread nD τ) none Set.univ (m := msM) fp_ms0) $$ Hms0k; iintro Hms0k
  rw [read_ms m 0 0 rfl]
  iapply (wp_load 𝒱₀ (c : Thread nD τ) none Set.univ (m := cmM) fp_cm0) $$ Hcm0; iintro Hcm0
  rw [read_cm m 0 0 1 rfl rfl]
  iapply (wp_load 𝒱₀ (c : Thread nD τ) none Set.univ (m := cmM) fp_cm2) $$ Hcm2; iintro Hcm2
  rw [read_cm m 2 0 2 rfl rfl]
  iapply (wp_load 𝒱₀ (c : Thread nD τ) none Set.univ (m := cmM) fp_cm4) $$ Hcm4; iintro Hcm4
  rw [read_cm m 4 0 3 rfl rfl]
  iapply (wp_load 𝒱₀ (c : Thread nD τ) none Set.univ (m := xvM) fp_xv0) $$ Hxv0; iintro Hxv0
  rw [read_xv 0 0 rfl, show halfOf 0 (xA m c) = xh m 0 c from rfl]
  icases Hov with ⟨%fov, Hov⟩
  ihave Hov' := (split_ov (F := F) c fullShare fov).1 $$ Hov
  icases Hov' with ⟨Hov0, Hov1⟩
  ihave Hout' := (split_o (F := F) c fullShare _).1 $$ Hout
  icases Hout' with ⟨Hout0, Hout1⟩
  iapply (wp_load 𝒱₀ (c : Thread nD τ) none Set.univ (m := ovM) fp_ov0) $$ Hov0; iintro Hov0
  iapply (wp_store 𝒱₀ (c : Thread nD τ) none Set.univ (m := ovM) (r := (Rect.unit (s := S2x4x128x128) ![0, 0, 0, 0] S1x4x128x128.size inb_S2x4x128x128_S1x4x128x128_0_0_0_0)) (Mk := Finset.univ) fps_ov0) $$ Hov0
  have hov0 := stored_ov0 m c fov
  unfold outh0 shiftv gainv at hov0
  rw [pointsTo_congr (ℓ := (ovS 0).view.loc (c : Thread nD τ)) (q := fullShare) hov0]
  iintro Hov0
  iapply (copy_own m K c 3 (ovFull m c) (m ((c : Thread nD τ).loc main_v1)) (by show _ ⊢ storePay m c 0; simp only [storePay]; rw [pointsTo_congr (land_o0 m c (m ((c : Thread nD τ).loc main_v1)))])) $$ Hrec [Hov0] [Hout0] [HtO2] <;> try iassumption
  · iexact HtO2
  iintro HcO0
  iapply (wait_own m K c 14 0 (mayWait0 c _) (slotPts c 3 (cmFull m c)) rfl) $$ Hrec Hlev [HcR3] HO Hat14
  · iexact HcR3
  iintro HO Hat14 Hcm3
  iapply (wait_own m K c 12 0 (mayWait0 c _) (slotPts c 1 (cmFull m c)) rfl) $$ Hrec Hlev [HcR1] HO Hat12
  · iexact HcR1
  iintro HO Hat12 Hcm1
  iapply (wait_own m K c 16 0 (mayWait0 c _) (slotPts c 5 (cmFull m c)) rfl) $$ Hrec Hlev [HcR5] HO Hat16
  · iexact HcR5
  iintro HO Hat16 Hcm5
  simp only [slotPts]
  iapply (wp_load 𝒱₀ (c : Thread nD τ) none Set.univ (m := msM) fp_ms1) $$ Hms1k; iintro Hms1k
  rw [read_ms m 1 1 rfl]
  iapply (wp_load 𝒱₀ (c : Thread nD τ) none Set.univ (m := cmM) fp_cm1) $$ Hcm1; iintro Hcm1
  rw [read_cm m 1 1 1 rfl rfl]
  iapply (wp_load 𝒱₀ (c : Thread nD τ) none Set.univ (m := cmM) fp_cm3) $$ Hcm3; iintro Hcm3
  rw [read_cm m 3 1 2 rfl rfl]
  iapply (wp_load 𝒱₀ (c : Thread nD τ) none Set.univ (m := cmM) fp_cm5) $$ Hcm5; iintro Hcm5
  rw [read_cm m 5 1 3 rfl rfl]
  iapply (wp_load 𝒱₀ (c : Thread nD τ) none Set.univ (m := xvM) fp_xv1) $$ Hxv1; iintro Hxv1
  rw [read_xv 1 128 rfl, show halfOf 1 (xA m c) = xh m 1 c from rfl]
  iapply (wp_load 𝒱₀ (c : Thread nD τ) none Set.univ (m := ovM) fp_ov1) $$ Hov1; iintro Hov1
  iapply (wp_store 𝒱₀ (c : Thread nD τ) none Set.univ (m := ovM) (r := (Rect.unit (s := S2x4x128x128) ![1, 0, 0, 0] S1x4x128x128.size inb_S2x4x128x128_S1x4x128x128_1_0_0_0)) (Mk := Finset.univ) fps_ov1) $$ Hov1
  have hov1 := stored_ov1 m c fov
  unfold outh1 shiftv gainv at hov1
  rw [pointsTo_congr (ℓ := (ovS 1).view.loc (c : Thread nD τ)) (q := fullShare) hov1]
  iintro Hov1
  iapply (copy_own m K c 4 (ovFull m c) (m ((c : Thread nD τ).loc main_v1)) (by show _ ⊢ storePay m c 1; simp only [storePay]; rw [pointsTo_congr (land_o1 m c (m ((c : Thread nD τ).loc main_v1)))])) $$ Hrec [Hov1] [Hout1] [HtO3] <;> try iassumption
  · iexact HtO3
  iintro HcO1
  iapply (wait_own m K c 3 0 (mayWait0 c _) _ rfl) $$ Hrec Hlev [HcO0] HO Hat3
  · iexact HcO0
  iintro HO Hat3 HpO0
  iapply (wait_own m K c 4 0 (mayWait0 c _) _ rfl) $$ Hrec Hlev [HcO1] HO Hat4
  · iexact HcO1
  iintro HO Hat4 HpO1
  iapply (wait_own m K c 7 0 (mayWait0 c _) _ rfl) $$ Hrec Hlev [HcS2] HO Hat7
  · iexact HcS2
  iintro HO Hat7 HpS2
  iapply (wait_own m K c 5 0 (mayWait0 c _) _ rfl) $$ Hrec Hlev [HcS0] HO Hat5
  · iexact HcS0
  iintro HO Hat5 HpS0
  iapply (wait_own m K c 9 0 (mayWait0 c _) _ rfl) $$ Hrec Hlev [HcS4] HO Hat9
  · iexact HcS4
  iintro HO Hat9 HpS4
  iapply (wait_own m K c 8 0 (mayWait0 c _) _ rfl) $$ Hrec Hlev [HcS3] HO Hat8
  · iexact HcS3
  iintro HO Hat8 HpS3
  iapply (wait_own m K c 6 0 (mayWait0 c _) _ rfl) $$ Hrec Hlev [HcS1] HO Hat6
  · iexact HcS1
  iintro HO Hat6 HpS1
  iapply (wait_own m K c 10 0 (mayWait0 c _) _ rfl) $$ Hrec Hlev [HcS5] HO Hat10
  · iexact HcS5
  iintro HO Hat10 HpS5
  ihave HpO0' := (Entails.of_eq (show pay m c 3 0 = storePay m c 0 from rfl)) $$ HpO0
  ihave HpO1' := (Entails.of_eq (show pay m c 4 0 = storePay m c 1 from rfl)) $$ HpO1
  simp only [storePay]
  icases HpO0' with ⟨Hout0, Hov0⟩
  icases HpO1' with ⟨Hout1, Hov1⟩
  ihave Hms0a := (Entails.of_eq (show pay m c 5 0 = sendPay m c 0 from rfl)) $$ HpS0
  ihave Hms1a := (Entails.of_eq (show pay m c 6 0 = sendPay m c 1 from rfl)) $$ HpS1
  ihave Hms0b := (Entails.of_eq (show pay m c 7 0 = sendPay m c 2 from rfl)) $$ HpS2
  ihave Hms1b := (Entails.of_eq (show pay m c 8 0 = sendPay m c 3 from rfl)) $$ HpS3
  ihave Hms0c := (Entails.of_eq (show pay m c 9 0 = sendPay m c 4 from rfl)) $$ HpS4
  ihave Hms1c := (Entails.of_eq (show pay m c 10 0 = sendPay m c 5 from rfl)) $$ HpS5
  simp only [sendPay]
  imod (close_own m K c 1 (osem 0)) $$ Hrec Hat1 with Hz1
  imod (close_own m K c 2 (osem 1)) $$ Hrec Hat2 with Hz2
  imod (close_own m K c 3 (osem 2)) $$ Hrec Hat3 with Hz3
  imod (close_own m K c 4 (osem 3)) $$ Hrec Hat4 with Hz4
  imod (close_own m K c 5 (osem 4)) $$ Hrec Hat5 with Hz5
  imod (close_own m K c 6 (osem 5)) $$ Hrec Hat6 with Hz6
  imod (close_own m K c 7 (osem 6)) $$ Hrec Hat7 with Hz7
  imod (close_own m K c 8 (osem 7)) $$ Hrec Hat8 with Hz8
  imod (close_own m K c 9 (osem 8)) $$ Hrec Hat9 with Hz9
  imod (close_own m K c 10 (osem 9)) $$ Hrec Hat10 with Hz10
  imod (close_own m K c 11 (osem 10)) $$ Hrec Hat11 with Hz11
  imod (close_own m K c 12 (osem 11)) $$ Hrec Hat12 with Hz12
  imod (close_own m K c 13 (osem 12)) $$ Hrec Hat13 with Hz13
  imod (close_own m K c 14 (osem 13)) $$ Hrec Hat14 with Hz14
  imod (close_own m K c 15 (osem 14)) $$ Hrec Hat15 with Hz15
  imod (close_own m K c 16 (osem 15)) $$ Hrec Hat16 with Hz16
  ihave Hms0 := (four_shares _ _).2 $$ [Hms0a Hms0b Hms0c Hms0k]
  · iframe
  ihave Hms1 := (four_shares _ _).2 $$ [Hms1a Hms1b Hms1c Hms1k]
  · iframe
  ihave Hms := (split_ms (F := F) c fullShare (msFull m c)).2 $$ [Hms0 Hms1]
  · iframe
  ihave Hxv := (split_xv (F := F) c fullShare (xA m c)).2 $$ [Hxv0 Hxv1]
  · iframe
  ihave Hov := (split_ov (F := F) c fullShare (ovFull m c)).2 $$ [Hov0 Hov1]
  · iframe
  ihave Hx := (split_x (F := F) c fullShare (xA m c)).2 $$ [Hx0 Hx1]
  · iframe
  ihave Hout := (split_o (F := F) c fullShare (outAt m c)).2 $$ [Hout0 Hout1]
  · iframe
  have hsc := (split_cm (F := F) c (cmFull m c)).2
  simp only [slotPts] at hsc
  ihave Hcm := hsc $$ [Hcm0 Hcm1 Hcm2 Hcm3 Hcm4 Hcm5]
  · iframe
  rw [wp_ret]; imodintro
  iapply Hk
  unfold bodyPost Φ₁ Dat.owesAt Pipeline.owesWithin
  rw [show (dats m 0 c).owed t0_0.succ = 0 from rfl]
  isplitr [HO Hst0 Hst1 Hst2]
  · isplitl [Hxv Hov Hms Hcm]
    · isplitl [Hxv]; · (iexists _; iexact Hxv)
      isplitl [Hov]; · (iexists _; iexact Hov)
      isplitl [Hms]; · (iexists _; iexact Hms)
      (iexists _; iexact Hcm)
    rw [bigSep_fin16]; iframe
  isplitl [HO]
  · iexists _
    isplitr
    rotate_left
    · iexact HO
    · ipureintro; exact fun _ _ => Or.inl trivial
  isplitl [Hst0]; · (iexists _; isplitr; · (ipureintro; exact (tB_eq m c).symm)
                     iexact Hst0)
  isplitl [Hst1]; · (iexists _; isplitr; · (ipureintro; exact (wscB_eq m c).symm)
                     iexact Hst1)
  iexists _; isplitr; · (ipureintro; exact (wshB_eq m c).symm)
  iexact Hst2

end Cert.Kernel.KB

end
-- ==== Proof.KernelBody.lean ====
import proofs.«900517_g7700000000000518_dist_diff_adaln_cshard_i_b4_s256_c128_v7x_i4_f32_1_alg».proof.Proof.KernelSound

noncomputable section

namespace Cert.Kernel.KB

open Cert.Kernel Cert.Kernel.Gen Cert.Kernel.KP

open Idealize.ShloMosaic
open Idealize.ShloMosaic.TcCoe
open Idealize.SL Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

-- At the one point the obligation's precondition is the body's own, once the cells' names are chosen.
theorem body_obligation (m : (ℓ : Loc nD τ sig) → Buf (Elt F) ℓ) (c : Dev nD) :
    BodyObligation (dats (F := F) m 0 c) (defs₀ (F := F)) 𝒱₀ () Set.univ := fun t => by
  rw [fin_N0 t, bigSep_W0, bigSep_W0]
  simp only [owns_whole_eq]
  show iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d))) ⊢ wp _ _ _ _ fun _ => bodyPost m c
  unfold Φ₀ start
  iintro ⟨⟨⟨⟨%K, Hg⟩, Hc, Hl⟩, Hs⟩, H⟩
  iapply (sound_body m K c fun _ => bodyPost m c)
  unfold bodyPre
  isplitr []
  · iframe
  · iintro H; iexact H

end Cert.Kernel.KB

end
-- ==== Proof.KernelRun.lean ====
import proofs.«900517_g7700000000000518_dist_diff_adaln_cshard_i_b4_s256_c128_v7x_i4_f32_1_alg».proof.Proof.KernelBody

noncomputable section

namespace Cert.Kernel.KRun

open Cert.Kernel Cert.Kernel.Gen Cert.Kernel.KD Cert.Kernel.KP Cert.Kernel.KB

open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ)

theorem ownSemFacts : Pipeline.OwnSemFacts cfg0.spec osem := by decide

theorem share_eq (c : Dev nD) (w : Fin cfg0.W) : (dats m 0 c).share w = fullShare := by unfold Dat.share; split <;> rfl

-- Each of the seventeen semaphores is found at its own number.
theorem csem_injective : Function.Injective (csem : Fin 17 → SemLoc sig) := fun k k' h =>
  Option.some.inj (by rw [← semIdx_csem k, ← semIdx_csem k', h])

theorem kcell_injective : Function.Injective (kcell : Dev nD × Fin 17 → GSem nD τ sig) := fun _ _ h =>
  Prod.ext (congrArg (fun g : GSem nD τ sig => g.1.1) h) (csem_injective (congrArg Prod.snd h))

def kCells : Finset (GSem nD τ sig) := Finset.univ.map ⟨kcell, kcell_injective⟩

abbrev TJ : Type := Fin 3 ⊕ (Fin 6 ⊕ Fin 10)
abbrev tsem : TJ → SemLoc sig × DT
  | .inl e => (.reg barS, e)
  | .inr (.inl k) => (.dma (recvS k), 0)
  | .inr (.inr i) => (csem ⟨i.val + 1, by omega⟩, 0)
theorem tsem_injective : Function.Injective tsem := by decide

abbrev tokOf (cj : Dev nD × TJ) : GSem nD τ sig × ℕ × DT := (((cj.1 : Thread nD τ), (tsem cj.2).1), 0, (tsem cj.2).2)
theorem tokOf_injective : Function.Injective (tokOf : Dev nD × TJ → GSem nD τ sig × ℕ × DT) := fun _ _ h =>
  Prod.ext (congrArg (fun x : GSem nD τ sig × ℕ × DT => x.1.1.1) h)
    (tsem_injective (Prod.ext (congrArg (fun x : GSem nD τ sig × ℕ × DT => x.1.2) h) (congrArg (fun x : GSem nD τ sig × ℕ × DT => x.2.2) h)))
def kToks : Finset (GSem nD τ sig × ℕ × DT) := Finset.univ.map ⟨tokOf, tokOf_injective⟩

def u₀ : UU :=
  (initOf (Pipeline.cells cfgs cellOf_inj) (Pipeline.launchToks cfgs cellOf_inj), initOf kCells kToks)

def toks (c : Dev nD) : sProp 𝕄 :=
  iprop((bigSep Finset.univ fun e : Fin 3 => dutyTok ER (barCell c) 0 e)
    ∗ (bigSep Finset.univ fun k : Fin 6 => dutyTok ER (recvCell c k) 0 (0 : DT))
    ∗ (bigSep Finset.univ fun i : Fin 10 => dutyTok ER (kcell (c, ⟨i.val + 1, by omega⟩)) 0 (0 : DT)))

def G (c : Dev nD) : sProp 𝕄 :=
  iprop((bigSep Finset.univ fun k : Fin 17 => roundState ER (Rd m) (kcell (c, k)) 0)
    ∗ (bigSep Finset.univ fun k : Fin 17 => iprop(atPos ER (kcell (c, k)) 0 ∅ 0 ∗ reached ER (kcell (c, k)) 0)) ∗ toks c)

-- Between the two: the cells' invariants allocated, each at some name, the tokens not yet dealt around.
def G₁ (c : Dev nD) : sProp 𝕄 :=
  iprop((bigSep Finset.univ fun k : Fin 17 => iprop(∃ κ : ℕ, cellInv ER (Rd m) κ (kcell (c, k))))
    ∗ (bigSep Finset.univ fun k : Fin 17 => iprop(atPos ER (kcell (c, k)) 0 ∅ 0 ∗ reached ER (kcell (c, k)) 0)) ∗ toks c)

def G' (c : Dev nD) : sProp 𝕄 := iprop(∃ K, ghost m K c)

-- The cells and the tokens are indexed by device, so what is minted splits device by device.
theorem fund_ring : BI.own (ER (initOf kCells kToks)) ⊢ (|==> bigSep Finset.univ (G m) : sProp 𝕄) := by
  have hX (Φ : GSem nD τ sig → sProp 𝕄) : bigSep kCells Φ = bigSep Finset.univ fun c : Dev nD => bigSep Finset.univ fun k : Fin 17 => Φ (kcell (c, k)) := by
    unfold kCells; rw [bigSep_map, bigSep_univ_prod]; rfl
  have hT : bigSep kToks (fun x => (dutyTok ER x.1 x.2.1 x.2.2 : sProp 𝕄)) = bigSep Finset.univ fun c : Dev nD => toks c := by
    unfold kToks; rw [bigSep_map, bigSep_univ_prod]
    exact bigSep_congr fun c _ => by unfold toks; rw [bigSep_univ_sum, bigSep_univ_sum]; rfl
  refine (Rounds.fund ER (Rd m) kCells kToks).trans (BI.bupd_mono (show _ ⊢ (_ : sProp 𝕄) from ?_))
  rw [hX, hX, hX, hT]; unfold G; simp only [bigSep_sep']
  iintro ⟨Hst, Hr, Hat, Htok⟩; iframe

-- The seventeen counters at zero, each with its cell's round state, make the seventeen invariants, each at some name.
theorem cells_alloc (c : Dev nD) :
    iprop(((Pipeline.ownSems0 osem c : sProp 𝕄) ∗ unscopedSems0 c) ∗ bigSep Finset.univ fun k : Fin 17 => roundState ER (Rd m) (kcell (c, k)) 0)
      ⊢ |={Set.univ}=> bigSep Finset.univ fun k : Fin 17 => iprop(∃ κ : ℕ, cellInv ER (Rd m) κ (kcell (c, k))) := by
  refine (sep_mono_left (show _ ⊢ (bigSep Finset.univ fun k : Fin 17 => semVal (kcell (c, k)) 0 : sProp 𝕄) from ?_)).trans ?_
  · unfold unscopedSems0 Pipeline.ownSems0
    rw [bigSep_eq_bigSepL_of_eq [SemLoc.reg barS] (by decide) (by decide), bigSep_fin17, bigSep_fin16]
    exact sep_comm.1
  · rw [← bigSep_sep']
    exact (bigSep_mono fun k _ => (Rounds.body_intro ER (Rd m) (kcell (c, k))).trans inv_alloc).trans (bigSep_fupd _ _)

theorem core_alloc (c : Dev nD) :
    iprop((Pipeline.ownSems0 osem c : sProp 𝕄) ∗ unscopedSems0 c ∗ G m c) ⊢ |={Set.univ}=> G₁ m c := by
  unfold G G₁
  iintro ⟨Hos, Hus, Hst, H⟩
  imod (cells_alloc m c) $$ [Hos Hus Hst] with Hinv
  · iframe
  imodintro
  iframe

def ringE (d : Fin 4) : Dev nD ≃ Dev nD := ⟨fwd d.val, bwd d.val, bwd_fwd d, fwd_bwd d⟩

-- Each index's summands may be taken around the ring by that index's own rotation: one bijection of the pairs.
theorem bigSep_rot {K : Type} [Fintype K] [DecidableEq K] (e : K → Dev nD ≃ Dev nD) (Φ : Dev nD → K → sProp 𝕄) :
    (bigSep Finset.univ fun c => bigSep Finset.univ fun k => Φ c k) = bigSep Finset.univ fun c => bigSep Finset.univ fun k => Φ (e k c) k :=
  (bigSep_univ_prod fun ck : Dev nD × K => Φ ck.1 ck.2).symm.trans
    ((bigSep_univ_equiv ((Equiv.prodComm _ _).trans ((Equiv.prodShear (Equiv.refl K) e).trans (Equiv.prodComm _ _))) _).trans
      (bigSep_univ_prod fun ck : Dev nD × K => Φ (e ck.2 ck.1) ck.2))

-- A barrier duty goes to the device that pays it, a landing token to the device that sends into the slot.
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_rot (fun e : Fin 3 => ringE ⟨e.val + 1, by omega⟩) _,
    bigSep_rot (fun k : Fin 6 => ringE ⟨dOf k, by have := k.isLt; show k.val / 2 + 1 < 4; omega⟩) _]
  exact .rfl

theorem regroup : (bigSep Finset.univ (G₁ m) : sProp 𝕄) ⊢ bigSep Finset.univ (G' m) := by
  unfold G₁; simp only [bigSep_sep']
  rw [← bigSep_univ_prod (fun ck : Dev nD × Fin 17 => iprop(∃ κ : ℕ, cellInv ER (Rd m) κ (kcell ck))),
    ← bigSep_univ_prod (fun ck : Dev nD × Fin 17 => (reached ER (kcell ck) 0 : sProp 𝕄))]
  iintro ⟨HI, ⟨Hat, #HR⟩, Htok⟩
  ihave ⟨%K, #HI⟩ := (BI.bigSep_exists_pi _ _) $$ HI
  ihave Htk := (toks_around (F := F)) $$ Htok
  iapply (bigSep_with_persistent (R := records m K) fun c _ => show _ ⊢ G' m c by unfold G' ghost; iintro H; iexists K; iexact H)
  isplitr
  · unfold records; iframe HI HR
  · unfold linear; rw [bigSep_sep']; iframe

theorem glob : (bigSep Finset.univ fun c => iprop((Pipeline.ownSems0 osem c : sProp 𝕄) ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

-- The ower of a tally on the device d places after it is, seen from device c, the device d places before c.
theorem launchCred_peel {A : Dev nD → CellTallies nD τ sig Unit} (sm : SemLoc sig) (d : ℕ) (hd : d < 4) {n : ℕ} {c : Dev nD} :
    (Pipeline.launchCred (fun x => A x + tallyAt (((fwd d x : Dev nD) : Thread nD τ), sm) () n) c : sProp 𝕄)
      ⊢ iprop(Pipeline.launchCred A c ∗ cred (tallyAt ((c : Thread nD τ), sm) () n)) := by
  rw [Pipeline.launchCred_add]
  exact sep_mono_right (Pipeline.launchCred_tallyAt sm (fwd d) (bwd d) (fwd_bwd ⟨d, hd⟩) (bwd_fwd ⟨d, hd⟩) () n c)

theorem cred_three (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  exact (sep_mono_right (cred_add _ _).2).trans (cred_add _ _).2

-- Summand by summand, last first: a barrier unit from each of the three devices before c, each landing cell's credit from its sender.
theorem creds_of (c : Dev nD) : (Pipeline.launchCred O₀ c : sProp 𝕄) ⊢ creds c := by
  unfold creds
  rw [bigSep_fin6]
  delta O₀
  iintro H
  ihave ⟨H, Hb1⟩ := (launchCred_peel (.reg barS) 1 (by decide)) $$ H
  ihave ⟨H, Hb2⟩ := (launchCred_peel (.reg barS) 2 (by decide)) $$ H
  ihave ⟨H, Hb3⟩ := (launchCred_peel (.reg barS) 3 (by decide)) $$ H
  ihave ⟨H, Hr2⟩ := (launchCred_peel (.dma (recvS 2)) 2 (by decide)) $$ H
  ihave ⟨H, Hr0⟩ := (launchCred_peel (.dma (recvS 0)) 1 (by decide)) $$ H
  ihave ⟨H, Hr4⟩ := (launchCred_peel (.dma (recvS 4)) 3 (by decide)) $$ H
  ihave ⟨H, Hr3⟩ := (launchCred_peel (.dma (recvS 3)) 2 (by decide)) $$ H
  ihave ⟨H, Hr1⟩ := (launchCred_peel (.dma (recvS 1)) 1 (by decide)) $$ H
  ihave Hr5 := (Pipeline.launchCred_tallyAt (.dma (recvS 5)) (fwd 3) (bwd 3) (fwd_bwd 3) (bwd_fwd 3) () N2 c) $$ H
  isplitl [Hb1 Hb2 Hb3]
  · iapply (cred_three (F := F) (barCell c)); iframe
  iframe

def X (c : Dev nD) : sProp 𝕄 :=
  iprop(start m c ∗ (((c : Thread nD τ).loc main_arg0) ↦{fullShare} m ((c : Thread nD τ).loc main_arg0))
    ∗ (((c : Thread nD τ).loc main_v1) ↦{fullShare} m ((c : Thread nD τ).loc main_v1)))
def Y (c : Dev nD) : sProp 𝕄 :=
  iprop((((c : Thread nD τ).loc main_arg0) ↦{fullShare} m ((c : Thread nD τ).loc main_arg0))
    ∗ (((c : Thread nD τ).loc main_v1) ↦{fullShare} (outAt m c : Vec F S4x256x128 .f32)))

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨H, Hlev, Hcr, -, HG⟩
  ihave Hc := (creds_of (F := F) c) $$ Hcr
  imodintro
  unfold X start G'
  iframe

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X
  iintro ⟨⟨Hs, Hx⟩, -, H⟩
  iframe

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq]
  unfold Φ₁ Y Pipeline.ownSems0
  iintro ⟨H, Hz, Hx⟩
  iframe

-- What a device owes at launch it owes to a landing cell or to a barrier cell.
theorem O₀_pos {c : Dev nD} {g : GSem nD τ sig} {u : Unit} (h : 0 < O₀ c g u) :
    (∃ d k, g = recvCell d k) ∨ (∃ d, g = barCell d) := by
  unfold O₀ at h
  repeat' (rcases Pipeline.add_pos_cases h with h | h)
  all_goals first
    | exact Or.inl ⟨_, _, (Pipeline.tallyAt_pos h).1⟩
    | exact Or.inr ⟨_, (Pipeline.tallyAt_pos h).1⟩

-- A cell that is neither a barrier nor a landing cell sits at level 0, below everything a device owes to.
theorem mayWait_stage (c : Dev nD) (q : DmaSem sig) (hq : ∀ k : Fin 6, (SemLoc.dma q : SemLoc sig) ≠ .dma (recvS k))
    (O : CellTallies nD τ sig Unit) (hO : ∀ g u, 0 < O g u → (∃ d k, g = recvCell d k) ∨ (∃ d, g = barCell d)) :
    (levAts L lv : sProp 𝕄) ⊢ MayWait (c : Thread nD τ) (.dma q) () O := by
  refine Pipeline.mayWait_of_levAts (by rw [L_tc]; exact Finset.mem_singleton_self _) fun g u hg => ?_
  cases u
  rw [show lv ((c : Thread nD τ), .dma q) () = 0 by unfold lv; rw [if_neg (fun h => by cases h), if_neg (fun ⟨k, hk⟩ => hq k hk)]]
  rcases hO g () hg with ⟨d, k, rfl⟩ | ⟨d, rfl⟩
  · exact ⟨by rw [L_tc]; exact Finset.mem_singleton_self _, by rw [lv_recv]; decide⟩
  · exact ⟨by rw [L_tc]; exact Finset.mem_singleton_self _, by rw [show lv (barCell d) () = 1 from if_pos rfl]; decide⟩

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact fun _ _ => O₀_pos
      · exact fun _ _ h => absurd h (Nat.lt_irrefl 0))

set_option maxRecDepth 8000 in
theorem run_main (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v1) = Cert.Kernel.KD.outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave ⟨HP, HX⟩ := (ownU_pair _ _) $$ Hu
      imod (fund_ring m) $$ HX with HG
      imodintro
      iframe)
    (hglob := glob m)
    (hA := fun _ _ => rfl) (hpf := fun _ k => k.elim0)
    (X := X m) (Y := Y m) (Z := fun _ => iprop(emp))
    (hX := start_intro m ρ) (hin := phi0_intro m) (hout := phi1_exit m)
    (QY := fun c s => s.mem ((c : Thread nD τ).loc main_v1) = outAt m c
      ∧ s.mem ((c : Thread nD τ).loc main_arg0) = m ((c : Thread nD τ).loc main_arg0))
    (hY := fun c s' => by
      unfold Y
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun s h c => ⟨(h c).2.2.1, (h c).2.2.2,
      ((h c).1 0).trans ((dats m 0 c).arrAt_in 0 rfl _),
      ((h c).1 1).trans ((dats m 0 c).arrAt_in 1 rfl _),
      ((h c).1 2).trans ((dats m 0 c).arrAt_in 2 rfl _)⟩)

end Cert.Kernel.KRun

end
-- ==== Proof.KernelIdealData.lean ====
import proofs.«900517_g7700000000000518_dist_diff_adaln_cshard_i_b4_s256_c128_v7x_i4_f32_1_alg».proof.Proof.Gen.KernelIdeal.Skeleton
import Idealize.ShloMosaic.Lib.ValueIdx

noncomputable section

namespace Cert.KernelIdeal.KD

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

-- The device d places after c on the ring of four; bwd is d places before.
def fwd (d : ℕ) (c : Dev nD) : Dev nD := ⟨(c.val + d) % 4, Nat.mod_lt _ (by decide)⟩
def bwd (d : ℕ) (c : Dev nD) : Dev nD := fwd (4 - d % 4) c

abbrev xA (c : Dev nD) : Vec F S4x256x128 .f32 := m ((c : Thread nD τ).loc main_arg0)
abbrev tA (c : Dev nD) : Vec F S4x128 .f32 := m ((c : Thread nD τ).loc main_arg1)
abbrev wscA (c : Dev nD) : Vec F S128x128 .f32 := m ((c : Thread nD τ).loc main_arg2)
abbrev wshA (c : Dev nD) : Vec F S128x128 .f32 := m ((c : Thread nD τ).loc main_arg3)

def halfOf (h : Fin 2) (x : Vec F S4x256x128 .f32) : Vec F S4x128x128 .f32 :=
  fun i => x (ix3 (n0 := 4) (n1 := 256) (n2 := 128) ⟨(i 0).val, (i 0).isLt⟩
    ⟨128 * h.val + (i 1).val, by have h1 : (i 1).val < 128 := (i 1).isLt; have h2 : h.val < 2 := h.isLt; omega⟩ ⟨(i 2).val, (i 2).isLt⟩)

def xh (h : Fin 2) (c : Dev nD) : Vec F S4x128x128 .f32 := halfOf h (xA m c)

-- The sum and the sum of squares over device c's own columns, for its rows of half h.
def stat (h : Fin 2) (c : Dev nD) : Vec F S1x2x4x128 .f32 :=
  fun i =>
    let j : S1x1x4x128.Idx := ix4 (n0 := 1) (n1 := 1) (n2 := 4) (n3 := 128) ⟨0, by decide⟩ ⟨0, by decide⟩ ⟨(i 2).val, (i 2).isLt⟩ ⟨(i 3).val, (i 3).isLt⟩
    if h.val = 0 then (if (i 1).val = 0 then k0_pay1 (xh m 0 c) j else k0_pay2 (xh m 0 c) j)
    else (if (i 1).val = 0 then k0_pay3 (xh m 1 c) j else k0_pay5 (k0_pay4 (xh m 1 c)) j)

def shiftv (c : Dev nD) : FVec F S4x128 .f32 := k0_pay7 (tA m c) (wshA m c)
def gainv (c : Dev nD) : FVec F S4x128 .f32 := k0_pay8 (tA m c) (wscA m c)

def outh0 (c : Dev nD) : FVec F S1x4x128x128 .f32 :=
  k0_pay11 (shiftv m c) (gainv m c)
    (k0_pay9 (stat m 0 c) (stat m 0 (bwd 1 c)) (stat m 0 (bwd 2 c)) (stat m 0 (bwd 3 c)))
    (k0_pay10 (stat m 0 c) (stat m 0 (bwd 1 c)) (stat m 0 (bwd 2 c)) (stat m 0 (bwd 3 c)))
    (xh m 0 c)
def outh1 (c : Dev nD) : FVec F S1x4x128x128 .f32 :=
  k0_pay13 (shiftv m c) (gainv m c) (k0_pay12 (stat m 1 c)) (stat m 1 (bwd 1 c)) (stat m 1 (bwd 2 c)) (stat m 1 (bwd 3 c)) (xh m 1 c)

-- Rows below 128 come from half 0, the rest from half 1.
def outAt (c : Dev nD) : Vec F S4x256x128 .f32 :=
  fun i =>
    if hlt : (i 1).val < 128 then
      outh0 m c (ix4 (n0 := 1) (n1 := 4) (n2 := 128) (n3 := 128) ⟨0, by decide⟩ ⟨(i 0).val, (i 0).isLt⟩ ⟨(i 1).val, hlt⟩ ⟨(i 2).val, (i 2).isLt⟩)
    else
      outh1 m c (ix4 (n0 := 1) (n1 := 4) (n2 := 128) (n3 := 128) ⟨0, by decide⟩ ⟨(i 0).val, (i 0).isLt⟩
        ⟨(i 1).val - 128, by have h1 : (i 1).val < 256 := (i 1).isLt; omega⟩ ⟨(i 2).val, (i 2).isLt⟩)

end Cert.KernelIdeal.KD

end
-- ==== Proof.KernelIdealProto.lean ====
import proofs.«900517_g7700000000000518_dist_diff_adaln_cshard_i_b4_s256_c128_v7x_i4_f32_1_alg».proof.Proof.Gen.KernelIdeal.Skeleton
import proofs.«900517_g7700000000000518_dist_diff_adaln_cshard_i_b4_s256_c128_v7x_i4_f32_1_alg».proof.Proof.Gen.KernelIdeal.Launch
import proofs.«900517_g7700000000000518_dist_diff_adaln_cshard_i_b4_s256_c128_v7x_i4_f32_1_alg».proof.Proof.Gen.KernelIdeal.Points
import proofs.«900517_g7700000000000518_dist_diff_adaln_cshard_i_b4_s256_c128_v7x_i4_f32_1_alg».proof.Proof.KernelIdealData
import Idealize.ShloMosaic.Lib.Pipeline.Launch
import Idealize.ShloMosaic.Lib.Pipeline.Kit
import Idealize.ShloMosaic.Lib.Tactic

noncomputable section

namespace Cert.KernelIdeal.KP

open Cert.KernelIdeal Cert.KernelIdeal.Gen Cert.KernelIdeal.KD

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

abbrev DT : Type := Fin 3
abbrev UB : Type := URounds (GSem nD τ sig) DT
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

abbrev xM : Memref sig .tc .hbm S4x256x128 .f32 := Memref.whole main_arg0
abbrev oM : Memref sig .tc .hbm S4x256x128 .f32 := Memref.whole main_v1
abbrev tM : Memref sig .tc .vmem S4x128 .f32 := Memref.whole cc0_stg0_0
abbrev wscM : Memref sig .tc .vmem S128x128 .f32 := Memref.whole cc0_stg1_0
abbrev wshM : Memref sig .tc .vmem S128x128 .f32 := Memref.whole cc0_stg2_0
abbrev xvM : Memref sig .tc .vmem S4x256x128 .f32 := Memref.whole cc0_scratch0
abbrev ovM : Memref sig .tc .vmem S2x4x128x128 .f32 := Memref.whole cc0_scratch1
abbrev msM : Memref sig .tc .vmem S2x2x4x128 .f32 := Memref.whole cc0_scratch2
abbrev cmM : Memref sig .tc .vmem S6x2x4x128 .f32 := Memref.whole cc0_scratch3

abbrev xS : Fin 2 → Memref sig .tc .hbm S4x128x128 .f32
  | 0 => xM.slice (Rect.unit (s := S4x256x128) ![0, 0, 0] S4x128x128.size inb_S4x256x128_S4x128x128_0_0_0) (fun _ => rfl)
  | 1 => xM.slice (Rect.unit (s := S4x256x128) ![0, 128, 0] S4x128x128.size inb_S4x256x128_S4x128x128_0_128_0) (fun _ => rfl)
abbrev xvS : Fin 2 → Memref sig .tc .vmem S4x128x128 .f32
  | 0 => xvM.slice (Rect.unit (s := S4x256x128) ![0, 0, 0] S4x128x128.size inb_S4x256x128_S4x128x128_0_0_0) (fun _ => rfl)
  | 1 => xvM.slice (Rect.unit (s := S4x256x128) ![0, 128, 0] S4x128x128.size inb_S4x256x128_S4x128x128_0_128_0) (fun _ => rfl)
abbrev oS : Fin 2 → Memref sig .tc .hbm S4x128x128 .f32
  | 0 => oM.slice (Rect.unit (s := S4x256x128) ![0, 0, 0] S4x128x128.size inb_S4x256x128_S4x128x128_0_0_0) (fun _ => rfl)
  | 1 => oM.slice (Rect.unit (s := S4x256x128) ![0, 128, 0] S4x128x128.size inb_S4x256x128_S4x128x128_0_128_0) (fun _ => rfl)

abbrev ovS : Fin 2 → Memref sig .tc .vmem S4x128x128 .f32
  | 0 => (ovM.slice (Rect.unit (s := S2x4x128x128) ![0, 0, 0, 0] S1x4x128x128.size inb_S2x4x128x128_S1x4x128x128_0_0_0_0) (fun _ => rfl)).squeeze S4x128x128 squeezes_S1x4x128x128_S4x128x128
  | 1 => (ovM.slice (Rect.unit (s := S2x4x128x128) ![1, 0, 0, 0] S1x4x128x128.size inb_S2x4x128x128_S1x4x128x128_1_0_0_0) (fun _ => rfl)).squeeze S4x128x128 squeezes_S1x4x128x128_S4x128x128

abbrev msS : Fin 2 → Memref sig .tc .vmem S2x4x128 .f32
  | 0 => (msM.slice (Rect.unit (s := S2x2x4x128) ![0, 0, 0, 0] S1x2x4x128.size inb_S2x2x4x128_S1x2x4x128_0_0_0_0) (fun _ => rfl)).squeeze S2x4x128 squeezes_S1x2x4x128_S2x4x128
  | 1 => (msM.slice (Rect.unit (s := S2x2x4x128) ![1, 0, 0, 0] S1x2x4x128.size inb_S2x2x4x128_S1x2x4x128_1_0_0_0) (fun _ => rfl)).squeeze S2x4x128 squeezes_S1x2x4x128_S2x4x128

abbrev cmS : Fin 6 → Memref sig .tc .vmem S2x4x128 .f32
  | 0 => (cmM.slice (Rect.unit (s := S6x2x4x128) ![0, 0, 0, 0] S1x2x4x128.size inb_S6x2x4x128_S1x2x4x128_0_0_0_0) (fun _ => rfl)).squeeze S2x4x128 squeezes_S1x2x4x128_S2x4x128
  | 1 => (cmM.slice (Rect.unit (s := S6x2x4x128) ![1, 0, 0, 0] S1x2x4x128.size inb_S6x2x4x128_S1x2x4x128_1_0_0_0) (fun _ => rfl)).squeeze S2x4x128 squeezes_S1x2x4x128_S2x4x128
  | 2 => (cmM.slice (Rect.unit (s := S6x2x4x128) ![2, 0, 0, 0] S1x2x4x128.size inb_S6x2x4x128_S1x2x4x128_2_0_0_0) (fun _ => rfl)).squeeze S2x4x128 squeezes_S1x2x4x128_S2x4x128
  | 3 => (cmM.slice (Rect.unit (s := S6x2x4x128) ![3, 0, 0, 0] S1x2x4x128.size inb_S6x2x4x128_S1x2x4x128_3_0_0_0) (fun _ => rfl)).squeeze S2x4x128 squeezes_S1x2x4x128_S2x4x128
  | 4 => (cmM.slice (Rect.unit (s := S6x2x4x128) ![4, 0, 0, 0] S1x2x4x128.size inb_S6x2x4x128_S1x2x4x128_4_0_0_0) (fun _ => rfl)).squeeze S2x4x128 squeezes_S1x2x4x128_S2x4x128
  | 5 => (cmM.slice (Rect.unit (s := S6x2x4x128) ![5, 0, 0, 0] S1x2x4x128.size inb_S6x2x4x128_S1x2x4x128_5_0_0_0) (fun _ => rfl)).squeeze S2x4x128 squeezes_S1x2x4x128_S2x4x128

abbrev barS : Sem sig := (SemArray.scalar (sig.barrier 0 rfl) : Sems sig S_).sem
abbrev loadS : Fin 2 → DmaSem sig
  | 0 => ((cc0_scratch4.slice (Rect.unit (s := S2) ![0] S1.size inb_S2_S1_0)).squeeze S_ squeezes_S1_S_).sem
  | 1 => ((cc0_scratch4.slice (Rect.unit (s := S2) ![1] S1.size inb_S2_S1_1)).squeeze S_ squeezes_S1_S_).sem
abbrev storeS : Fin 2 → DmaSem sig
  | 0 => ((cc0_scratch5.slice (Rect.unit (s := S2) ![0] S1.size inb_S2_S1_0)).squeeze S_ squeezes_S1_S_).sem
  | 1 => ((cc0_scratch5.slice (Rect.unit (s := S2) ![1] S1.size inb_S2_S1_1)).squeeze S_ squeezes_S1_S_).sem
abbrev sendS : Fin 6 → DmaSem sig
  | 0 => ((cc0_scratch6.slice (Rect.unit (s := S6) ![0] S1.size inb_S6_S1_0)).squeeze S_ squeezes_S1_S_).sem
  | 1 => ((cc0_scratch6.slice (Rect.unit (s := S6) ![1] S1.size inb_S6_S1_1)).squeeze S_ squeezes_S1_S_).sem
  | 2 => ((cc0_scratch6.slice (Rect.unit (s := S6) ![2] S1.size inb_S6_S1_2)).squeeze S_ squeezes_S1_S_).sem
  | 3 => ((cc0_scratch6.slice (Rect.unit (s := S6) ![3] S1.size inb_S6_S1_3)).squeeze S_ squeezes_S1_S_).sem
  | 4 => ((cc0_scratch6.slice (Rect.unit (s := S6) ![4] S1.size inb_S6_S1_4)).squeeze S_ squeezes_S1_S_).sem
  | 5 => ((cc0_scratch6.slice (Rect.unit (s := S6) ![5] S1.size inb_S6_S1_5)).squeeze S_ squeezes_S1_S_).sem
abbrev recvS : Fin 6 → DmaSem sig
  | 0 => ((cc0_scratch7.slice (Rect.unit (s := S6) ![0] S1.size inb_S6_S1_0)).squeeze S_ squeezes_S1_S_).sem
  | 1 => ((cc0_scratch7.slice (Rect.unit (s := S6) ![1] S1.size inb_S6_S1_1)).squeeze S_ squeezes_S1_S_).sem
  | 2 => ((cc0_scratch7.slice (Rect.unit (s := S6) ![2] S1.size inb_S6_S1_2)).squeeze S_ squeezes_S1_S_).sem
  | 3 => ((cc0_scratch7.slice (Rect.unit (s := S6) ![3] S1.size inb_S6_S1_3)).squeeze S_ squeezes_S1_S_).sem
  | 4 => ((cc0_scratch7.slice (Rect.unit (s := S6) ![4] S1.size inb_S6_S1_4)).squeeze S_ squeezes_S1_S_).sem
  | 5 => ((cc0_scratch7.slice (Rect.unit (s := S6) ![5] S1.size inb_S6_S1_5)).squeeze S_ squeezes_S1_S_).sem

-- The sixteen semaphores a kernel owns; csem is all seventeen, the barrier semaphore first.
abbrev osem : Fin 16 → SemLoc sig := fun i =>
  if h : i.val < 2 then .dma (loadS ⟨i.val, h⟩)
  else if h2 : i.val < 4 then .dma (storeS ⟨i.val - 2, by omega⟩)
  else if h3 : i.val < 10 then .dma (sendS ⟨i.val - 4, by omega⟩)
  else .dma (recvS ⟨i.val - 10, by have := i.isLt; omega⟩)
abbrev csem : Fin 17 → SemLoc sig := fun i => if h : i.val = 0 then .reg barS else osem ⟨i.val - 1, by have := i.isLt; omega⟩

abbrev barCell (c : Dev nD) : GSem nD τ sig := ((c : Thread nD τ), .reg barS)
abbrev recvCell (c : Dev nD) (k : Fin 6) : GSem nD τ sig := ((c : Thread nD τ), .dma (recvS k))
abbrev kcell (ck : Dev nD × Fin 17) : GSem nD τ sig := ((ck.1 : Thread nD τ), csem ck.2)

-- The number of a semaphore among the seventeen, if it is one of them.
def semIdx (s : SemLoc sig) : Option (Fin 17) := (List.finRange 17).find? fun i => decide (csem i = s)

theorem semIdx_csem : ∀ i : Fin 17, semIdx (csem i) = some i := by decide

abbrev NL : ℕ := (xvS 0).view.dmaCredit
abbrev NO : ℕ := (oS 0).view.dmaCredit
abbrev N2 : ℕ := (cmS 0).view.dmaCredit

-- Entry (h, r, b, s) is the device's statistic r of half h.
def msFull (c : Dev nD) : Vec F S2x2x4x128 .f32 := fun i =>
  stat m ⟨(i 0).val, (i 0).isLt⟩ c (ix4 (n0 := 1) (n1 := 2) (n2 := 4) (n3 := 128) ⟨0, by decide⟩ ⟨(i 1).val, (i 1).isLt⟩ ⟨(i 2).val, (i 2).isLt⟩ ⟨(i 3).val, (i 3).isLt⟩)

-- Slot k = 2(d-1)+h holds the statistic of half h of the device d places before c.
def cmFull (c : Dev nD) : Vec F S6x2x4x128 .f32 := fun i =>
  stat m ⟨(i 0).val % 2, Nat.mod_lt _ (by decide)⟩ (bwd ((i 0).val / 2 + 1) c)
    (ix4 (n0 := 1) (n1 := 2) (n2 := 4) (n3 := 128) ⟨0, by decide⟩ ⟨(i 1).val, (i 1).isLt⟩ ⟨(i 2).val, (i 2).isLt⟩ ⟨(i 3).val, (i 3).isLt⟩)

def ovFull (c : Dev nD) : Vec F S2x4x128x128 .f32 := fun i =>
  let j : S1x4x128x128.Idx := ix4 (n0 := 1) (n1 := 4) (n2 := 128) (n3 := 128) ⟨0, by decide⟩ ⟨(i 1).val, (i 1).isLt⟩ ⟨(i 2).val, (i 2).isLt⟩ ⟨(i 3).val, (i 3).isLt⟩
  if (i 0).val = 0 then outh0 m c j else outh1 m c j

abbrev dOf (k : Fin 6) : ℕ := k.val / 2 + 1

def loadPay (c : Dev nD) : Fin 2 → sProp 𝕄
  | 0 => iprop(((xvS 0).view.loc (c : Thread nD τ) ↦[(xvS 0).view.set]{fullShare} xA m c)
      ∗ ((xS 0).view.loc (c : Thread nD τ) ↦[(xS 0).view.set]{fullShare} xA m c))
  | 1 => iprop(((xvS 1).view.loc (c : Thread nD τ) ↦[(xvS 1).view.set]{fullShare} xA m c)
      ∗ ((xS 1).view.loc (c : Thread nD τ) ↦[(xS 1).view.set]{fullShare} xA m c))
def storePay (c : Dev nD) : Fin 2 → sProp 𝕄
  | 0 => iprop(((oS 0).view.loc (c : Thread nD τ) ↦[(oS 0).view.set]{fullShare} outAt m c)
      ∗ ((ovS 0).view.loc (c : Thread nD τ) ↦[(ovS 0).view.set]{fullShare} ovFull m c))
  | 1 => iprop(((oS 1).view.loc (c : Thread nD τ) ↦[(oS 1).view.set]{fullShare} outAt m c)
      ∗ ((ovS 1).view.loc (c : Thread nD τ) ↦[(ovS 1).view.set]{fullShare} ovFull m c))
def sendPay (c : Dev nD) : Fin 6 → sProp 𝕄
  | 0 => (msS 0).view.loc (c : Thread nD τ) ↦[(msS 0).view.set]{fullShare.left} msFull m c
  | 1 => (msS 1).view.loc (c : Thread nD τ) ↦[(msS 1).view.set]{fullShare.left} msFull m c
  | 2 => (msS 0).view.loc (c : Thread nD τ) ↦[(msS 0).view.set]{fullShare.right.left} msFull m c
  | 3 => (msS 1).view.loc (c : Thread nD τ) ↦[(msS 1).view.set]{fullShare.right.left} msFull m c
  | 4 => (msS 0).view.loc (c : Thread nD τ) ↦[(msS 0).view.set]{fullShare.right.right.left} msFull m c
  | 5 => (msS 1).view.loc (c : Thread nD τ) ↦[(msS 1).view.set]{fullShare.right.right.left} msFull m c
def slotPts (c : Dev nD) : Fin 6 → Vec F S6x2x4x128 .f32 → sProp 𝕄
  | 0, f => (cmS 0).view.loc (c : Thread nD τ) ↦[(cmS 0).view.set]{fullShare} f
  | 1, f => (cmS 1).view.loc (c : Thread nD τ) ↦[(cmS 1).view.set]{fullShare} f
  | 2, f => (cmS 2).view.loc (c : Thread nD τ) ↦[(cmS 2).view.set]{fullShare} f
  | 3, f => (cmS 3).view.loc (c : Thread nD τ) ↦[(cmS 3).view.set]{fullShare} f
  | 4, f => (cmS 4).view.loc (c : Thread nD τ) ↦[(cmS 4).view.set]{fullShare} f
  | 5, f => (cmS 5).view.loc (c : Thread nD τ) ↦[(cmS 5).view.set]{fullShare} f

instance slotPts_storable (c : Dev nD) (k : Fin 6) (f : Vec F S6x2x4x128 .f32) : BI.Storable (upEmb : UEmb _ 𝕄) (slotPts (F := F) c k f) := by
  unfold slotPts; split <;> infer_instance

def recvPay (c : Dev nD) (k : Fin 6) : sProp 𝕄 := slotPts c k (cmFull m c)

-- With its barrier unit the device e+1 places before c hands c the two slots that c's copies fill, and that their cells stand at round 0.
def barPay (c : Dev nD) : Fin 3 → sProp 𝕄
  | 0 => iprop((∃ f, slotPts (bwd 1 c) 4 f) ∗ (∃ f, slotPts (bwd 1 c) 5 f)
      ∗ reached ER (recvCell (bwd 1 c) 4) 0 ∗ reached ER (recvCell (bwd 1 c) 5) 0)
  | 1 => iprop((∃ f, slotPts (bwd 2 c) 2 f) ∗ (∃ f, slotPts (bwd 2 c) 3 f)
      ∗ reached ER (recvCell (bwd 2 c) 2) 0 ∗ reached ER (recvCell (bwd 2 c) 3) 0)
  | 2 => iprop((∃ f, slotPts (bwd 3 c) 0 f) ∗ (∃ f, slotPts (bwd 3 c) 1 f)
      ∗ reached ER (recvCell (bwd 3 c) 0) 0 ∗ reached ER (recvCell (bwd 3 c) 1) 0)

def pay (c : Dev nD) : Fin 17 → DT → sProp 𝕄
  | ⟨0, _⟩, d => barPay (F := F) c d
  | ⟨1, _⟩, _ => loadPay m c 0
  | ⟨2, _⟩, _ => loadPay m c 1
  | ⟨3, _⟩, _ => storePay m c 0
  | ⟨4, _⟩, _ => storePay m c 1
  | ⟨5, _⟩, _ => sendPay m c 0
  | ⟨6, _⟩, _ => sendPay m c 1
  | ⟨7, _⟩, _ => sendPay m c 2
  | ⟨8, _⟩, _ => sendPay m c 3
  | ⟨9, _⟩, _ => sendPay m c 4
  | ⟨10, _⟩, _ => sendPay m c 5
  | ⟨11, _⟩, _ => recvPay m c 0
  | ⟨12, _⟩, _ => recvPay m c 1
  | ⟨13, _⟩, _ => recvPay m c 2
  | ⟨14, _⟩, _ => recvPay m c 3
  | ⟨15, _⟩, _ => recvPay m c 4
  | ⟨16, _⟩, _ => recvPay m c 5
  | ⟨_ + 17, h⟩, _ => absurd h (by omega)

def amt (i : Fin 17) : ℕ := if i.val = 0 then 1 else if i.val < 3 then NL else if i.val < 5 then NO else N2

theorem amt_pos (i : Fin 17) : 0 < amt i := by
  unfold amt
  repeat' split
  all_goals first | exact Nat.one_pos | exact View.dmaCredit_pos _ (by decide)

-- One round per cell: the barrier cell has three duties of one unit, every other cell one duty of its copy's credit.
def Rd : Rounds.Schedule (GSem nD τ sig) DT 𝕄 where
  duties g r := if r = 0 ∧ g.1.2 = .tc then (match semIdx g.2 with | some i => if i.val = 0 then Finset.univ else {0} | none => ∅) else ∅
  unitless _ := False
  amount g _ _ := match semIdx g.2 with | some i => amt i | none => 1
  payload g _ d := match semIdx g.2 with | some i => pay m g.1.1 i d | none => iprop(emp)
  amount_pos g _ _ _ := by
    show 0 < (match semIdx g.2 with | some i => amt i | none => 1)
    split
    · exact amt_pos _
    · exact Nat.one_pos

theorem pay_storable (c : Dev nD) (i : Fin 17) (d : DT) : BI.Storable (upEmb : UEmb _ 𝕄) (pay (F := F) m c i d) := by
  unfold pay
  split
  · unfold barPay; split <;> infer_instance
  all_goals first
    | (unfold loadPay; infer_instance)
    | (unfold storePay; infer_instance)
    | (unfold sendPay; infer_instance)
    | (unfold recvPay; infer_instance)
    | (rename_i h; exact absurd h (by omega))

instance Rd_payload_storable (g : GSem nD τ sig) (r : ℕ) (d : DT) :
    BI.Storable (upEmb : UEmb _ 𝕄) ((Rd (F := F) m).payload g r d) := by
  show BI.Storable upEmb (match semIdx g.2 with | some i => pay m g.1.1 i d | none => iprop(emp))
  split
  · exact pay_storable m _ _ _
  · infer_instance

section Sched
variable (c : Dev nD)

theorem duties_at (i : Fin 17) : (Rd (F := F) m).duties (kcell (c, i)) 0 = if i.val = 0 then Finset.univ else {0} := by
  dsimp only [Rd]; rw [if_pos ⟨rfl, rfl⟩, semIdx_csem]
theorem amount_at (i : Fin 17) (d : DT) : (Rd (F := F) m).amount (kcell (c, i)) 0 d = amt i := by
  dsimp only [Rd]; rw [semIdx_csem]
theorem payload_at (i : Fin 17) (d : DT) : (Rd (F := F) m).payload (kcell (c, i)) 0 d = pay m c i d := by
  dsimp only [Rd]; rw [semIdx_csem]
theorem duties_later (g : GSem nD τ sig) : ∀ r, 1 ≤ r → (Rd (F := F) m).duties g r = ∅ :=
  fun r hr => by dsimp only [Rd]; rw [if_neg fun h => by omega]

theorem duties_bar : (Rd (F := F) m).duties (barCell c) 0 = Finset.univ := duties_at m c 0
theorem duties_own (i : Fin 17) (hi : i.val ≠ 0) : (Rd (F := F) m).duties (kcell (c, i)) 0 = {0} := by
  rw [duties_at, if_neg hi]
theorem expect_bar : (Rd (F := F) m).expect (barCell c) 0 = 3 := by
  unfold Schedule.expect Schedule.amountOf
  have h : ∀ d, (Rd (F := F) m).amount (barCell c) 0 d = 1 := fun d => amount_at m c 0 d
  rw [duties_bar]; simp only [h]; simp
theorem expect_own (i : Fin 17) (hi : i.val ≠ 0) : (Rd (F := F) m).expect (kcell (c, i)) 0 = amt i := by
  unfold Schedule.expect Schedule.amountOf; rw [duties_own m c i hi, Finset.sum_singleton, amount_at]
theorem rest_own (i : Fin 17) (hi : i.val ≠ 0) :
    bigSep ((Rd (F := F) m).duties (kcell (c, i)) 0 \ ∅) (fun d => (Rd (F := F) m).payload (kcell (c, i)) 0 d) = pay m c i 0 := by
  rw [Finset.sdiff_empty, duties_own m c i hi, bigSep_singleton, payload_at]
theorem rest_bar :
    bigSep ((Rd (F := F) m).duties (barCell c) 0 \ ∅) (fun d => (Rd (F := F) m).payload (barCell c) 0 d)
      = iprop(barPay c 0 ∗ barPay c 1 ∗ barPay (F := F) c 2) := by
  rw [Finset.sdiff_empty, duties_bar, bigSep_univ_eq_bigSepL [(0 : Fin 3), 1, 2] (by decide) (by decide),
    show (Rd (F := F) m).payload (barCell c) 0 = barPay c from funext (payload_at m c 0)]
  rfl

end Sched

-- Summed so that each payment, in program order, takes off the last summand.
def O₀ (c : Dev nD) : CellTallies nD τ sig Unit :=
  tallyAt (recvCell (fwd 3 c) 5) () N2 + tallyAt (recvCell (fwd 1 c) 1) () N2 + tallyAt (recvCell (fwd 2 c) 3) () N2
    + tallyAt (recvCell (fwd 3 c) 4) () N2 + tallyAt (recvCell (fwd 1 c) 0) () N2 + tallyAt (recvCell (fwd 2 c) 2) () N2
    + tallyAt (barCell (fwd 3 c)) () 1 + tallyAt (barCell (fwd 2 c)) () 1 + tallyAt (barCell (fwd 1 c)) () 1

def L (g : GSem nD τ sig) : Finset Unit := if g.1.2 = .tc then {()} else ∅
-- Barrier cells at level 1, landing cells at level 2, all others at 0.
def lv (g : GSem nD τ sig) (_ : Unit) : ℕ :=
  if g.2 = .reg barS then 1 else if (∃ k : Fin 6, g.2 = .dma (recvS k)) then 2 else 0

theorem L_of_ne (g : GSem nD τ sig) (h : g.1.2 ≠ .tc) : L g = ∅ := if_neg h
theorem L_tc (c : Dev nD) (sm : SemLoc sig) : L ((c : Thread nD τ), sm) = {()} := if_pos rfl

def records (K : Dev nD × Fin 17 → ℕ) : sProp 𝕄 :=
  iprop((bigSep Finset.univ fun ck : Dev nD × Fin 17 => cellInv ER (Rd m) (K ck) (kcell ck))
    ∗ bigSep Finset.univ fun ck : Dev nD × Fin 17 => reached ER (kcell ck) 0)

instance records_persistent (K : Dev nD × Fin 17 → ℕ) : BI.Persistent (records (F := F) m K) := by unfold records; infer_instance

theorem inv_at (K : Dev nD × Fin 17 → ℕ) (ck : Dev nD × Fin 17) :
    records (F := F) m K ⊢ cellInv ER (Rd m) (K ck) (kcell ck) := by
  unfold records; exact sep_elim_left.trans (bigSep_elim (Finset.mem_univ ck))
theorem reached_at (K : Dev nD × Fin 17 → ℕ) (ck : Dev nD × Fin 17) :
    records (F := F) m K ⊢ reached ER (kcell ck) 0 := by
  unfold records; exact sep_elim_right.trans (bigSep_elim (Finset.mem_univ ck))

-- The tokens of the duties device c itself pays.
def payToks (c : Dev nD) : sProp 𝕄 :=
  iprop((bigSep Finset.univ fun e : Fin 3 => dutyTok ER (barCell (fwd (e.val + 1) c)) 0 e)
    ∗ (bigSep Finset.univ fun k : Fin 6 => dutyTok ER (recvCell (fwd (dOf k) c) k) 0 (0 : DT))
    ∗ (bigSep Finset.univ fun i : Fin 10 => dutyTok ER (kcell (c, ⟨i.val + 1, by omega⟩)) 0 (0 : DT)))

def linear (c : Dev nD) : sProp 𝕄 :=
  iprop((bigSep Finset.univ fun i : Fin 17 => atPos ER (kcell (c, i)) 0 ∅ 0) ∗ payToks c)

def ghost (K : Dev nD × Fin 17 → ℕ) (c : Dev nD) : sProp 𝕄 := iprop(records m K ∗ linear c)

def creds (c : Dev nD) : sProp 𝕄 :=
  iprop(cred (tallyAt (barCell c) () 3) ∗ bigSep Finset.univ fun k : Fin 6 => cred (tallyAt (recvCell c k) () N2))

def start (c : Dev nD) : sProp 𝕄 :=
  iprop((∃ K, ghost m K c) ∗ creds c ∗ levAts L lv)

abbrev someW (c : Dev nD) (b : Ref sig .tc) : sProp 𝕄 :=
  iprop(∃ f : Buf (Elt F) ((c : Thread nD τ).loc b), ((c : Thread nD τ).loc b) ↦{fullShare} f)

def Φ₀ (c : Dev nD) : sProp 𝕄 :=
  iprop(start m c ∗ (someW c cc0_scratch0 ∗ someW c cc0_scratch1 ∗ someW c cc0_scratch2 ∗ someW c cc0_scratch3)
    ∗ (((c : Thread nD τ).loc main_arg0) ↦{fullShare} m ((c : Thread nD τ).loc main_arg0))
    ∗ (((c : Thread nD τ).loc main_v1) ↦{fullShare} m ((c : Thread nD τ).loc main_v1)))

def Φ₁ (c : Dev nD) : sProp 𝕄 :=
  iprop((someW c cc0_scratch0 ∗ someW c cc0_scratch1 ∗ someW c cc0_scratch2 ∗ someW c cc0_scratch3)
    ∗ (bigSep Finset.univ fun i : Fin 16 => semVal ((c : Thread nD τ), osem i) 0)
    ∗ (((c : Thread nD τ).loc main_arg0) ↦{fullShare} m ((c : Thread nD τ).loc main_arg0))
    ∗ (((c : Thread nD τ).loc main_v1) ↦{fullShare} (outAt m c : Vec F S4x256x128 .f32)))

def tB (c : Dev nD) : (cc0_stg0_0 : Ref sig .tc).ty.Contents (Elt F) :=
  (win0_0.blk t0_0).view.read (Elt F) (m ((c : Thread nD τ).loc main_arg1))
def wscB (c : Dev nD) : (cc0_stg1_0 : Ref sig .tc).ty.Contents (Elt F) :=
  (win0_1.blk t0_0).view.read (Elt F) (m ((c : Thread nD τ).loc main_arg2))
def wshB (c : Dev nD) : (cc0_stg2_0 : Ref sig .tc).ty.Contents (Elt F) :=
  (win0_2.blk t0_0).view.read (Elt F) (m ((c : Thread nD τ).loc main_arg3))

def dats (_ : Fin 1) (c : Dev nD) : Dat τ (Elt F) Unit ℕ UU ℕ cfg0 c where
  A w := m ((cfg0.win w).arr.view.loc (c : Thread nD τ))
  after w _ := match w with
    | ⟨0, _⟩ => tB m c
    | ⟨1, _⟩ => wscB m c
    | ⟨2, _⟩ => wshB m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem dev1_eq (c : Dev nD) : (⟨k0_dev1 c, k0_dev1_lt c⟩ : Dev nD) = fwd 1 c := by revert c; decide +kernel
theorem dev2_eq (c : Dev nD) : (⟨k0_dev2 c, k0_dev2_lt c⟩ : Dev nD) = fwd 2 c := by revert c; decide +kernel
theorem dev3_eq (c : Dev nD) : (⟨k0_dev3 c, k0_dev3_lt c⟩ : Dev nD) = fwd 3 c := by revert c; decide +kernel
theorem dev4_eq (c : Dev nD) : (⟨k0_dev4 c, k0_dev4_lt c⟩ : Dev nD) = fwd 2 c := by revert c; decide +kernel
theorem dev5_eq (c : Dev nD) : (⟨k0_dev5 c, k0_dev5_lt c⟩ : Dev nD) = fwd 1 c := by revert c; decide +kernel
theorem dev6_eq (c : Dev nD) : (⟨k0_dev6 c, k0_dev6_lt c⟩ : Dev nD) = fwd 3 c := by revert c; decide +kernel
theorem dev7_eq (c : Dev nD) : (⟨k0_dev7 c, k0_dev7_lt c⟩ : Dev nD) = fwd 2 c := by revert c; decide +kernel
theorem dev8_eq (c : Dev nD) : (⟨k0_dev8 c, k0_dev8_lt c⟩ : Dev nD) = fwd 1 c := by revert c; decide +kernel
theorem dev9_eq (c : Dev nD) : (⟨k0_dev9 c, k0_dev9_lt c⟩ : Dev nD) = fwd 3 c := by revert c; decide +kernel

theorem bwd_fwd (d : Fin 4) (c : Dev nD) : bwd d.val (fwd d.val c) = c := by revert d c; decide
theorem fwd_bwd (d : Fin 4) (c : Dev nD) : fwd d.val (bwd d.val c) = c := by revert d c; decide

end Cert.KernelIdeal.KP

end
-- ==== Proof.KernelIdealViewsA.lean ====
import proofs.«900517_g7700000000000518_dist_diff_adaln_cshard_i_b4_s256_c128_v7x_i4_f32_1_alg».proof.Proof.KernelIdealProto
import Idealize.ShloMosaic.Lib.Ring

noncomputable section

namespace Cert.KernelIdeal.KV

open Cert.KernelIdeal Cert.KernelIdeal.Gen Cert.KernelIdeal.KD Cert.KernelIdeal.KP
open Idealize.ShloMosaic Idealize.ShloMosaic.TcCoe
open Idealize.SL Idealize.SL.RA Idealize.SL.BI Idealize.SL.BI.BIBase
open scoped Idealize.SL.BI

variable {F : FTy → Type} [FloatOps F]

local notation "𝕄" => MT nD τ sig Unit (Elt F) ℕ UU ℕ

/-- The rectangles the buffers are cut into, each by the offset that varies. -/
abbrev rowsR (r : ℕ) (inb : ∀ a, (![0, r, 0] : Fin 3 → ℕ) a + S4x128x128.size a ≤ S4x256x128.size a := by decide) : Rect S4x256x128 :=
  Rect.unit ![0, r, 0] S4x128x128.size inb
abbrev ovR (h : ℕ) (inb : ∀ a, (![h, 0, 0, 0] : Fin 4 → ℕ) a + S1x4x128x128.size a ≤ S2x4x128x128.size a := by decide) : Rect S2x4x128x128 :=
  Rect.unit ![h, 0, 0, 0] S1x4x128x128.size inb
abbrev msR (h : ℕ) (inb : ∀ a, (![h, 0, 0, 0] : Fin 4 → ℕ) a + S1x2x4x128.size a ≤ S2x2x4x128.size a := by decide) : Rect S2x2x4x128 :=
  Rect.unit ![h, 0, 0, 0] S1x2x4x128.size inb
abbrev msrR (h r : ℕ) (inb : ∀ a, (![h, r, 0, 0] : Fin 4 → ℕ) a + S1x1x4x128.size a ≤ S2x2x4x128.size a) : Rect S2x2x4x128 :=
  Rect.unit ![h, r, 0, 0] S1x1x4x128.size inb
abbrev cmR (k : ℕ) (inb : ∀ a, (![k, 0, 0, 0] : Fin 4 → ℕ) a + S1x2x4x128.size a ≤ S6x2x4x128.size a := by decide) : Rect S6x2x4x128 :=
  Rect.unit ![k, 0, 0, 0] S1x2x4x128.size inb

section
variable {κ : Kind} {b : Ref sig κ} {off size off' size' : Fin b.ty.shape.rank → ℕ} {inb : ∀ a, off a + size a ≤ b.ty.shape.size a}
  {inb' : ∀ a, off' a + size' a ≤ b.ty.shape.size a} {s' : Shape}

/-- Slicing a whole buffer, and dropping unit axes afterwards, keeps exactly the rectangle's elements. -/
theorem set_w : ((Memref.whole b).slice (Rect.unit off size inb) fun _ => rfl).view.set = (Rect.unit off size inb).set :=
  View.set_slice_whole b _
theorem set_sq (hq : (Rect.unit off size inb).shape.Squeezes s') :
    (((Memref.whole b).slice (Rect.unit off size inb) fun _ => rfl).squeeze s' hq).view.set = (Rect.unit off size inb).set :=
  (View.set_reshape _ _).trans set_w

/-- A whole buffer's view sends an index to itself. -/
theorem setOn_whole (M : Finset b.ty.shape.Idx) : (Memref.whole b : Memref sig κ _ _ _).view.setOn M = M :=
  Finset.map_refl

/-- Unit-stride rectangles are nested when their spans are, axis by axis. -/
theorem unit_subset (h : ∀ a, off' a ≤ off a ∧ off a + size a ≤ off' a + size' a) :
    (Rect.unit off size inb).set ⊆ (Rect.unit off' size' inb').set := fun i hi =>
  Rect.mem_set_unit.mpr fun a => by have h1 := Rect.mem_set_unit.mp hi a; have h2 := h a; omega

/-- Hence an access at a rectangle nested in a piece's rectangle stays among the piece's elements. -/
theorem fp_w (h : ∀ a, off' a ≤ off a ∧ off a + size a ≤ off' a + size' a) :
    (Memref.whole b : Memref sig κ _ _ _).view.setOn (Rect.unit off size inb).toLoadRect.set
      ⊆ ((Memref.whole b).slice (Rect.unit off' size' inb') fun _ => rfl).view.set := by
  rw [setOn_whole, set_w]; exact unit_subset h
theorem fp_sq (hq : (Rect.unit off' size' inb').shape.Squeezes s') (h : ∀ a, off' a ≤ off a ∧ off a + size a ≤ off' a + size' a) :
    (Memref.whole b : Memref sig κ _ _ _).view.setOn (Rect.unit off size inb).toLoadRect.set
      ⊆ (((Memref.whole b).slice (Rect.unit off' size' inb') fun _ => rfl).squeeze s' hq).view.set := by
  rw [setOn_whole, set_sq]; exact unit_subset h
theorem fps_sq (hq : (Rect.unit off' size' inb').shape.Squeezes s') (h : ∀ a, off' a ≤ off a ∧ off a + size a ≤ off' a + size' a) :
    ((Memref.whole b : Memref sig κ _ _ _).access (Rect.unit off size inb)).setOn Finset.univ
      ⊆ (((Memref.whole b).slice (Rect.unit off' size' inb') fun _ => rfl).squeeze s' hq).view.set := by
  rw [View.setOn_univ, set_sq]
  show ((View.whole b).slice _).set ⊆ _
  rw [View.set_slice_whole]; exact unit_subset h
end

/-- Equal pieces along one axis share no element and cover the buffer, so holding it is holding them all. -/
theorem held_cut (c : Dev nD) (b : Ref sig .tc) {n : ℕ} (I : Fin n → Finset b.ty.shape.Idx) (a₀ : Fin b.ty.shape.rank) (R : ℕ)
    (off : Fin n → Fin b.ty.shape.rank → ℕ) (size : Fin b.ty.shape.rank → ℕ) (inb : ∀ k a, off k a + size a ≤ b.ty.shape.size a)
    (hI : ∀ k, I k = (Rect.unit (off k) size (inb k)).set) (hoff₀ : ∀ k, off k a₀ = R * k.val)
    (hoff : ∀ k a, a ≠ a₀ → off k a = 0) (hsz₀ : size a₀ = R) (hsz : ∀ a, a ≠ a₀ → size a = b.ty.shape.size a)
    (hN : n * R = b.ty.shape.size a₀) (q : PosShare TreeShare) (f : Buf (Elt F) ((c : Thread nD τ).loc b)) :
    (((c : Thread nD τ).loc b ↦{q} f) : sProp 𝕄) = bigSep Finset.univ fun k => (c : Thread nD τ).loc b ↦[I k]{q} f := by
  obtain rfl : I = fun k => (Rect.unit (off k) size (inb k)).set := funext hI
  exact Ring.pointsTo_blocks _ (Ring.lead_disjoint a₀ R off size inb hoff₀ hsz₀)
    (Ring.lead_cover a₀ R off size inb hoff₀ hoff hsz₀ hsz hN) f

theorem split_x (c : Dev nD) (q : PosShare TreeShare) (f : Vec F S4x256x128 .f32) :
    (((c : Thread nD τ).loc main_arg0 ↦{q} f) : sProp 𝕄)
      ⊣⊢ iprop(((xS 0).view.loc (c : Thread nD τ) ↦[(xS 0).view.set]{q} f) ∗ ((xS 1).view.loc (c : Thread nD τ) ↦[(xS 1).view.set]{q} f)) := by
  rw [held_cut c main_arg0 ![(xS 0).view.set, (xS 1).view.set] 1 128 (fun h => ![0, 128 * h.val, 0]) S4x128x128.size (by decide) (fun | 0 | 1 => set_w)
    (by decide) (by decide) rfl (by decide) rfl q f, Ring.bigSep_fin2]; exact .rfl
theorem split_xv (c : Dev nD) (q : PosShare TreeShare) (f : Vec F S4x256x128 .f32) :
    (((c : Thread nD τ).loc cc0_scratch0 ↦{q} f) : sProp 𝕄)
      ⊣⊢ iprop(((xvS 0).view.loc (c : Thread nD τ) ↦[(xvS 0).view.set]{q} f) ∗ ((xvS 1).view.loc (c : Thread nD τ) ↦[(xvS 1).view.set]{q} f)) := by
  rw [held_cut c cc0_scratch0 ![(xvS 0).view.set, (xvS 1).view.set] 1 128 (fun h => ![0, 128 * h.val, 0]) S4x128x128.size (by decide) (fun | 0 | 1 => set_w)
    (by decide) (by decide) rfl (by decide) rfl q f, Ring.bigSep_fin2]; exact .rfl
theorem split_o (c : Dev nD) (q : PosShare TreeShare) (f : Vec F S4x256x128 .f32) :
    (((c : Thread nD τ).loc main_v1 ↦{q} f) : sProp 𝕄)
      ⊣⊢ iprop(((oS 0).view.loc (c : Thread nD τ) ↦[(oS 0).view.set]{q} f) ∗ ((oS 1).view.loc (c : Thread nD τ) ↦[(oS 1).view.set]{q} f)) := by
  rw [held_cut c main_v1 ![(oS 0).view.set, (oS 1).view.set] 1 128 (fun h => ![0, 128 * h.val, 0]) S4x128x128.size (by decide) (fun | 0 | 1 => set_w)
    (by decide) (by decide) rfl (by decide) rfl q f, Ring.bigSep_fin2]; exact .rfl
theorem split_ov (c : Dev nD) (q : PosShare TreeShare) (f : Vec F S2x4x128x128 .f32) :
    (((c : Thread nD τ).loc cc0_scratch1 ↦{q} f) : sProp 𝕄)
      ⊣⊢ iprop(((ovS 0).view.loc (c : Thread nD τ) ↦[(ovS 0).view.set]{q} f) ∗ ((ovS 1).view.loc (c : Thread nD τ) ↦[(ovS 1).view.set]{q} f)) := by
  rw [held_cut c cc0_scratch1 ![(ovS 0).view.set, (ovS 1).view.set] 0 1 (fun h => ![h.val, 0, 0, 0]) S1x4x128x128.size (by decide) (fun | 0 | 1 => set_sq (b := cc0_scratch1) squeezes_S1x4x128x128_S4x128x128)
    (by decide) (by decide) rfl (by decide) rfl q f, Ring.bigSep_fin2]; exact .rfl
theorem split_ms (c : Dev nD) (q : PosShare TreeShare) (f : Vec F S2x2x4x128 .f32) :
    (((c : Thread nD τ).loc cc0_scratch2 ↦{q} f) : sProp 𝕄)
      ⊣⊢ iprop(((msS 0).view.loc (c : Thread nD τ) ↦[(msS 0).view.set]{q} f) ∗ ((msS 1).view.loc (c : Thread nD τ) ↦[(msS 1).view.set]{q} f)) := by
  rw [held_cut c cc0_scratch2 ![(msS 0).view.set, (msS 1).view.set] 0 1 (fun h => ![h.val, 0, 0, 0]) S1x2x4x128.size (by decide) (fun | 0 | 1 => set_sq (b := cc0_scratch2) squeezes_S1x2x4x128_S2x4x128)
    (by decide) (by decide) rfl (by decide) rfl q f, Ring.bigSep_fin2]; exact .rfl
theorem split_cm (c : Dev nD) (f : Vec F S6x2x4x128 .f32) :
    (((c : Thread nD τ).loc cc0_scratch3 ↦{fullShare} f) : sProp 𝕄)
      ⊣⊢ iprop(slotPts c 0 f ∗ slotPts c 1 f ∗ slotPts c 2 f ∗ slotPts c 3 f ∗ slotPts c 4 f ∗ slotPts c 5 f) := by
  rw [held_cut c cc0_scratch3
    ![(cmS 0).view.set, (cmS 1).view.set, (cmS 2).view.set, (cmS 3).view.set, (cmS 4).view.set, (cmS 5).view.set]
    0 1 (fun k => ![k.val, 0, 0, 0]) S1x2x4x128.size (by decide) (fun | 0 | 1 | 2 | 3 | 4 | 5 => set_sq (b := cc0_scratch3) squeezes_S1x2x4x128_S2x4x128) (by decide) (by decide) rfl
    (by decide) rfl fullShare f, bigSep_univ_eq_bigSepL [0, 1, 2, 3, 4, 5] (by decide) (by decide)]; exact .rfl

theorem fp_xv0 : xvM.view.setOn (rowsR 0).toLoadRect.set ⊆ (xvS 0).view.set := fp_w (by decide)
theorem fp_xv1 : xvM.view.setOn (rowsR 128).toLoadRect.set ⊆ (xvS 1).view.set := fp_w (by decide)
theorem fp_ms0 : msM.view.setOn (msR 0).toLoadRect.set ⊆ (msS 0).view.set := fp_sq (by exact squeezes_S1x2x4x128_S2x4x128) (by decide)
theorem fp_ov0 : ovM.view.setOn (ovR 0).toLoadRect.set ⊆ (ovS 0).view.set := fp_sq (by exact squeezes_S1x4x128x128_S4x128x128) (by decide)
theorem fps_ov0 : (ovM.access (ovR 0)).setOn Finset.univ ⊆ (ovS 0).view.set := fps_sq (by exact squeezes_S1x4x128x128_S4x128x128) (by decide)
theorem fp_ms00 : msM.view.setOn (msrR 0 0 inb_S2x2x4x128_S1x1x4x128_0_0_0_0).toLoadRect.set ⊆ (msS 0).view.set := fp_sq (by exact squeezes_S1x2x4x128_S2x4x128) (by decide)
theorem fps_ms00 : (msM.access (msrR 0 0 inb_S2x2x4x128_S1x1x4x128_0_0_0_0)).setOn Finset.univ ⊆ (msS 0).view.set := fps_sq (by exact squeezes_S1x2x4x128_S2x4x128) (by decide)
theorem fp_ms01 : msM.view.setOn (msrR 0 1 inb_S2x2x4x128_S1x1x4x128_0_1_0_0).toLoadRect.set ⊆ (msS 0).view.set := fp_sq (by exact squeezes_S1x2x4x128_S2x4x128) (by decide)
theorem fps_ms01 : (msM.access (msrR 0 1 inb_S2x2x4x128_S1x1x4x128_0_1_0_0)).setOn Finset.univ ⊆ (msS 0).view.set := fps_sq (by exact squeezes_S1x2x4x128_S2x4x128) (by decide)
theorem fp_ms1 : msM.view.setOn (msR 1).toLoadRect.set ⊆ (msS 1).view.set := fp_sq (by exact squeezes_S1x2x4x128_S2x4x128) (by decide)
theorem fp_ov1 : ovM.view.setOn (ovR 1).toLoadRect.set ⊆ (ovS 1).view.set := fp_sq (by exact squeezes_S1x4x128x128_S4x128x128) (by decide)
theorem fps_ov1 : (ovM.access (ovR 1)).setOn Finset.univ ⊆ (ovS 1).view.set := fps_sq (by exact squeezes_S1x4x128x128_S4x128x128) (by decide)
theorem fp_ms10 : msM.view.setOn (msrR 1 0 inb_S2x2x4x128_S1x1x4x128_1_0_0_0).toLoadRect.set ⊆ (msS 1).view.set := fp_sq (by exact squeezes_S1x2x4x128_S2x4x128) (by decide)
theorem fps_ms10 : (msM.access (msrR 1 0 inb_S2x2x4x128_S1x1x4x128_1_0_0_0)).setOn Finset.univ ⊆ (msS 1).view.set := fps_sq (by exact squeezes_S1x2x4x128_S2x4x128) (by decide)
theorem fp_ms11 : msM.view.setOn (msrR 1 1 inb_S2x2x4x128_S1x1x4x128_1_1_0_0).toLoadRect.set ⊆ (msS 1).view.set := fp_sq (by exact squeezes_S1x2x4x128_S2x4x128) (by decide)
theorem fps_ms11 : (msM.access (msrR 1 1 inb_S2x2x4x128_S1x1x4x128_1_1_0_0)).setOn Finset.univ ⊆ (msS 1).view.set := fps_sq (by exact squeezes_S1x2x4x128_S2x4x128) (by decide)
theorem fp_cm0 : cmM.view.setOn (cmR 0).toLoadRect.set ⊆ (cmS 0).view.set := fp_sq (by exact squeezes_S1x2x4x128_S2x4x128) (by decide)
theorem fp_cm1 : cmM.view.setOn (cmR 1).toLoadRect.set ⊆ (cmS 1).view.set := fp_sq (by exact squeezes_S1x2x4x128_S2x4x128) (by decide)
theorem fp_cm2 : cmM.view.setOn (cmR 2).toLoadRect.set ⊆ (cmS 2).view.set := fp_sq (by exact squeezes_S1x2x4x128_S2x4x128) (by decide)
theorem fp_cm3 : cmM.view.setOn (cmR 3).toLoadRect.set ⊆ (cmS 3).view.set := fp_sq (by exact squeezes_S1x2x4x128_S2x4x128) (by decide)
theorem fp_cm4 : cmM.view.setOn (cmR 4).toLoadRect.set ⊆ (cmS 4).view.set := fp_sq (by exact squeezes_S1x2x4x128_S2x4x128) (by decide)
theorem fp_cm5 : cmM.view.setOn (cmR 5).toLoadRect.set ⊆ (cmS 5).view.set := fp_sq (by exact squeezes_S1x2x4x128_S2x4x128) (by decide)

end Cert.KernelIdeal.KV

end
-- ==== Proof.KernelIdealViewsB.lean ====
import proofs.«900517_g7700000000000518_dist_diff_adaln_cshard_i_b4_s256_c128_v7x_i4_f32_1_alg».proof.Proof.KernelIdealProto
import Idealize.ShloMosaic.Lib.ValueLayout

noncomputable section

namespace Cert.KernelIdeal.KV

open Cert.KernelIdeal Cert.KernelIdeal.Gen Cert.KernelIdeal.KD Cert.KernelIdeal.KP
open Idealize.ShloMosaic Idealize.ShloMosaic.ValueIdx

variable {F : FTy → Type} [FloatOps F]

variable (m : (ℓ : Loc nD τ sig) → Buf (Elt F) ℓ)

section Generic
variable {sg : RefSig} {κ : Kind} {Val : EltTy → Type}

/-- A whole-piece write shows the written vector on the piece, so it lands g once the source reads as g does. -/
theorem land_of_read {spd sps : Space} {s : Shape} {e : EltTy} (vd : View sg κ spd s e) (vs : View sg κ sps s e)
    (fd g : vd.ty.Contents Val) (fs : vs.ty.Contents Val) (h : ∀ x, vs.read Val fs x = vd.read Val g x) :
    ∀ i ∈ vd.set, vd.write Val fd (vs.read Val fs) Finset.univ i = g i := by
  intro i hi
  obtain ⟨x, -, rfl⟩ := Finset.mem_map.mp hi
  rw [View.write_emb_of_mem _ _ (Finset.mem_univ x), h x, View.read_apply, cast_cast, cast_eq]

/-- On its own rectangle a whole write shows the written vector. -/
theorem one_store (b : Ref sg κ) (r : Rect b.ty.shape) (f g : b.ty.Contents Val) (w : r.shape.Idx → Val b.ty.elt)
    (h : ∀ y, g (r.emb y) = w y) (i : b.ty.shape.Idx) (hi : i ∈ r.set) :
    ((View.whole b).slice r).write Val f w Finset.univ i = g i := by
  obtain ⟨y, rfl⟩ := r.exists_idx_of_mem hi
  exact (View.write_emb_of_mem (v := (View.whole b).slice r) f w (Finset.mem_univ y)).trans (h y).symm

/-- A second whole write hides the first only on its own rectangle. -/
theorem two_stores (b : Ref sg κ) (r₁ r₂ : Rect b.ty.shape) (f g : b.ty.Contents Val)
    (w₁ : r₁.shape.Idx → Val b.ty.elt) (w₂ : r₂.shape.Idx → Val b.ty.elt)
    (h₁ : ∀ y, r₁.emb y ∉ r₂.set → g (r₁.emb y) = w₁ y) (h₂ : ∀ y, g (r₂.emb y) = w₂ y) (i : b.ty.shape.Idx)
    (hi : i ∈ r₁.set ∨ i ∈ r₂.set) :
    ((View.whole b).slice r₂).write Val (((View.whole b).slice r₁).write Val f w₁ Finset.univ) w₂ Finset.univ i = g i := by
  by_cases h2 : i ∈ r₂.set
  · exact one_store b r₂ _ g w₂ h₂ i h2
  · have h1 : i ∈ r₁.set := hi.resolve_right h2
    obtain ⟨y, rfl⟩ := r₁.exists_idx_of_mem h1
    rw [View.write_of_not_mem (v := (View.whole b).slice r₂) _ w₂ Finset.univ
      (by rw [View.setOn_univ, View.set_slice_whole]; exact h2)]
    exact (View.write_emb_of_mem (v := (View.whole b).slice r₁) f w₁ (Finset.mem_univ y)).trans (h₁ y h2).symm

end Generic

/-- The piece's embedding adds its offset: only the first coordinate moves, to o. -/
theorem emb_lead4 {n0 n1 n2 n3 : ℕ} (o : ℕ) (ho : o < n0)
    (inb : ∀ a, (![o, 0, 0, 0] : Fin 4 → ℕ) a + (![1, n1, n2, n3] : Fin 4 → ℕ) a ≤ (⟨4, ![n0, n1, n2, n3]⟩ : Shape).size a)
    (u : Fin 1) (r : Fin n1) (b : Fin n2) (s : Fin n3) :
    (Rect.unit (s := ⟨4, ![n0, n1, n2, n3]⟩) ![o, 0, 0, 0] ![1, n1, n2, n3] inb).emb (ix4 u r b s) = ix4 ⟨o, ho⟩ r b s := by
  funext a; apply Fin.ext
  have hu : u.val = 0 := by omega
  match a with
  | ⟨0, _⟩ => show o + 1 * u.val = o; omega
  | ⟨1, _⟩ => show 0 + 1 * r.val = r.val; omega
  | ⟨2, _⟩ => show 0 + 1 * b.val = b.val; omega
  | ⟨3, _⟩ => show 0 + 1 * s.val = s.val; omega

/-- Likewise with the second coordinate pinned at p as well. -/
theorem emb_lead4' {n0 n1 n2 n3 : ℕ} (o p : ℕ) (ho : o < n0) (hp : p < n1)
    (inb : ∀ a, (![o, p, 0, 0] : Fin 4 → ℕ) a + (![1, 1, n2, n3] : Fin 4 → ℕ) a ≤ (⟨4, ![n0, n1, n2, n3]⟩ : Shape).size a)
    (u w : Fin 1) (b : Fin n2) (s : Fin n3) :
    (Rect.unit (s := ⟨4, ![n0, n1, n2, n3]⟩) ![o, p, 0, 0] ![1, 1, n2, n3] inb).emb (ix4 u w b s) = ix4 ⟨o, ho⟩ ⟨p, hp⟩ b s := by
  funext a; apply Fin.ext
  have hu : u.val = 0 := by omega
  have hw : w.val = 0 := by omega
  match a with
  | ⟨0, _⟩ => show o + 1 * u.val = o; omega
  | ⟨1, _⟩ => show p + 1 * w.val = p; omega
  | ⟨2, _⟩ => show 0 + 1 * b.val = b.val; omega
  | ⟨3, _⟩ => show 0 + 1 * s.val = s.val; omega

/-- Here only the row moves, by o. -/
theorem emb_mid3 {n0 n1 n2 k : ℕ} (o : ℕ) (hk : o + k ≤ n1)
    (inb : ∀ a, (![0, o, 0] : Fin 3 → ℕ) a + (![n0, k, n2] : Fin 3 → ℕ) a ≤ (⟨3, ![n0, n1, n2]⟩ : Shape).size a)
    (b : Fin n0) (s : Fin k) (j : Fin n2) :
    (Rect.unit (s := ⟨3, ![n0, n1, n2]⟩) ![0, o, 0] ![n0, k, n2] inb).emb (ix3 b s j)
      = ix3 b ⟨o + s.val, by have := s.isLt; omega⟩ j := by
  funext a; apply Fin.ext
  match a with
  | ⟨0, _⟩ => show 0 + 1 * b.val = b.val; omega
  | ⟨1, _⟩ => show o + 1 * s.val = o + s.val; omega
  | ⟨2, _⟩ => show 0 + 1 * j.val = j.val; omega

theorem land_x0 (c : Dev nD) (fd : Vec F S4x256x128 .f32) (fs : Vec F S4x256x128 .f32) :
    ∀ i ∈ (xvS 0).view.set, ((xvS 0).view.write (Elt F) fd ((xS 0).view.read (Elt F) fs) Finset.univ : Vec F S4x256x128 .f32) i = fs i :=
  land_of_read (xvS 0).view (xS 0).view fd fs fs (fun _ => rfl)
theorem land_x1 (c : Dev nD) (fd : Vec F S4x256x128 .f32) (fs : Vec F S4x256x128 .f32) :
    ∀ i ∈ (xvS 1).view.set, ((xvS 1).view.write (Elt F) fd ((xS 1).view.read (Elt F) fs) Finset.univ : Vec F S4x256x128 .f32) i = fs i :=
  land_of_read (xvS 1).view (xS 1).view fd fs fs (fun _ => rfl)

/-- Both sides are the result of half h at the same coordinates: row 128 h + s of the array is row s of the half. -/
theorem o_lands (c : Dev nD) (h : ℕ) (hh : h < 2)
    {inbs : ∀ a, (![h, 0, 0, 0] : Fin 4 → ℕ) a + S1x4x128x128.size a ≤ S2x4x128x128.size a}
    {inbd : ∀ a, (![0, 128 * h, 0] : Fin 3 → ℕ) a + S4x128x128.size a ≤ S4x256x128.size a} (x : S4x128x128.Idx) :
    ovFull m c ((Rect.unit (s := S2x4x128x128) ![h, 0, 0, 0] S1x4x128x128.size inbs).emb (Shape.reshapeEquiv squeezes_S1x4x128x128_S4x128x128.numel_eq x))
      = outAt m c ((Rect.unit (s := S4x256x128) ![0, 128 * h, 0] S4x128x128.size inbd).emb x) := by
  obtain ⟨b, s, j, rfl⟩ : ∃ (b : Fin 4) (s j : Fin 128), x = ix3 b s j := ⟨x 0, x 1, x 2, eq_ix3 x⟩
  rw [reshapeEquiv_ix3_1abc, emb_lead4 (n0 := 2) h hh, emb_mid3 (n1 := 256) (128 * h) (by omega)]
  unfold ovFull outAt
  show (if h = 0 then _ else _) = (if hlt : 128 * h + s.val < 128 then _ else _)
  have hs := s.isLt
  by_cases h0 : h = 0
  · subst h0
    rw [if_pos rfl, dif_pos (by omega)]
    exact congrArg (outh0 m c) (funext fun a => Fin.ext (by
      match a with
      | ⟨0, _⟩ => rfl
      | ⟨1, _⟩ => rfl
      | ⟨2, _⟩ => show s.val = 128 * 0 + s.val; omega
      | ⟨3, _⟩ => rfl))
  · obtain rfl : h = 1 := by omega
    rw [if_neg h0, dif_neg (by omega)]
    exact congrArg (outh1 m c) (funext fun a => Fin.ext (by
      match a with
      | ⟨0, _⟩ => rfl
      | ⟨1, _⟩ => rfl
      | ⟨2, _⟩ => show s.val = 128 * 1 + s.val - 128; omega
      | ⟨3, _⟩ => rfl))

theorem land_o0 (c : Dev nD) (fd : Vec F S4x256x128 .f32) :
    ∀ i ∈ (oS 0).view.set, ((oS 0).view.write (Elt F) fd ((ovS 0).view.read (Elt F) (ovFull m c)) Finset.univ : Vec F S4x256x128 .f32) i = outAt m c i :=
  land_of_read (oS 0).view (ovS 0).view fd _ _ (o_lands m c 0 (by decide))
theorem land_o1 (c : Dev nD) (fd : Vec F S4x256x128 .f32) :
    ∀ i ∈ (oS 1).view.set, ((oS 1).view.write (Elt F) fd ((ovS 1).view.read (Elt F) (ovFull m c)) Finset.univ : Vec F S4x256x128 .f32) i = outAt m c i :=
  land_of_read (oS 1).view (ovS 1).view fd _ _ (o_lands m c 1 (by decide))

/-- Both sides are device c's statistic of half k mod 2, since d places on and d places back is c again. -/
theorem cm_lands (c : Dev nD) (k : ℕ) (hk : k < 6) (d : Fin 4) (hd : k / 2 + 1 = d.val)
    {inbs : ∀ a, (![k % 2, 0, 0, 0] : Fin 4 → ℕ) a + S1x2x4x128.size a ≤ S2x2x4x128.size a}
    {inbd : ∀ a, (![k, 0, 0, 0] : Fin 4 → ℕ) a + S1x2x4x128.size a ≤ S6x2x4x128.size a} (x : S2x4x128.Idx) :
    msFull m c ((Rect.unit (s := S2x2x4x128) ![k % 2, 0, 0, 0] S1x2x4x128.size inbs).emb (Shape.reshapeEquiv squeezes_S1x2x4x128_S2x4x128.numel_eq x))
      = cmFull m (fwd d.val c) ((Rect.unit (s := S6x2x4x128) ![k, 0, 0, 0] S1x2x4x128.size inbd).emb (Shape.reshapeEquiv squeezes_S1x2x4x128_S2x4x128.numel_eq x)) := by
  obtain ⟨r, b, s, rfl⟩ : ∃ (r : Fin 2) (b : Fin 4) (s : Fin 128), x = ix3 r b s := ⟨x 0, x 1, x 2, eq_ix3 x⟩
  rw [reshapeEquiv_ix3_1abc, emb_lead4 (n0 := 2) (k % 2) (Nat.mod_lt _ (by decide)), emb_lead4 (n0 := 6) k hk]
  show stat m _ c _ = stat m _ (bwd (k / 2 + 1) (fwd d.val c)) _
  rw [hd, bwd_fwd]

theorem land_cm0 (c : Dev nD) (fd : Vec F S6x2x4x128 .f32) :
    ∀ i ∈ (cmS 0).view.set, ((cmS 0).view.write (Elt F) fd ((msS 0).view.read (Elt F) (msFull m c)) Finset.univ : Vec F S6x2x4x128 .f32) i
      = cmFull m (fwd 1 c) i :=
  land_of_read (cmS 0).view (msS 0).view fd _ _ (cm_lands m c 0 (by decide) 1 rfl)
theorem land_cm1 (c : Dev nD) (fd : Vec F S6x2x4x128 .f32) :
    ∀ i ∈ (cmS 1).view.set, ((cmS 1).view.write (Elt F) fd ((msS 1).view.read (Elt F) (msFull m c)) Finset.univ : Vec F S6x2x4x128 .f32) i
      = cmFull m (fwd 1 c) i :=
  land_of_read (cmS 1).view (msS 1).view fd _ _ (cm_lands m c 1 (by decide) 1 rfl)
theorem land_cm2 (c : Dev nD) (fd : Vec F S6x2x4x128 .f32) :
    ∀ i ∈ (cmS 2).view.set, ((cmS 2).view.write (Elt F) fd ((msS 0).view.read (Elt F) (msFull m c)) Finset.univ : Vec F S6x2x4x128 .f32) i
      = cmFull m (fwd 2 c) i :=
  land_of_read (cmS 2).view (msS 0).view fd _ _ (cm_lands m c 2 (by decide) 2 rfl)
theorem land_cm3 (c : Dev nD) (fd : Vec F S6x2x4x128 .f32) :
    ∀ i ∈ (cmS 3).view.set, ((cmS 3).view.write (Elt F) fd ((msS 1).view.read (Elt F) (msFull m c)) Finset.univ : Vec F S6x2x4x128 .f32) i
      = cmFull m (fwd 2 c) i :=
  land_of_read (cmS 3).view (msS 1).view fd _ _ (cm_lands m c 3 (by decide) 2 rfl)
theorem land_cm4 (c : Dev nD) (fd : Vec F S6x2x4x128 .f32) :
    ∀ i ∈ (cmS 4).view.set, ((cmS 4).view.write (Elt F) fd ((msS 0).view.read (Elt F) (msFull m c)) Finset.univ : Vec F S6x2x4x128 .f32) i
      = cmFull m (fwd 3 c) i :=
  land_of_read (cmS 4).view (msS 0).view fd _ _ (cm_lands m c 4 (by decide) 3 rfl)
theorem land_cm5 (c : Dev nD) (fd : Vec F S6x2x4x128 .f32) :
    ∀ i ∈ (cmS 5).view.set, ((cmS 5).view.write (Elt F) fd ((msS 1).view.read (Elt F) (msFull m c)) Finset.univ : Vec F S6x2x4x128 .f32) i
      = cmFull m (fwd 3 c) i :=
  land_of_read (cmS 5).view (msS 1).view fd _ _ (cm_lands m c 5 (by decide) 3 rfl)

/-- On the half's elements the first coordinate is h, so the contents there are whichever half was stored. -/
theorem ov_stored (h : ℕ) (hh : h < 2) (c : Dev nD) (f : Vec F S2x4x128x128 .f32) (w : S1x4x128x128.Idx → Elt F .f32)
    {inb : ∀ a, (![h, 0, 0, 0] : Fin 4 → ℕ) a + S1x4x128x128.size a ≤ S2x4x128x128.size a}
    (hw : ∀ i : S2x4x128x128.Idx, (i 0).val = h → ovFull m c i = w (ix4 (n0 := 1) (n1 := 4) (n2 := 128) (n3 := 128) ⟨0, by decide⟩ ⟨(i 1).val, (i 1).isLt⟩ ⟨(i 2).val, (i 2).isLt⟩ ⟨(i 3).val, (i 3).isLt⟩)) :
    ∀ i ∈ ((ovM.slice (Rect.unit (s := S2x4x128x128) ![h, 0, 0, 0] S1x4x128x128.size inb) fun _ => rfl).squeeze S4x128x128 squeezes_S1x4x128x128_S4x128x128).view.set,
      ((ovM.access (Rect.unit (s := S2x4x128x128) ![h, 0, 0, 0] S1x4x128x128.size inb)).write (Elt F) f w Finset.univ : Vec F S2x4x128x128 .f32) i = ovFull m c i := by
  intro i hi
  have hm := Eq.mp (congrArg (fun S => i ∈ S) ((View.set_reshape (ovM.access (Rect.unit (s := S2x4x128x128) ![h, 0, 0, 0] S1x4x128x128.size inb)) squeezes_S1x4x128x128_S4x128x128.numel_eq).trans (View.set_slice_whole cc0_scratch1 _))) hi
  refine one_store cc0_scratch1 (Rect.unit (s := S2x4x128x128) ![h, 0, 0, 0] S1x4x128x128.size inb) f (ovFull m c) w (fun y => ?_) i hm
  obtain ⟨u, b, s, j, rfl⟩ : ∃ (u : Fin 1) (b : Fin 4) (s j : Fin 128), y = ix4 u b s j := ⟨y 0, y 1, y 2, y 3, eq_ix4 y⟩
  rw [emb_lead4 (n0 := 2) h hh]
  refine (hw _ rfl).trans (congrArg w (funext fun a => Fin.ext ?_))
  match a with
  | ⟨0, _⟩ => show 0 = u.val; omega
  | ⟨1, _⟩ => rfl
  | ⟨2, _⟩ => rfl
  | ⟨3, _⟩ => rfl

theorem stored_ov0 (c : Dev nD) (f : Vec F S2x4x128x128 .f32) :
    ∀ i ∈ (ovS 0).view.set, ((ovM.access (Rect.unit (s := S2x4x128x128) ![0, 0, 0, 0] S1x4x128x128.size inb_S2x4x128x128_S1x4x128x128_0_0_0_0)).write (Elt F) f (outh0 m c) Finset.univ : Vec F S2x4x128x128 .f32) i = ovFull m c i :=
  ov_stored m 0 (by decide) c f (outh0 m c) (fun _ h0 => if_pos h0)
theorem stored_ov1 (c : Dev nD) (f : Vec F S2x4x128x128 .f32) :
    ∀ i ∈ (ovS 1).view.set, ((ovM.access (Rect.unit (s := S2x4x128x128) ![1, 0, 0, 0] S1x4x128x128.size inb_S2x4x128x128_S1x4x128x128_1_0_0_0)).write (Elt F) f (outh1 m c) Finset.univ : Vec F S2x4x128x128 .f32) i = ovFull m c i :=
  ov_stored m 1 (by decide) c f (outh1 m c) (fun _ h0 => if_neg (by omega))

/-- The half's elements are those of its two rows; on each the contents are the row's stored statistic. -/
theorem ms_stored (h : ℕ) (hh : h < 2) (c : Dev nD) (f : Vec F S2x2x4x128 .f32) (w₀ w₁ : S1x1x4x128.Idx → Elt F .f32)
    {inb : ∀ a, (![h, 0, 0, 0] : Fin 4 → ℕ) a + S1x2x4x128.size a ≤ S2x2x4x128.size a}
    {inb₀ : ∀ a, (![h, 0, 0, 0] : Fin 4 → ℕ) a + S1x1x4x128.size a ≤ S2x2x4x128.size a}
    {inb₁ : ∀ a, (![h, 1, 0, 0] : Fin 4 → ℕ) a + S1x1x4x128.size a ≤ S2x2x4x128.size a}
    (h₀ : ∀ i : S1x2x4x128.Idx, (i 1).val = 0 → stat m ⟨h, hh⟩ c i = w₀ (ix4 (n0 := 1) (n1 := 1) (n2 := 4) (n3 := 128) ⟨0, by decide⟩ ⟨0, by decide⟩ ⟨(i 2).val, (i 2).isLt⟩ ⟨(i 3).val, (i 3).isLt⟩))
    (h₁ : ∀ i : S1x2x4x128.Idx, ¬(i 1).val = 0 → stat m ⟨h, hh⟩ c i = w₁ (ix4 (n0 := 1) (n1 := 1) (n2 := 4) (n3 := 128) ⟨0, by decide⟩ ⟨0, by decide⟩ ⟨(i 2).val, (i 2).isLt⟩ ⟨(i 3).val, (i 3).isLt⟩)) :
    ∀ i ∈ ((msM.slice (Rect.unit (s := S2x2x4x128) ![h, 0, 0, 0] S1x2x4x128.size inb) fun _ => rfl).squeeze S2x4x128 squeezes_S1x2x4x128_S2x4x128).view.set,
      ((msM.access (Rect.unit (s := S2x2x4x128) ![h, 1, 0, 0] S1x1x4x128.size inb₁)).write (Elt F) ((msM.access (Rect.unit (s := S2x2x4x128) ![h, 0, 0, 0] S1x1x4x128.size inb₀)).write (Elt F) f w₀ Finset.univ) w₁ Finset.univ : Vec F S2x2x4x128 .f32) i
        = msFull m c i := by
  intro i hi
  have hm := Rect.mem_set_unit.mp (Eq.mp (congrArg (fun S => i ∈ S) ((View.set_reshape (msM.access (Rect.unit (s := S2x2x4x128) ![h, 0, 0, 0] S1x2x4x128.size inb)) squeezes_S1x2x4x128_S2x4x128.numel_eq).trans (View.set_slice_whole cc0_scratch2 _))) hi)
  have h0 : h ≤ (i 0).val ∧ (i 0).val < h + 1 := hm 0
  have h1 : (i 1).val < 0 + 2 := (hm 1).2
  refine two_stores cc0_scratch2 (Rect.unit (s := S2x2x4x128) ![h, 0, 0, 0] S1x1x4x128.size inb₀) (Rect.unit (s := S2x2x4x128) ![h, 1, 0, 0] S1x1x4x128.size inb₁) f (msFull m c) w₀ w₁ (fun y _ => ?_) (fun y => ?_) i ?_
  · obtain ⟨u, w, b, s, rfl⟩ : ∃ (u w : Fin 1) (b : Fin 4) (s : Fin 128), y = ix4 u w b s := ⟨y 0, y 1, y 2, y 3, eq_ix4 y⟩
    rw [emb_lead4' (n0 := 2) (n1 := 2) h 0 hh (by decide)]
    refine (h₀ _ rfl).trans (congrArg w₀ (funext fun a => Fin.ext ?_))
    match a with
    | ⟨0, _⟩ => show 0 = u.val; omega
    | ⟨1, _⟩ => show 0 = w.val; omega
    | ⟨2, _⟩ => rfl
    | ⟨3, _⟩ => rfl
  · obtain ⟨u, w, b, s, rfl⟩ : ∃ (u w : Fin 1) (b : Fin 4) (s : Fin 128), y = ix4 u w b s := ⟨y 0, y 1, y 2, y 3, eq_ix4 y⟩
    rw [emb_lead4' (n0 := 2) (n1 := 2) h 1 hh (by decide)]
    refine (h₁ _ (by show ¬((1 : ℕ) = 0); omega)).trans (congrArg w₁ (funext fun a => Fin.ext ?_))
    match a with
    | ⟨0, _⟩ => show 0 = u.val; omega
    | ⟨1, _⟩ => show 0 = w.val; omega
    | ⟨2, _⟩ => rfl
    | ⟨3, _⟩ => rfl
  · by_cases hr : (i 1).val = 0
    · refine Or.inl (Rect.mem_set_unit.mpr fun a => ?_)
      match a with
      | ⟨0, _⟩ => exact h0
      | ⟨1, _⟩ => show 0 ≤ (i 1).val ∧ (i 1).val < 0 + 1; omega
      | ⟨2, _⟩ => exact hm 2
      | ⟨3, _⟩ => exact hm 3
    · refine Or.inr (Rect.mem_set_unit.mpr fun a => ?_)
      match a with
      | ⟨0, _⟩ => exact h0
      | ⟨1, _⟩ => show 1 ≤ (i 1).val ∧ (i 1).val < 1 + 1; omega
      | ⟨2, _⟩ => exact hm 2
      | ⟨3, _⟩ => exact hm 3

theorem stored_ms0 (c : Dev nD) (f : Vec F S2x2x4x128 .f32) :
    ∀ i ∈ (msS 0).view.set,
      ((msM.access (Rect.unit (s := S2x2x4x128) ![0, 1, 0, 0] S1x1x4x128.size inb_S2x2x4x128_S1x1x4x128_0_1_0_0)).write (Elt F) ((msM.access (Rect.unit (s := S2x2x4x128) ![0, 0, 0, 0] S1x1x4x128.size inb_S2x2x4x128_S1x1x4x128_0_0_0_0)).write (Elt F) f (k0_pay1 (xh m 0 c)) Finset.univ) (k0_pay2 (xh m 0 c)) Finset.univ : Vec F S2x2x4x128 .f32) i
        = msFull m c i :=
  ms_stored m 0 (by decide) c f (k0_pay1 (xh m 0 c)) (k0_pay2 (xh m 0 c)) (fun _ hr => if_pos hr) (fun _ hr => if_neg hr)
theorem stored_ms1 (c : Dev nD) (f : Vec F S2x2x4x128 .f32) :
    ∀ i ∈ (msS 1).view.set,
      ((msM.access (Rect.unit (s := S2x2x4x128) ![1, 1, 0, 0] S1x1x4x128.size inb_S2x2x4x128_S1x1x4x128_1_1_0_0)).write (Elt F) ((msM.access (Rect.unit (s := S2x2x4x128) ![1, 0, 0, 0] S1x1x4x128.size inb_S2x2x4x128_S1x1x4x128_1_0_0_0)).write (Elt F) f (k0_pay3 (xh m 1 c)) Finset.univ) (k0_pay5 (k0_pay4 (xh m 1 c))) Finset.univ : Vec F S2x2x4x128 .f32) i
        = msFull m c i :=
  ms_stored m 1 (by decide) c f (k0_pay3 (xh m 1 c)) (k0_pay5 (k0_pay4 (xh m 1 c))) (fun _ hr => if_pos hr) (fun _ hr => if_neg hr)

end Cert.KernelIdeal.KV

end
-- ==== Proof.KernelIdealViewsC.lean ====
import proofs.«900517_g7700000000000518_dist_diff_adaln_cshard_i_b4_s256_c128_v7x_i4_f32_1_alg».proof.Proof.KernelIdealProto

noncomputable section

namespace Cert.KernelIdeal.KV

open Cert.KernelIdeal Cert.KernelIdeal.Gen Cert.KernelIdeal.KD Cert.KernelIdeal.KP
open Idealize.ShloMosaic

variable {F : FTy → Type} [FloatOps F]

variable (m : (ℓ : Loc nD τ sig) → Buf (Elt F) ℓ)

/-- The statistic depends only on the values of its three arguments. -/
theorem stat_congr {h h' : Fin 2} {c c' : Dev nD} {i i' : S1x2x4x128.Idx} (eh : h = h') (ec : c = c') (ei : i = i') :
    stat m h c i = stat m h' c' i' := by subst eh ec ei; rfl

/-- Reading 128 rows from row 128 h gives the row half h: both look up (b, 128 h + s, l). -/
theorem read_xv (h : Fin 2) (r : ℕ) (hr : r = 128 * h.val)
    {inb : ∀ a, (![0, r, 0] : Fin 3 → ℕ) a + S4x128x128.size a ≤ S4x256x128.size a} (f : Vec F S4x256x128 .f32) :
    xvM.view.readAt (Elt F) (Rect.unit (s := S4x256x128) ![0, r, 0] S4x128x128.size inb).toLoadRect f = halfOf h f := by
  subst hr
  funext (x : S4x128x128.Idx)
  show f _ = f _
  refine congrArg f (funext fun a => Fin.ext ?_)
  match a with
  | ⟨0, _⟩ => show 0 + 1 * (x 0).val = (x 0).val; omega
  | ⟨1, _⟩ => show 128 * h.val + 1 * (x 1).val = 128 * h.val + (x 1).val; omega
  | ⟨2, _⟩ => show 0 + 1 * (x 2).val = (x 2).val; omega

/-- Half h of the statistics buffer is filled from the device's statistic of half h, entry by entry. -/
theorem read_ms (h : Fin 2) (k : ℕ) (hk : k = h.val)
    {inb : ∀ a, (![k, 0, 0, 0] : Fin 4 → ℕ) a + S1x2x4x128.size a ≤ S2x2x4x128.size a} (c : Dev nD) :
    msM.view.readAt (Elt F) (Rect.unit (s := S2x2x4x128) ![k, 0, 0, 0] S1x2x4x128.size inb).toLoadRect (msFull m c) = stat m h c := by
  subst hk
  funext (x : S1x2x4x128.Idx)
  have h0 : (x 0).val < 1 := (x 0).isLt
  show msFull m c _ = _
  unfold msFull
  refine stat_congr m (Fin.ext ?_) rfl (funext fun a => Fin.ext ?_)
  · show h.val + 1 * (x 0).val = h.val; omega
  · match a with
    | ⟨0, _⟩ => show 0 = (x 0).val; omega
    | ⟨1, _⟩ => show 0 + 1 * (x 1).val = (x 1).val; omega
    | ⟨2, _⟩ => show 0 + 1 * (x 2).val = (x 2).val; omega
    | ⟨3, _⟩ => show 0 + 1 * (x 3).val = (x 3).val; omega

/-- Slot k is filled from half k mod 2 of the device k / 2 + 1 places back, entry by entry. -/
theorem read_cm (k : ℕ) (h : Fin 2) (d : ℕ) (hh : k % 2 = h.val) (hd : k / 2 + 1 = d)
    {inb : ∀ a, (![k, 0, 0, 0] : Fin 4 → ℕ) a + S1x2x4x128.size a ≤ S6x2x4x128.size a} (c : Dev nD) :
    cmM.view.readAt (Elt F) (Rect.unit (s := S6x2x4x128) ![k, 0, 0, 0] S1x2x4x128.size inb).toLoadRect (cmFull m c) = stat m h (bwd d c) := by
  subst hd
  funext (x : S1x2x4x128.Idx)
  have h0 : (x 0).val < 1 := (x 0).isLt
  have e : k + 1 * (x 0).val = k := by omega
  show cmFull m c _ = _
  unfold cmFull
  refine stat_congr m (Fin.ext ?_) (congrArg (fun d => bwd d c) ?_) (funext fun a => Fin.ext ?_)
  · show (k + 1 * (x 0).val) % 2 = h.val
    rw [e, hh]
  · show (k + 1 * (x 0).val) / 2 + 1 = k / 2 + 1
    rw [e]
  · match a with
    | ⟨0, _⟩ => show 0 = (x 0).val; omega
    | ⟨1, _⟩ => show 0 + 1 * (x 1).val = (x 1).val; omega
    | ⟨2, _⟩ => show 0 + 1 * (x 2).val = (x 2).val; omega
    | ⟨3, _⟩ => show 0 + 1 * (x 3).val = (x 3).val; omega

/-- A block that spans its whole array reads as the array. -/
theorem tB_eq (c : Dev nD) : tB m c = tA m c :=
  Memref.read_access_unit_zero (Elt F) main_arg1 (funext fun a => Nat.zero_mul _) _ _
theorem wscB_eq (c : Dev nD) : wscB m c = wscA m c :=
  Memref.read_access_unit_zero (Elt F) main_arg2 (funext fun a => Nat.zero_mul _) _ _
theorem wshB_eq (c : Dev nD) : wshB m c = wshA m c :=
  Memref.read_access_unit_zero (Elt F) main_arg3 (funext fun a => Nat.zero_mul _) _ _

end Cert.KernelIdeal.KV

end
-- ==== Proof.KernelIdealBodyDefs.lean ====
import proofs.«900517_g7700000000000518_dist_diff_adaln_cshard_i_b4_s256_c128_v7x_i4_f32_1_alg».proof.Proof.KernelIdealProto
import proofs.«900517_g7700000000000518_dist_diff_adaln_cshard_i_b4_s256_c128_v7x_i4_f32_1_alg».proof.Proof.KernelIdealViewsA
import proofs.«900517_g7700000000000518_dist_diff_adaln_cshard_i_b4_s256_c128_v7x_i4_f32_1_alg».proof.Proof.KernelIdealViewsB
import proofs.«900517_g7700000000000518_dist_diff_adaln_cshard_i_b4_s256_c128_v7x_i4_f32_1_alg».proof.Proof.KernelIdealViewsC

noncomputable section

namespace Cert.KernelIdeal.KB

open Cert.KernelIdeal Cert.KernelIdeal.Gen Cert.KernelIdeal.KD Cert.KernelIdeal.KP Cert.KernelIdeal.KV

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
theorem bigSep_fin17 (Φ : Fin 17 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

theorem bwd_fwd1 (c : Dev nD) : bwd 1 (fwd 1 c) = c := by revert c; decide
theorem bwd_fwd2 (c : Dev nD) : bwd 2 (fwd 2 c) = c := by revert c; decide
theorem bwd_fwd3 (c : Dev nD) : bwd 3 (fwd 3 c) = c := by revert c; decide

def RecvOnly (O : CellTallies nD τ sig Unit) : Prop := ∀ g u, 0 < O g u → ∃ c' k, g = recvCell c' k

theorem lv_recv (c' : Dev nD) (k : Fin 6) : lv (recvCell c' k) () = 2 := by
  unfold lv; rw [if_neg (by intro h; cases h), if_pos ⟨k, rfl⟩]

-- Level 1 cuts a wait at level at most 1 from debts that sit only on landing cells, at level 2.
theorem mayWait_low (c : Dev nD) (s : SemLoc sig) (hs : lv ((c : Thread nD τ), s) () ≤ 1) (O : CellTallies nD τ sig Unit)
    (hO : RecvOnly O) : (levAts L lv : sProp 𝕄) ⊢ MayWait (c : Thread nD τ) s () O :=
  MayOwe.of_cut (L := L) (lev := lv) 1
    (fun p hp => by rw [Finset.mem_singleton.mp hp, L_tc]; exact Finset.mem_singleton_self _)
    (fun g u hg => by obtain ⟨c', k, rfl⟩ := hO g u hg; rw [L_tc]; exact Finset.mem_singleton_self _)
    (fun p hp => by rw [Finset.mem_singleton.mp hp]; exact hs)
    (fun g u hg => by obtain ⟨c', k, rfl⟩ := hO g u hg; rw [lv_recv]; decide)

theorem lv_bar (c : Dev nD) : lv ((c : Thread nD τ), .reg barS) () ≤ 1 := by unfold lv; rw [if_pos rfl]
theorem lv_own (c : Dev nD) (s : DmaSem sig) (hs : ∀ k : Fin 6, s ≠ recvS k) : lv ((c : Thread nD τ), .dma s) () ≤ 1 := by
  unfold lv; rw [if_neg (by intro h; cases h), if_neg (by rintro ⟨k, hk⟩; exact hs k (by injection hk))]; decide

abbrev T4 (c : Dev nD) : CellTallies nD τ sig Unit := tallyAt (recvCell (fwd 2 c) 2) () N2
abbrev T5 (c : Dev nD) : CellTallies nD τ sig Unit := tallyAt (recvCell (fwd 1 c) 0) () N2
abbrev T6 (c : Dev nD) : CellTallies nD τ sig Unit := tallyAt (recvCell (fwd 3 c) 4) () N2
abbrev T7 (c : Dev nD) : CellTallies nD τ sig Unit := tallyAt (recvCell (fwd 2 c) 3) () N2
abbrev T8 (c : Dev nD) : CellTallies nD τ sig Unit := tallyAt (recvCell (fwd 1 c) 1) () N2
abbrev T9 (c : Dev nD) : CellTallies nD τ sig Unit := tallyAt (recvCell (fwd 3 c) 5) () N2
abbrev O1 (c : Dev nD) : CellTallies nD τ sig Unit := T9 c
abbrev O2 (c : Dev nD) : CellTallies nD τ sig Unit := T9 c + T8 c
abbrev O3 (c : Dev nD) : CellTallies nD τ sig Unit := T9 c + T8 c + T7 c
abbrev O4 (c : Dev nD) : CellTallies nD τ sig Unit := T9 c + T8 c + T7 c + T6 c
abbrev O5 (c : Dev nD) : CellTallies nD τ sig Unit := T9 c + T8 c + T7 c + T6 c + T5 c
abbrev O6 (c : Dev nD) : CellTallies nD τ sig Unit := T9 c + T8 c + T7 c + T6 c + T5 c + T4 c

-- A sum is positive where a summand is, and every summand sits on one landing cell.
theorem ro3 (c : Dev nD) : RecvOnly (O3 c) := fun g u h => by
  repeat' (rcases Pipeline.add_pos_cases h with h | h)
  all_goals exact ⟨_, _, (Pipeline.tallyAt_pos h).1⟩
theorem ro6 (c : Dev nD) : RecvOnly (O6 c) := fun g u h => by
  repeat' (rcases Pipeline.add_pos_cases h with h | h)
  all_goals exact ⟨_, _, (Pipeline.tallyAt_pos h).1⟩

-- A semaphore found at number 0 is the barrier semaphore, however it is spelt.
theorem rest_bar_of (c : Dev nD) (s : SemLoc sig) (hs : semIdx s = some 0) :
    bigSep ((Rd (F := F) m).duties ((c : Thread nD τ), s) 0 \ ∅) (fun d => (Rd (F := F) m).payload ((c : Thread nD τ), s) 0 d)
      = iprop(barPay c 0 ∗ barPay c 1 ∗ barPay (F := F) c 2) := by
  have h := List.find?_some hs
  obtain rfl : csem 0 = s := of_decide_eq_true h
  exact rest_bar m c

theorem bwd1_eq (c : Dev nD) : bwd 1 c = fwd 3 c := by revert c; decide
theorem bwd2_eq (c : Dev nD) : bwd 2 c = fwd 2 c := by revert c; decide
theorem bwd3_eq (c : Dev nD) : bwd 3 c = fwd 1 c := by revert c; decide

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 17 → ℕ) (c : Dev nD) : sProp 𝕄 :=
  iprop((ghost m K c ∗ creds c ∗ levAts L lv
      ∗ (someW c cc0_scratch0 ∗ someW c cc0_scratch1 ∗ someW c cc0_scratch2 ∗ someW c cc0_scratch3)
      ∗ (((c : Thread nD τ).loc main_arg0) ↦{fullShare} m ((c : Thread nD τ).loc main_arg0))
      ∗ (((c : Thread nD τ).loc main_v1) ↦{fullShare} m ((c : Thread nD τ).loc main_v1)))
    ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ m c ∗ (dats m 0 c).owesAt () t0_0.succ
    ∗ stg c cc0_stg0_0 (tB m c) ∗ stg c cc0_stg1_0 (wscB m c) ∗ stg c cc0_stg2_0 (wshB m c))

end Cert.KernelIdeal.KB

end
-- ==== Proof.KernelIdealSound.lean ====
import proofs.«900517_g7700000000000518_dist_diff_adaln_cshard_i_b4_s256_c128_v7x_i4_f32_1_alg».proof.Proof.KernelIdealBodyDefs

noncomputable section

namespace Cert.KernelIdeal.KB

open Cert.KernelIdeal Cert.KernelIdeal.Gen Cert.KernelIdeal.KD Cert.KernelIdeal.KP Cert.KernelIdeal.KV

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem mayWait0 (c : Dev nD) (s : SemLoc sig) : (levAts L lv : sProp 𝕄) ⊢ MayWait (c : Thread nD τ) s () 0 := by
  rw [MayWait_zero]; iintro -; iempintro

theorem wait_own (K : Dev nD × Fin 17 → ℕ) (c : Dev nD) (i : Fin 17)
    {w : TpuEff nD τ sig (Elt F) Λ₀ .tc PUnit} {n : ℕ}
    (O : CellTallies nD τ sig Unit) (hM : (levAts L lv : sProp 𝕄) ⊢ MayWait (c : Thread nD τ) (csem i) () O)
    (P : sProp 𝕄) (hP : pay m c i 0 = P) {W : Waits sig Unit}
    {α : Type} {Q : α → sProp 𝕄} {k : PUnit → Prog (TpuEff nD τ sig (Elt F) Λ₀ .tc) α} (hi : i.val ≠ 0 := by decide)
    (hw : ∀ Kk : PUnit → sProp 𝕄, wpE (defs₀ (F := F)) 𝒱₀ (c : Thread nD τ) none Set.univ w Kk = waitSpec (c : Thread nD τ) Set.univ (csem i) n Kk := by exact fun _ => rfl)
    (hn : n = amt i := by rfl) :
    records m K ⊢ iprop(levAts L lv -∗ cred (tallyAt (kcell (c, i)) () n) -∗ owes (c : Thread nD τ) O W -∗ atPos ER (kcell (c, i)) 0 ∅ 0
      -∗ (owes (c : Thread nD τ) O (insert (csem i, ()) W) -∗ atPos ER (kcell (c, i)) (0 + 1) ∅ 0 -∗ P
          -∗ wp frame (wpE (defs₀ (F := F)) 𝒱₀ (c : Thread nD τ) none) Set.univ (k ⟨⟩) Q)
      -∗ wp frame (wpE (defs₀ (F := F)) 𝒱₀ (c : Thread nD τ) none) Set.univ (.op w k) Q) := by
  subst hP hn
  iintro #Hrec #Hlev Hc HO Hat Hk
  iapply (Rounds.wp_wait_rest_token 𝒱₀ ER (Rd m) (c : Thread nD τ) none (κ := K (c, i)) hw (Set.mem_univ _) () (O := O) (R := 0) (m := 0) (T := ∅)
      (by rw [Nat.zero_add, expect_own m c i hi])) $$ [Hc HO Hat]
  · isplitr; · (iapply (inv_at m K (c, i)); iexact Hrec)
    iframe
    iapply hM; iexact Hlev
  iintro ⟨HO, Hat, -, Hpay⟩
  ihave Hp := (Entails.of_eq (rest_own m c i hi)) $$ Hpay
  iapply Hk $$ HO Hat Hp

theorem close_own (K : Dev nD × Fin 17 → ℕ) (c : Dev nD) (i : Fin 17) (s : SemLoc sig) (hs : csem i = s := by rfl) :
    records m K ⊢ iprop(atPos ER (kcell (c, i)) (0 + 1) ∅ 0 -∗ |={Set.univ}=> semVal ((c : Thread nD τ), s) 0) := by
  subst hs
  iintro #Hrec Hat
  iapply (Rounds.cell_close ER (Rd m) (Set.mem_univ (K (c, i))) (fun h => h) (R := 0 + 1) (duties_later m _))
  isplitr; · (iapply (inv_at m K (c, i)); iexact Hrec)
  iexact Hat

theorem copy_own (K : Dev nD × Fin 17 → ℕ) (c : Dev nD) (i : Fin 17) {sp sp' : Space} {s : Shape} {e : EltTy}
    {src : Memref sig (c : Thread nD τ).2.kind sp s e} {dst : Memref sig (c : Thread nD τ).2.kind sp' s e}
    {hsrc : src.view.WordExact} {hdst : dst.view.WordExact} {hsem : DmaTarget.Typed (nD := nD) sp (csem i) (.here dst)}
    {α : Type} {Q : α → sProp 𝕄} {k : PUnit → Prog (TpuEff nD τ sig (Elt F) Λ₀ .tc) α}
    (fs : Buf (Elt F) (src.view.loc (c : Thread nD τ))) (fd : Buf (Elt F) (dst.view.loc (c : Thread nD τ)))
    (hpay : iprop((dst.view.loc (c : Thread nD τ) ↦[dst.view.set]{fullShare} (dst.view.write (Elt F) fd (src.view.read (Elt F) fs) Finset.univ))
              ∗ (src.view.loc (c : Thread nD τ) ↦[src.view.set]{fullShare} fs)) ⊢ pay m c i 0)
    (hi : i.val ≠ 0 := by decide) (hN : dst.view.amount (csem i) = amt i := by rfl) :
    records m K ⊢ iprop((src.view.loc (c : Thread nD τ) ↦[src.view.set]{fullShare} fs) -∗ (dst.view.loc (c : Thread nD τ) ↦[dst.view.set]{fullShare} fd)
      -∗ dutyTok ER (kcell (c, i)) 0 (0 : DT)
      -∗ (cred (tallyAt (kcell (c, i)) () (amt i)) -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma src (.here dst) (csem i) hsrc hdst hsem) k) Q) := by
  iintro #Hrec Hs Hd Ht Hk
  iapply (Rounds.wp_copy_pointsTo 𝒱₀ ER (Rd m) (c : Thread nD τ) none (r := 0) (d := (0 : DT)) (κ := K (c, i))
      (by rw [duties_own m c i hi]; exact Finset.mem_singleton_self _) () (amt i) hN (amount_at m c i 0)
      (by rw [payload_at m c i 0]; exact hpay)) $$ [Hs Hd Ht]
  · isplitr; · (iapply (inv_at m K (c, i)); iexact Hrec)
    iframe
    (iapply (reached_at m K (c, i)); iexact Hrec)
  iexact Hk

theorem send_peer (K : Dev nD × Fin 17 → ℕ) (c : Dev nD) {n : Dev nD} (c' : Dev nD) (hn : n = c') (iS iR : Fin 17)
    {src dst : Memref sig .tc .vmem S2x4x128 .f32}
    {hsc : (dst : Memref sig (Dev.tc n : Thread nD τ).2.kind .vmem S2x4x128 .f32).view.ref.isScScratch = false}
    {hsrc : src.view.WordExact} {hdst : dst.view.WordExact}
    {hsem : DmaTarget.Typed .vmem (csem iR) (.remote (Dev.tc n : Thread nD τ) dst (csem iS) hsc)}
    {α : Type} {Q : α → sProp 𝕄} {k : PUnit → Prog (TpuEff nD τ sig (Elt F) Λ₀ .tc) α}
    (q : PosShare TreeShare) (fs : Buf (Elt F) (src.view.loc (c : Thread nD τ))) (fd : Buf (Elt F) (dst.view.loc (c' : Thread nD τ)))
    (O₁ O : CellTallies nD τ sig Unit) (hO : O₁ = O + tallyAt (kcell (c', iR)) () N2) {W : Waits sig Unit}
    (hp1 : (src.view.loc (c : Thread nD τ) ↦[src.view.set]{q} fs) ⊢ pay m c iS 0)
    (hp2 : (dst.view.loc (c' : Thread nD τ) ↦[dst.view.set]{fullShare} (dst.view.write (Elt F) fd (src.view.read (Elt F) fs) Finset.univ)) ⊢ pay m c' iR 0)
    (hS0 : iS.val ≠ 0 := by decide) (hR0 : iR.val ≠ 0 := by decide) (haS : amt iS = N2 := by rfl) (haR : amt iR = N2 := by rfl)
    (hN : dst.view.amount (csem iR) = N2 := by rfl) :
    records m K ⊢ iprop((src.view.loc (c : Thread nD τ) ↦[src.view.set]{q} fs) -∗ (dst.view.loc (c' : Thread nD τ) ↦[dst.view.set]{fullShare} fd)
        -∗ owes (c : Thread nD τ) O₁ W -∗ dutyTok ER (kcell (c, iS)) 0 (0 : DT) -∗ dutyTok ER (kcell (c', iR)) 0 (0 : DT)
        -∗ (cred (tallyAt (kcell (c, iS)) () (amt iS)) -∗ owes (c : Thread nD τ) O W -∗ wp frame (wpE (defs₀ (F := F)) 𝒱₀ (c : Thread nD τ) none) Set.univ (k ⟨⟩) Q)
        -∗ wp frame (wpE (defs₀ (F := F)) 𝒱₀ (c : Thread nD τ) none) Set.univ
              (.op (.enqueueDma src (.remote (Dev.tc n : Thread nD τ) dst (csem iS) hsc) (csem iR) hsrc hdst hsem) k) Q) := by
  subst hn
  rw [haS]
  iintro #Hrec Hs Hd HO Ht Ht' Hk
  iapply (Rounds.wp_send_pointsTo 𝒱₀ ER (Rd m) (c : Thread nD τ) none (κ₁ := K (c, iS)) (κ₂ := K (n, iR))
    (r₁ := 0) (r₂ := 0) (d₁ := (0 : DT)) (d₂ := (0 : DT)) (fd := fd)
    (by rw [duties_own m c iS hS0]; exact Finset.mem_singleton_self _)
    (by rw [duties_own m n iR hR0]; exact Finset.mem_singleton_self _)
    () () N2 hN ((amount_at m c iS 0).trans haS) ((amount_at m n iR 0).trans haR) O hO (W := W)
    (by rw [payload_at m c iS 0]; exact hp1) (by rw [payload_at m n iR 0]; exact hp2)) $$ [Hs Hd HO Ht Ht']
  · isplitr; · (iapply (inv_at m K (c, iS)); iexact Hrec)
    isplitr; · (iapply (inv_at m K (n, iR)); iexact Hrec)
    iframe Hs Hd HO Ht
    isplitr; · (iapply (reached_at m K (c, iS)); iexact Hrec)
    isplitl [Ht']; · iexact Ht'
    (iapply (reached_at m K (n, iR)); iexact Hrec)
  iintro ⟨Hc, HO⟩
  iapply Hk $$ Hc HO

theorem sig_peer (K : Dev nD × Fin 17 → ℕ) (c c' : Dev nD) (d : DT) (s s' : Fin 6) (i i' : Fin 17)
    (hpay : iprop((∃ f, slotPts (F := F) c s f) ∗ (∃ f, slotPts c s' f) ∗ reached ER (kcell (c, i)) 0 ∗ reached ER (kcell (c, i')) 0) ⊢ barPay c' d)
    (O₁ O : CellTallies nD τ sig Unit) (hO : O₁ = O + tallyAt (barCell c') () 1) (f f' : Vec F S6x2x4x128 .f32) {W : Waits sig Unit}
    {α : Type} {Q : α → sProp 𝕄} {k : PUnit → Prog (TpuEff nD τ sig (Elt F) Λ₀ .tc) α} :
    records m K ⊢ iprop(owes (c : Thread nD τ) O₁ W -∗ dutyTok ER (barCell c') 0 d -∗ slotPts c s f -∗ slotPts c s' f'
      -∗ (owes (c : Thread nD τ) O W -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (c' : Thread nD τ) barS 1) k) Q) := by
  iintro #Hrec HO Ht Hs Hs' Hk
  iapply (Rounds.wp_signal 𝒱₀ ER (Rd m) (c : Thread nD τ) none (dst := (c' : Thread nD τ)) (κ := K (c', 0)) (d := d)
      (by rw [duties_bar]; exact Finset.mem_univ _) ((amount_at m c' 0 d).trans (by decide)) () O hO) $$ [HO Ht Hs Hs']
  · isplitr; · (iapply (inv_at m K (c', 0)); iexact Hrec)
    isplitl [HO]; · iexact HO
    isplitl [Ht]; · iexact Ht
    isplitl [Hs Hs']
    · rw [show (Rd (F := F) m).payload (barCell c') 0 d = barPay c' d from payload_at m c' 0 d]
      iapply hpay
      isplitl [Hs]; · (iexists f; iexact Hs)
      isplitl [Hs']; · (iexists f'; iexact Hs')
      isplitr; · (iapply (reached_at m K (c, i)); iexact Hrec)
      (iapply (reached_at m K (c, i')); iexact Hrec)
    · (iapply (reached_at m K (c', 0)); iexact Hrec)
  iexact Hk

theorem four_shares {ℓ : Loc nD τ sig} (I : Finset (Idx ℓ)) (f : Buf (Elt F) ℓ) :
    ((ℓ ↦[I]{fullShare} f) : sProp 𝕄) ⊣⊢ iprop((ℓ ↦[I]{fullShare.left} f) ∗ (ℓ ↦[I]{fullShare.right.left} f)
      ∗ (ℓ ↦[I]{fullShare.right.right.left} f) ∗ (ℓ ↦[I]{fullShare.right.right.right} f)) :=
  (pointsTo_share (PosShare.mem_left_op_right fullShare)).trans (sep_congr_right
    ((pointsTo_share (PosShare.mem_left_op_right fullShare.right)).trans (sep_congr_right (pointsTo_share (PosShare.mem_left_op_right fullShare.right.right)))))

theorem hz2 : (![0, 0] : Fin 2 → Nat) = fun _ => 0 := funext fun a => by fin_cases a <;> rfl
theorem read_t (f : (cc0_stg0_0 : Ref sig .tc).ty.Contents (Elt F)) :
    (tM : Memref sig .tc .vmem S4x128 .f32).view.readAt (Elt F) (Rect.unit (s := S4x128) ![0, 0] S4x128.size inb_S4x128_S4x128_0_0).toLoadRect f = f :=
  Memref.readAt_unit_zero (Elt F) cc0_stg0_0 hz2 _ f
theorem read_wsc (f : (cc0_stg1_0 : Ref sig .tc).ty.Contents (Elt F)) :
    (wscM : Memref sig .tc .vmem S128x128 .f32).view.readAt (Elt F) (Rect.unit (s := S128x128) ![0, 0] S128x128.size inb_S128x128_S128x128_0_0).toLoadRect f = f :=
  Memref.readAt_unit_zero (Elt F) cc0_stg1_0 hz2 _ f
theorem read_wsh (f : (cc0_stg2_0 : Ref sig .tc).ty.Contents (Elt F)) :
    (wshM : Memref sig .tc .vmem S128x128 .f32).view.readAt (Elt F) (Rect.unit (s := S128x128) ![0, 0] S128x128.size inb_S128x128_S128x128_0_0).toLoadRect f = f :=
  Memref.readAt_unit_zero (Elt F) cc0_stg2_0 hz2 _ f

set_option maxHeartbeats 16000000 in
theorem sound_body (K : Dev nD × Fin 17 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole cc0_stg0_0) (Memref.isWhole_whole _)
            (Memref.whole cc0_stg1_0) (Memref.isWhole_whole _) (Memref.whole cc0_stg2_0) (Memref.isWhole_whole _)
            (Memref.whole main_v1) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7) Kt := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel,
    semSignalWord, semWaitWord, Prog.lift, Prog.bind_op, Prog.bind_ret, Prog.pure_eq_ret, wp_deviceId, dev1_eq c, dev2_eq c, dev3_eq c]
  unfold bodyPre ghost linear payToks creds
  iintro ⟨⟨⟨⟨#Hrec, Hat, HtB, HtR, HtO⟩, ⟨HcB, HcR⟩, #Hlev, ⟨Hxv, Hov, Hms, Hcm⟩, Hx, Hout⟩, Ho, Hst0, Hst1, Hst2⟩, Hk⟩
  unfold Dat.owesAt Pipeline.owesWithin
  icases Ho with ⟨%W, %hW, HO⟩
  rw [show (dats m 0 c).owed t0_0.castSucc = O₀ c from rfl]
  unfold O₀
  ihave HtB' := (Entails.of_eq (bigSep_fin3 _)) $$ HtB
  icases HtB' with ⟨HtB0, HtB1, HtB2⟩
  icases Hcm with ⟨%fcm, Hcm⟩
  ihave Hs := (split_cm (F := F) c fcm).1 $$ Hcm
  icases Hs with ⟨Hs0, Hs1, Hs2, Hs3, Hs4, Hs5⟩
  iapply (sig_peer m K c (fwd 1 c) 0 4 5 15 16 (by simp only [barPay, bwd_fwd1]; exact .rfl) _ _ rfl fcm fcm) $$ Hrec [HO] [HtB0] Hs4 Hs5
  · iexact HO
  · iexact HtB0
  iintro HO
  iapply (sig_peer m K c (fwd 2 c) 1 2 3 13 14 (by simp only [barPay, bwd_fwd2]; exact .rfl) _ _ rfl fcm fcm) $$ Hrec [HO] [HtB1] Hs2 Hs3
  · iexact HO
  · iexact HtB1
  iintro HO
  iapply (sig_peer m K c (fwd 3 c) 2 0 1 11 12 (by simp only [barPay, bwd_fwd3]; exact .rfl) _ _ rfl fcm fcm) $$ Hrec [HO] [HtB2] Hs0 Hs1
  · iexact HO
  · iexact HtB2
  iintro HO
  ihave Hx' := (split_x (F := F) c fullShare _).1 $$ Hx
  icases Hx' with ⟨Hx0, Hx1⟩
  icases Hxv with ⟨%fxv, Hxv⟩
  ihave Hxv' := (split_xv (F := F) c fullShare fxv).1 $$ Hxv
  icases Hxv' with ⟨Hxv0, Hxv1⟩
  icases Hms with ⟨%fms, Hms⟩
  ihave Hms' := (split_ms (F := F) c fullShare fms).1 $$ Hms
  icases Hms' with ⟨Hms0, Hms1⟩
  ihave HtO' := (Entails.of_eq (bigSep_fin10 _)) $$ HtO
  icases HtO' with ⟨HtO0, HtO1, HtO2, HtO3, HtO4, HtO5, HtO6, HtO7, HtO8, HtO9⟩
  ihave Hat' := (Entails.of_eq (bigSep_fin17 _)) $$ Hat
  icases Hat' with ⟨Hat0, Hat1, Hat2, Hat3, Hat4, Hat5, Hat6, Hat7, Hat8, Hat9, Hat10, Hat11, Hat12, Hat13, Hat14, Hat15, Hat16⟩
  iapply (copy_own m K c 1 (xA m c) (fxv) (by show _ ⊢ loadPay m c 0; simp only [loadPay]; rw [pointsTo_congr (land_x0 (F := F) c fxv (xA m c))])) $$ Hrec [Hx0] [Hxv0] [HtO0] <;> try iassumption
  · iexact HtO0
  iintro HcL0
  iapply (copy_own m K c 2 (xA m c) (fxv) (by show _ ⊢ loadPay m c 1; simp only [loadPay]; rw [pointsTo_congr (land_x1 (F := F) c fxv (xA m c))])) $$ Hrec [Hx1] [Hxv1] [HtO1] <;> try iassumption
  · iexact HtO1
  iintro HcL1
  iapply (wait_own m K c 1 (O6 c) (mayWait_low c _ (lv_own c _ (by decide)) _ (ro6 c)) _ rfl) $$ Hrec Hlev [HcL0] HO Hat1
  · iexact HcL0
  iintro HO Hat1 HpL0
  ihave HpL0' := (Entails.of_eq (show pay m c 1 0 = loadPay m c 0 from rfl)) $$ HpL0
  simp only [loadPay]
  icases HpL0' with ⟨Hxv0, Hx0⟩
  iapply (wp_load 𝒱₀ (c : Thread nD τ) none Set.univ (m := xvM) fp_xv0) $$ Hxv0; iintro Hxv0
  rw [read_xv 0 0 rfl, show halfOf 0 (xA m c) = xh m 0 c from rfl]
  iapply (wp_load 𝒱₀ (c : Thread nD τ) none Set.univ (m := msM) fp_ms00) $$ Hms0; iintro Hms0
  iapply (wp_store 𝒱₀ (c : Thread nD τ) none Set.univ (m := msM) (r := (Rect.unit (s := S2x2x4x128) ![0, 0, 0, 0] S1x1x4x128.size inb_S2x2x4x128_S1x1x4x128_0_0_0_0)) (Mk := Finset.univ) fps_ms00) $$ Hms0; iintro Hms0
  iapply (wp_load 𝒱₀ (c : Thread nD τ) none Set.univ (m := msM) fp_ms01) $$ Hms0; iintro Hms0
  iapply (wp_store 𝒱₀ (c : Thread nD τ) none Set.univ (m := msM) (r := (Rect.unit (s := S2x2x4x128) ![0, 1, 0, 0] S1x1x4x128.size inb_S2x2x4x128_S1x1x4x128_0_1_0_0)) (Mk := Finset.univ) fps_ms01) $$ Hms0
  rw [pointsTo_congr (ℓ := (msS 0).view.loc (c : Thread nD τ)) (q := fullShare) (stored_ms0 m c fms)]
  iintro Hms0
  iapply (Rounds.wp_wait_rest_token 𝒱₀ ER (Rd m) (c : Thread nD τ) none (κ := K (c, 0))
      (wpE_semWait_eq 𝒱₀ (c : Thread nD τ) none Set.univ) (Set.mem_univ _) () (O := O6 c) (R := 0) (m := 0) (T := ∅)
      (by rw [Nat.zero_add, show ((c : Thread nD τ), SemLoc.reg (SemArray.scalar (sig.barrier 0 rfl) : Sems sig S_).sem) = barCell c from rfl, expect_bar]; rfl)) $$ [HcB HO Hat0]
  · isplitr; · (iapply (inv_at m K (c, 0)); iexact Hrec)
    isplitl [HcB]; · iexact HcB
    isplitl [HO]; · iexact HO
    isplitr; · (iapply (mayWait_low c _ (lv_bar c) _ (ro6 c)); iexact Hlev)
    iexact Hat0
  iintro ⟨HO, Hat0, -, Hpay⟩
  ihave Hp := (Entails.of_eq (rest_bar_of m c _ (by decide))) $$ Hpay
  simp only [barPay, bwd1_eq, bwd2_eq, bwd3_eq]
  icases Hp with ⟨⟨⟨%fp4, Hp4⟩, ⟨%fp5, Hp5⟩, -, -⟩, ⟨⟨%fp2, Hp2⟩, ⟨%fp3, Hp3⟩, -, -⟩, ⟨%fp0, Hp0⟩, ⟨%fp1, Hp1⟩, -, -⟩
  simp only [slotPts]
  ihave HtR' := (Entails.of_eq (bigSep_fin6 _)) $$ HtR
  icases HtR' with ⟨HtR0, HtR1, HtR2, HtR3, HtR4, HtR5⟩
  ihave Hm := (four_shares _ _).1 $$ Hms0
  icases Hm with ⟨Hms0a, Hms0b, Hms0c, Hms0k⟩
  iapply (send_peer m K c (fwd 2 c) (dev4_eq c) 7 13 fullShare.right.left (msFull m c) fp2 (O6 c) (O5 c) rfl
      (by show _ ⊢ sendPay m c 2; simp only [sendPay]; exact .rfl)
      (by show _ ⊢ recvPay m (fwd 2 c) 2; simp only [recvPay, slotPts]; rw [pointsTo_congr (land_cm2 m c fp2)])) $$ Hrec [Hms0b] [Hp2] HO [HtO6] [HtR2] <;> try iassumption
  · iexact HtO6
  · iexact HtR2
  iintro HcS2 HO
  iapply (send_peer m K c (fwd 1 c) (dev5_eq c) 5 11 fullShare.left (msFull m c) fp0 (O5 c) (O4 c) rfl
      (by show _ ⊢ sendPay m c 0; simp only [sendPay]; exact .rfl)
      (by show _ ⊢ recvPay m (fwd 1 c) 0; simp only [recvPay, slotPts]; rw [pointsTo_congr (land_cm0 m c fp0)])) $$ Hrec [Hms0a] [Hp0] HO [HtO4] [HtR0] <;> try iassumption
  · iexact HtO4
  · iexact HtR0
  iintro HcS0 HO
  iapply (send_peer m K c (fwd 3 c) (dev6_eq c) 9 15 fullShare.right.right.left (msFull m c) fp4 (O4 c) (O3 c) rfl
      (by show _ ⊢ sendPay m c 4; simp only [sendPay]; exact .rfl)
      (by show _ ⊢ recvPay m (fwd 3 c) 4; simp only [recvPay, slotPts]; rw [pointsTo_congr (land_cm4 m c fp4)])) $$ Hrec [Hms0c] [Hp4] HO [HtO8] [HtR4] <;> try iassumption
  · iexact HtO8
  · iexact HtR4
  iintro HcS4 HO
  iapply (wait_own m K c 2 (O3 c) (mayWait_low c _ (lv_own c _ (by decide)) _ (ro3 c)) _ rfl) $$ Hrec Hlev [HcL1] HO Hat2
  · iexact HcL1
  iintro HO Hat2 HpL1
  ihave HpL1' := (Entails.of_eq (show pay m c 2 0 = loadPay m c 1 from rfl)) $$ HpL1
  simp only [loadPay]
  icases HpL1' with ⟨Hxv1, Hx1⟩
  iapply (wp_load 𝒱₀ (c : Thread nD τ) none Set.univ (m := xvM) fp_xv1) $$ Hxv1; iintro Hxv1
  rw [read_xv 1 128 rfl, show halfOf 1 (xA m c) = xh m 1 c from rfl]
  iapply (wp_load 𝒱₀ (c : Thread nD τ) none Set.univ (m := msM) fp_ms10) $$ Hms1; iintro Hms1
  iapply (wp_store 𝒱₀ (c : Thread nD τ) none Set.univ (m := msM) (r := (Rect.unit (s := S2x2x4x128) ![1, 0, 0, 0] S1x1x4x128.size inb_S2x2x4x128_S1x1x4x128_1_0_0_0)) (Mk := Finset.univ) fps_ms10) $$ Hms1; iintro Hms1
  iapply (wp_load 𝒱₀ (c : Thread nD τ) none Set.univ (m := msM) fp_ms11) $$ Hms1; iintro Hms1
  iapply (wp_store 𝒱₀ (c : Thread nD τ) none Set.univ (m := msM) (r := (Rect.unit (s := S2x2x4x128) ![1, 1, 0, 0] S1x1x4x128.size inb_S2x2x4x128_S1x1x4x128_1_1_0_0)) (Mk := Finset.univ) fps_ms11) $$ Hms1
  rw [pointsTo_congr (ℓ := (msS 1).view.loc (c : Thread nD τ)) (q := fullShare) (stored_ms1 m c fms)]
  iintro Hms1
  ihave Hm := (four_shares _ _).1 $$ Hms1
  icases Hm with ⟨Hms1a, Hms1b, Hms1c, Hms1k⟩
  iapply (send_peer m K c (fwd 2 c) (dev7_eq c) 8 14 fullShare.right.left (msFull m c) fp3 (O3 c) (O2 c) rfl
      (by show _ ⊢ sendPay m c 3; simp only [sendPay]; exact .rfl)
      (by show _ ⊢ recvPay m (fwd 2 c) 3; simp only [recvPay, slotPts]; rw [pointsTo_congr (land_cm3 m c fp3)])) $$ Hrec [Hms1b] [Hp3] HO [HtO7] [HtR3] <;> try iassumption
  · iexact HtO7
  · iexact HtR3
  iintro HcS3 HO
  iapply (send_peer m K c (fwd 1 c) (dev8_eq c) 6 12 fullShare.left (msFull m c) fp1 (O2 c) (O1 c) rfl
      (by show _ ⊢ sendPay m c 1; simp only [sendPay]; exact .rfl)
      (by show _ ⊢ recvPay m (fwd 1 c) 1; simp only [recvPay, slotPts]; rw [pointsTo_congr (land_cm1 m c fp1)])) $$ Hrec [Hms1a] [Hp1] HO [HtO5] [HtR1] <;> try iassumption
  · iexact HtO5
  · iexact HtR1
  iintro HcS1 HO
  iapply (send_peer m K c (fwd 3 c) (dev9_eq c) 10 16 fullShare.right.right.left (msFull m c) fp5 (O1 c) (0) (zero_add _).symm
      (by show _ ⊢ sendPay m c 5; simp only [sendPay]; exact .rfl)
      (by show _ ⊢ recvPay m (fwd 3 c) 5; simp only [recvPay, slotPts]; rw [pointsTo_congr (land_cm5 m c fp5)])) $$ Hrec [Hms1c] [Hp5] HO [HtO9] [HtR5] <;> try iassumption
  · iexact HtO9
  · iexact HtR5
  iintro HcS5 HO
  icases Hst0 with ⟨%d0, %g0, %hg0, Hst0⟩
  have hx0 : g0 = tB m c := by rw [hg0]; unfold Dat.before; rw [if_pos (fetch0_0 t0_0)]; rfl
  subst hx0
  iapply (wp_load 𝒱₀ (c : Thread nD τ) none Set.univ (m := tM) (Finset.subset_univ _)) $$ Hst0
  rw [read_t, tB_eq m c]
  iintro Hst0
  icases Hst1 with ⟨%d1, %g1, %hg1, Hst1⟩
  have hx1 : g1 = wscB m c := by rw [hg1]; unfold Dat.before; rw [if_pos (fetch0_1 t0_0)]; rfl
  subst hx1
  iapply (wp_load 𝒱₀ (c : Thread nD τ) none Set.univ (m := wscM) (Finset.subset_univ _)) $$ Hst1
  rw [read_wsc, wscB_eq m c]
  iintro Hst1
  icases Hst2 with ⟨%d2, %g2, %hg2, Hst2⟩
  have hx2 : g2 = wshB m c := by rw [hg2]; unfold Dat.before; rw [if_pos (fetch0_2 t0_0)]; rfl
  subst hx2
  iapply (wp_load 𝒱₀ (c : Thread nD τ) none Set.univ (m := wshM) (Finset.subset_univ _)) $$ Hst2
  rw [read_wsh, wshB_eq m c]
  iintro Hst2
  ihave HcR' := (Entails.of_eq (bigSep_fin6 _)) $$ HcR
  icases HcR' with ⟨HcR0, HcR1, HcR2, HcR3, HcR4, HcR5⟩
  iapply (wait_own m K c 13 0 (mayWait0 c _) (slotPts c 2 (cmFull m c)) rfl) $$ Hrec Hlev [HcR2] HO Hat13
  · iexact HcR2
  iintro HO Hat13 Hcm2
  iapply (wait_own m K c 11 0 (mayWait0 c _) (slotPts c 0 (cmFull m c)) rfl) $$ Hrec Hlev [HcR0] HO Hat11
  · iexact HcR0
  iintro HO Hat11 Hcm0
  iapply (wait_own m K c 15 0 (mayWait0 c _) (slotPts c 4 (cmFull m c)) rfl) $$ Hrec Hlev [HcR4] HO Hat15
  · iexact HcR4
  iintro HO Hat15 Hcm4
  simp only [slotPts]
  iapply (wp_load 𝒱₀ (c : Thread nD τ) none Set.univ (m := msM) fp_ms0) $$ Hms0k; iintro Hms0k
  rw [read_ms m 0 0 rfl]
  iapply (wp_load 𝒱₀ (c : Thread nD τ) none Set.univ (m := cmM) fp_cm0) $$ Hcm0; iintro Hcm0
  rw [read_cm m 0 0 1 rfl rfl]
  iapply (wp_load 𝒱₀ (c : Thread nD τ) none Set.univ (m := cmM) fp_cm2) $$ Hcm2; iintro Hcm2
  rw [read_cm m 2 0 2 rfl rfl]
  iapply (wp_load 𝒱₀ (c : Thread nD τ) none Set.univ (m := cmM) fp_cm4) $$ Hcm4; iintro Hcm4
  rw [read_cm m 4 0 3 rfl rfl]
  iapply (wp_load 𝒱₀ (c : Thread nD τ) none Set.univ (m := xvM) fp_xv0) $$ Hxv0; iintro Hxv0
  rw [read_xv 0 0 rfl, show halfOf 0 (xA m c) = xh m 0 c from rfl]
  icases Hov with ⟨%fov, Hov⟩
  ihave Hov' := (split_ov (F := F) c fullShare fov).1 $$ Hov
  icases Hov' with ⟨Hov0, Hov1⟩
  ihave Hout' := (split_o (F := F) c fullShare _).1 $$ Hout
  icases Hout' with ⟨Hout0, Hout1⟩
  iapply (wp_load 𝒱₀ (c : Thread nD τ) none Set.univ (m := ovM) fp_ov0) $$ Hov0; iintro Hov0
  iapply (wp_store 𝒱₀ (c : Thread nD τ) none Set.univ (m := ovM) (r := (Rect.unit (s := S2x4x128x128) ![0, 0, 0, 0] S1x4x128x128.size inb_S2x4x128x128_S1x4x128x128_0_0_0_0)) (Mk := Finset.univ) fps_ov0) $$ Hov0
  have hov0 := stored_ov0 m c fov
  unfold outh0 shiftv gainv at hov0
  rw [pointsTo_congr (ℓ := (ovS 0).view.loc (c : Thread nD τ)) (q := fullShare) hov0]
  iintro Hov0
  iapply (copy_own m K c 3 (ovFull m c) (m ((c : Thread nD τ).loc main_v1)) (by show _ ⊢ storePay m c 0; simp only [storePay]; rw [pointsTo_congr (land_o0 m c (m ((c : Thread nD τ).loc main_v1)))])) $$ Hrec [Hov0] [Hout0] [HtO2] <;> try iassumption
  · iexact HtO2
  iintro HcO0
  iapply (wait_own m K c 14 0 (mayWait0 c _) (slotPts c 3 (cmFull m c)) rfl) $$ Hrec Hlev [HcR3] HO Hat14
  · iexact HcR3
  iintro HO Hat14 Hcm3
  iapply (wait_own m K c 12 0 (mayWait0 c _) (slotPts c 1 (cmFull m c)) rfl) $$ Hrec Hlev [HcR1] HO Hat12
  · iexact HcR1
  iintro HO Hat12 Hcm1
  iapply (wait_own m K c 16 0 (mayWait0 c _) (slotPts c 5 (cmFull m c)) rfl) $$ Hrec Hlev [HcR5] HO Hat16
  · iexact HcR5
  iintro HO Hat16 Hcm5
  simp only [slotPts]
  iapply (wp_load 𝒱₀ (c : Thread nD τ) none Set.univ (m := msM) fp_ms1) $$ Hms1k; iintro Hms1k
  rw [read_ms m 1 1 rfl]
  iapply (wp_load 𝒱₀ (c : Thread nD τ) none Set.univ (m := cmM) fp_cm1) $$ Hcm1; iintro Hcm1
  rw [read_cm m 1 1 1 rfl rfl]
  iapply (wp_load 𝒱₀ (c : Thread nD τ) none Set.univ (m := cmM) fp_cm3) $$ Hcm3; iintro Hcm3
  rw [read_cm m 3 1 2 rfl rfl]
  iapply (wp_load 𝒱₀ (c : Thread nD τ) none Set.univ (m := cmM) fp_cm5) $$ Hcm5; iintro Hcm5
  rw [read_cm m 5 1 3 rfl rfl]
  iapply (wp_load 𝒱₀ (c : Thread nD τ) none Set.univ (m := xvM) fp_xv1) $$ Hxv1; iintro Hxv1
  rw [read_xv 1 128 rfl, show halfOf 1 (xA m c) = xh m 1 c from rfl]
  iapply (wp_load 𝒱₀ (c : Thread nD τ) none Set.univ (m := ovM) fp_ov1) $$ Hov1; iintro Hov1
  iapply (wp_store 𝒱₀ (c : Thread nD τ) none Set.univ (m := ovM) (r := (Rect.unit (s := S2x4x128x128) ![1, 0, 0, 0] S1x4x128x128.size inb_S2x4x128x128_S1x4x128x128_1_0_0_0)) (Mk := Finset.univ) fps_ov1) $$ Hov1
  have hov1 := stored_ov1 m c fov
  unfold outh1 shiftv gainv at hov1
  rw [pointsTo_congr (ℓ := (ovS 1).view.loc (c : Thread nD τ)) (q := fullShare) hov1]
  iintro Hov1
  iapply (copy_own m K c 4 (ovFull m c) (m ((c : Thread nD τ).loc main_v1)) (by show _ ⊢ storePay m c 1; simp only [storePay]; rw [pointsTo_congr (land_o1 m c (m ((c : Thread nD τ).loc main_v1)))])) $$ Hrec [Hov1] [Hout1] [HtO3] <;> try iassumption
  · iexact HtO3
  iintro HcO1
  iapply (wait_own m K c 3 0 (mayWait0 c _) _ rfl) $$ Hrec Hlev [HcO0] HO Hat3
  · iexact HcO0
  iintro HO Hat3 HpO0
  iapply (wait_own m K c 4 0 (mayWait0 c _) _ rfl) $$ Hrec Hlev [HcO1] HO Hat4
  · iexact HcO1
  iintro HO Hat4 HpO1
  iapply (wait_own m K c 7 0 (mayWait0 c _) _ rfl) $$ Hrec Hlev [HcS2] HO Hat7
  · iexact HcS2
  iintro HO Hat7 HpS2
  iapply (wait_own m K c 5 0 (mayWait0 c _) _ rfl) $$ Hrec Hlev [HcS0] HO Hat5
  · iexact HcS0
  iintro HO Hat5 HpS0
  iapply (wait_own m K c 9 0 (mayWait0 c _) _ rfl) $$ Hrec Hlev [HcS4] HO Hat9
  · iexact HcS4
  iintro HO Hat9 HpS4
  iapply (wait_own m K c 8 0 (mayWait0 c _) _ rfl) $$ Hrec Hlev [HcS3] HO Hat8
  · iexact HcS3
  iintro HO Hat8 HpS3
  iapply (wait_own m K c 6 0 (mayWait0 c _) _ rfl) $$ Hrec Hlev [HcS1] HO Hat6
  · iexact HcS1
  iintro HO Hat6 HpS1
  iapply (wait_own m K c 10 0 (mayWait0 c _) _ rfl) $$ Hrec Hlev [HcS5] HO Hat10
  · iexact HcS5
  iintro HO Hat10 HpS5
  ihave HpO0' := (Entails.of_eq (show pay m c 3 0 = storePay m c 0 from rfl)) $$ HpO0
  ihave HpO1' := (Entails.of_eq (show pay m c 4 0 = storePay m c 1 from rfl)) $$ HpO1
  simp only [storePay]
  icases HpO0' with ⟨Hout0, Hov0⟩
  icases HpO1' with ⟨Hout1, Hov1⟩
  ihave Hms0a := (Entails.of_eq (show pay m c 5 0 = sendPay m c 0 from rfl)) $$ HpS0
  ihave Hms1a := (Entails.of_eq (show pay m c 6 0 = sendPay m c 1 from rfl)) $$ HpS1
  ihave Hms0b := (Entails.of_eq (show pay m c 7 0 = sendPay m c 2 from rfl)) $$ HpS2
  ihave Hms1b := (Entails.of_eq (show pay m c 8 0 = sendPay m c 3 from rfl)) $$ HpS3
  ihave Hms0c := (Entails.of_eq (show pay m c 9 0 = sendPay m c 4 from rfl)) $$ HpS4
  ihave Hms1c := (Entails.of_eq (show pay m c 10 0 = sendPay m c 5 from rfl)) $$ HpS5
  simp only [sendPay]
  imod (close_own m K c 1 (osem 0)) $$ Hrec Hat1 with Hz1
  imod (close_own m K c 2 (osem 1)) $$ Hrec Hat2 with Hz2
  imod (close_own m K c 3 (osem 2)) $$ Hrec Hat3 with Hz3
  imod (close_own m K c 4 (osem 3)) $$ Hrec Hat4 with Hz4
  imod (close_own m K c 5 (osem 4)) $$ Hrec Hat5 with Hz5
  imod (close_own m K c 6 (osem 5)) $$ Hrec Hat6 with Hz6
  imod (close_own m K c 7 (osem 6)) $$ Hrec Hat7 with Hz7
  imod (close_own m K c 8 (osem 7)) $$ Hrec Hat8 with Hz8
  imod (close_own m K c 9 (osem 8)) $$ Hrec Hat9 with Hz9
  imod (close_own m K c 10 (osem 9)) $$ Hrec Hat10 with Hz10
  imod (close_own m K c 11 (osem 10)) $$ Hrec Hat11 with Hz11
  imod (close_own m K c 12 (osem 11)) $$ Hrec Hat12 with Hz12
  imod (close_own m K c 13 (osem 12)) $$ Hrec Hat13 with Hz13
  imod (close_own m K c 14 (osem 13)) $$ Hrec Hat14 with Hz14
  imod (close_own m K c 15 (osem 14)) $$ Hrec Hat15 with Hz15
  imod (close_own m K c 16 (osem 15)) $$ Hrec Hat16 with Hz16
  ihave Hms0 := (four_shares _ _).2 $$ [Hms0a Hms0b Hms0c Hms0k]
  · iframe
  ihave Hms1 := (four_shares _ _).2 $$ [Hms1a Hms1b Hms1c Hms1k]
  · iframe
  ihave Hms := (split_ms (F := F) c fullShare (msFull m c)).2 $$ [Hms0 Hms1]
  · iframe
  ihave Hxv := (split_xv (F := F) c fullShare (xA m c)).2 $$ [Hxv0 Hxv1]
  · iframe
  ihave Hov := (split_ov (F := F) c fullShare (ovFull m c)).2 $$ [Hov0 Hov1]
  · iframe
  ihave Hx := (split_x (F := F) c fullShare (xA m c)).2 $$ [Hx0 Hx1]
  · iframe
  ihave Hout := (split_o (F := F) c fullShare (outAt m c)).2 $$ [Hout0 Hout1]
  · iframe
  have hsc := (split_cm (F := F) c (cmFull m c)).2
  simp only [slotPts] at hsc
  ihave Hcm := hsc $$ [Hcm0 Hcm1 Hcm2 Hcm3 Hcm4 Hcm5]
  · iframe
  rw [wp_ret]; imodintro
  iapply Hk
  unfold bodyPost Φ₁ Dat.owesAt Pipeline.owesWithin
  rw [show (dats m 0 c).owed t0_0.succ = 0 from rfl]
  isplitr [HO Hst0 Hst1 Hst2]
  · isplitl [Hxv Hov Hms Hcm]
    · isplitl [Hxv]; · (iexists _; iexact Hxv)
      isplitl [Hov]; · (iexists _; iexact Hov)
      isplitl [Hms]; · (iexists _; iexact Hms)
      (iexists _; iexact Hcm)
    rw [bigSep_fin16]; iframe
  isplitl [HO]
  · iexists _
    isplitr
    rotate_left
    · iexact HO
    · ipureintro; exact fun _ _ => Or.inl trivial
  isplitl [Hst0]; · (iexists _; isplitr; · (ipureintro; exact (tB_eq m c).symm)
                     iexact Hst0)
  isplitl [Hst1]; · (iexists _; isplitr; · (ipureintro; exact (wscB_eq m c).symm)
                     iexact Hst1)
  iexists _; isplitr; · (ipureintro; exact (wshB_eq m c).symm)
  iexact Hst2

end Cert.KernelIdeal.KB

end
-- ==== Proof.KernelIdealBody.lean ====
import proofs.«900517_g7700000000000518_dist_diff_adaln_cshard_i_b4_s256_c128_v7x_i4_f32_1_alg».proof.Proof.KernelIdealSound

noncomputable section

namespace Cert.KernelIdeal.KB

open Cert.KernelIdeal Cert.KernelIdeal.Gen Cert.KernelIdeal.KP

open Idealize.ShloMosaic
open Idealize.ShloMosaic.TcCoe
open Idealize.SL Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

-- At the one point the obligation's precondition is the body's own, once the cells' names are chosen.
theorem body_obligation (m : (ℓ : Loc nD τ sig) → Buf (Elt F) ℓ) (c : Dev nD) :
    BodyObligation (dats (F := F) m 0 c) (defs₀ (F := F)) 𝒱₀ () Set.univ := fun t => by
  rw [fin_N0 t, bigSep_W0, bigSep_W0]
  simp only [owns_whole_eq]
  show iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d))) ⊢ wp _ _ _ _ fun _ => bodyPost m c
  unfold Φ₀ start
  iintro ⟨⟨⟨⟨%K, Hg⟩, Hc, Hl⟩, Hs⟩, H⟩
  iapply (sound_body m K c fun _ => bodyPost m c)
  unfold bodyPre
  isplitr []
  · iframe
  · iintro H; iexact H

end Cert.KernelIdeal.KB

end
-- ==== Proof.KernelIdealRun.lean ====
import proofs.«900517_g7700000000000518_dist_diff_adaln_cshard_i_b4_s256_c128_v7x_i4_f32_1_alg».proof.Proof.KernelIdealBody

noncomputable section

namespace Cert.KernelIdeal.KRun

open Cert.KernelIdeal Cert.KernelIdeal.Gen Cert.KernelIdeal.KD Cert.KernelIdeal.KP Cert.KernelIdeal.KB

open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ)

theorem ownSemFacts : Pipeline.OwnSemFacts cfg0.spec osem := by decide

theorem share_eq (c : Dev nD) (w : Fin cfg0.W) : (dats m 0 c).share w = fullShare := by unfold Dat.share; split <;> rfl

-- Each of the seventeen semaphores is found at its own number.
theorem csem_injective : Function.Injective (csem : Fin 17 → SemLoc sig) := fun k k' h =>
  Option.some.inj (by rw [← semIdx_csem k, ← semIdx_csem k', h])

theorem kcell_injective : Function.Injective (kcell : Dev nD × Fin 17 → GSem nD τ sig) := fun _ _ h =>
  Prod.ext (congrArg (fun g : GSem nD τ sig => g.1.1) h) (csem_injective (congrArg Prod.snd h))

def kCells : Finset (GSem nD τ sig) := Finset.univ.map ⟨kcell, kcell_injective⟩

abbrev TJ : Type := Fin 3 ⊕ (Fin 6 ⊕ Fin 10)
abbrev tsem : TJ → SemLoc sig × DT
  | .inl e => (.reg barS, e)
  | .inr (.inl k) => (.dma (recvS k), 0)
  | .inr (.inr i) => (csem ⟨i.val + 1, by omega⟩, 0)
theorem tsem_injective : Function.Injective tsem := by decide

abbrev tokOf (cj : Dev nD × TJ) : GSem nD τ sig × ℕ × DT := (((cj.1 : Thread nD τ), (tsem cj.2).1), 0, (tsem cj.2).2)
theorem tokOf_injective : Function.Injective (tokOf : Dev nD × TJ → GSem nD τ sig × ℕ × DT) := fun _ _ h =>
  Prod.ext (congrArg (fun x : GSem nD τ sig × ℕ × DT => x.1.1.1) h)
    (tsem_injective (Prod.ext (congrArg (fun x : GSem nD τ sig × ℕ × DT => x.1.2) h) (congrArg (fun x : GSem nD τ sig × ℕ × DT => x.2.2) h)))
def kToks : Finset (GSem nD τ sig × ℕ × DT) := Finset.univ.map ⟨tokOf, tokOf_injective⟩

def u₀ : UU :=
  (initOf (Pipeline.cells cfgs cellOf_inj) (Pipeline.launchToks cfgs cellOf_inj), initOf kCells kToks)

def toks (c : Dev nD) : sProp 𝕄 :=
  iprop((bigSep Finset.univ fun e : Fin 3 => dutyTok ER (barCell c) 0 e)
    ∗ (bigSep Finset.univ fun k : Fin 6 => dutyTok ER (recvCell c k) 0 (0 : DT))
    ∗ (bigSep Finset.univ fun i : Fin 10 => dutyTok ER (kcell (c, ⟨i.val + 1, by omega⟩)) 0 (0 : DT)))

def G (c : Dev nD) : sProp 𝕄 :=
  iprop((bigSep Finset.univ fun k : Fin 17 => roundState ER (Rd m) (kcell (c, k)) 0)
    ∗ (bigSep Finset.univ fun k : Fin 17 => iprop(atPos ER (kcell (c, k)) 0 ∅ 0 ∗ reached ER (kcell (c, k)) 0)) ∗ toks c)

-- Between the two: the cells' invariants allocated, each at some name, the tokens not yet dealt around.
def G₁ (c : Dev nD) : sProp 𝕄 :=
  iprop((bigSep Finset.univ fun k : Fin 17 => iprop(∃ κ : ℕ, cellInv ER (Rd m) κ (kcell (c, k))))
    ∗ (bigSep Finset.univ fun k : Fin 17 => iprop(atPos ER (kcell (c, k)) 0 ∅ 0 ∗ reached ER (kcell (c, k)) 0)) ∗ toks c)

def G' (c : Dev nD) : sProp 𝕄 := iprop(∃ K, ghost m K c)

-- The cells and the tokens are indexed by device, so what is minted splits device by device.
theorem fund_ring : BI.own (ER (initOf kCells kToks)) ⊢ (|==> bigSep Finset.univ (G m) : sProp 𝕄) := by
  have hX (Φ : GSem nD τ sig → sProp 𝕄) : bigSep kCells Φ = bigSep Finset.univ fun c : Dev nD => bigSep Finset.univ fun k : Fin 17 => Φ (kcell (c, k)) := by
    unfold kCells; rw [bigSep_map, bigSep_univ_prod]; rfl
  have hT : bigSep kToks (fun x => (dutyTok ER x.1 x.2.1 x.2.2 : sProp 𝕄)) = bigSep Finset.univ fun c : Dev nD => toks c := by
    unfold kToks; rw [bigSep_map, bigSep_univ_prod]
    exact bigSep_congr fun c _ => by unfold toks; rw [bigSep_univ_sum, bigSep_univ_sum]; rfl
  refine (Rounds.fund ER (Rd m) kCells kToks).trans (BI.bupd_mono (show _ ⊢ (_ : sProp 𝕄) from ?_))
  rw [hX, hX, hX, hT]; unfold G; simp only [bigSep_sep']
  iintro ⟨Hst, Hr, Hat, Htok⟩; iframe

-- The seventeen counters at zero, each with its cell's round state, make the seventeen invariants, each at some name.
theorem cells_alloc (c : Dev nD) :
    iprop(((Pipeline.ownSems0 osem c : sProp 𝕄) ∗ unscopedSems0 c) ∗ bigSep Finset.univ fun k : Fin 17 => roundState ER (Rd m) (kcell (c, k)) 0)
      ⊢ |={Set.univ}=> bigSep Finset.univ fun k : Fin 17 => iprop(∃ κ : ℕ, cellInv ER (Rd m) κ (kcell (c, k))) := by
  refine (sep_mono_left (show _ ⊢ (bigSep Finset.univ fun k : Fin 17 => semVal (kcell (c, k)) 0 : sProp 𝕄) from ?_)).trans ?_
  · unfold unscopedSems0 Pipeline.ownSems0
    rw [bigSep_eq_bigSepL_of_eq [SemLoc.reg barS] (by decide) (by decide), bigSep_fin17, bigSep_fin16]
    exact sep_comm.1
  · rw [← bigSep_sep']
    exact (bigSep_mono fun k _ => (Rounds.body_intro ER (Rd m) (kcell (c, k))).trans inv_alloc).trans (bigSep_fupd _ _)

theorem core_alloc (c : Dev nD) :
    iprop((Pipeline.ownSems0 osem c : sProp 𝕄) ∗ unscopedSems0 c ∗ G m c) ⊢ |={Set.univ}=> G₁ m c := by
  unfold G G₁
  iintro ⟨Hos, Hus, Hst, H⟩
  imod (cells_alloc m c) $$ [Hos Hus Hst] with Hinv
  · iframe
  imodintro
  iframe

def ringE (d : Fin 4) : Dev nD ≃ Dev nD := ⟨fwd d.val, bwd d.val, bwd_fwd d, fwd_bwd d⟩

-- Each index's summands may be taken around the ring by that index's own rotation: one bijection of the pairs.
theorem bigSep_rot {K : Type} [Fintype K] [DecidableEq K] (e : K → Dev nD ≃ Dev nD) (Φ : Dev nD → K → sProp 𝕄) :
    (bigSep Finset.univ fun c => bigSep Finset.univ fun k => Φ c k) = bigSep Finset.univ fun c => bigSep Finset.univ fun k => Φ (e k c) k :=
  (bigSep_univ_prod fun ck : Dev nD × K => Φ ck.1 ck.2).symm.trans
    ((bigSep_univ_equiv ((Equiv.prodComm _ _).trans ((Equiv.prodShear (Equiv.refl K) e).trans (Equiv.prodComm _ _))) _).trans
      (bigSep_univ_prod fun ck : Dev nD × K => Φ (e ck.2 ck.1) ck.2))

-- A barrier duty goes to the device that pays it, a landing token to the device that sends into the slot.
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_rot (fun e : Fin 3 => ringE ⟨e.val + 1, by omega⟩) _,
    bigSep_rot (fun k : Fin 6 => ringE ⟨dOf k, by have := k.isLt; show k.val / 2 + 1 < 4; omega⟩) _]
  exact .rfl

theorem regroup : (bigSep Finset.univ (G₁ m) : sProp 𝕄) ⊢ bigSep Finset.univ (G' m) := by
  unfold G₁; simp only [bigSep_sep']
  rw [← bigSep_univ_prod (fun ck : Dev nD × Fin 17 => iprop(∃ κ : ℕ, cellInv ER (Rd m) κ (kcell ck))),
    ← bigSep_univ_prod (fun ck : Dev nD × Fin 17 => (reached ER (kcell ck) 0 : sProp 𝕄))]
  iintro ⟨HI, ⟨Hat, #HR⟩, Htok⟩
  ihave ⟨%K, #HI⟩ := (BI.bigSep_exists_pi _ _) $$ HI
  ihave Htk := (toks_around (F := F)) $$ Htok
  iapply (bigSep_with_persistent (R := records m K) fun c _ => show _ ⊢ G' m c by unfold G' ghost; iintro H; iexists K; iexact H)
  isplitr
  · unfold records; iframe HI HR
  · unfold linear; rw [bigSep_sep']; iframe

theorem glob : (bigSep Finset.univ fun c => iprop((Pipeline.ownSems0 osem c : sProp 𝕄) ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

-- The ower of a tally on the device d places after it is, seen from device c, the device d places before c.
theorem launchCred_peel {A : Dev nD → CellTallies nD τ sig Unit} (sm : SemLoc sig) (d : ℕ) (hd : d < 4) {n : ℕ} {c : Dev nD} :
    (Pipeline.launchCred (fun x => A x + tallyAt (((fwd d x : Dev nD) : Thread nD τ), sm) () n) c : sProp 𝕄)
      ⊢ iprop(Pipeline.launchCred A c ∗ cred (tallyAt ((c : Thread nD τ), sm) () n)) := by
  rw [Pipeline.launchCred_add]
  exact sep_mono_right (Pipeline.launchCred_tallyAt sm (fwd d) (bwd d) (fwd_bwd ⟨d, hd⟩) (bwd_fwd ⟨d, hd⟩) () n c)

theorem cred_three (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  exact (sep_mono_right (cred_add _ _).2).trans (cred_add _ _).2

-- Summand by summand, last first: a barrier unit from each of the three devices before c, each landing cell's credit from its sender.
theorem creds_of (c : Dev nD) : (Pipeline.launchCred O₀ c : sProp 𝕄) ⊢ creds c := by
  unfold creds
  rw [bigSep_fin6]
  delta O₀
  iintro H
  ihave ⟨H, Hb1⟩ := (launchCred_peel (.reg barS) 1 (by decide)) $$ H
  ihave ⟨H, Hb2⟩ := (launchCred_peel (.reg barS) 2 (by decide)) $$ H
  ihave ⟨H, Hb3⟩ := (launchCred_peel (.reg barS) 3 (by decide)) $$ H
  ihave ⟨H, Hr2⟩ := (launchCred_peel (.dma (recvS 2)) 2 (by decide)) $$ H
  ihave ⟨H, Hr0⟩ := (launchCred_peel (.dma (recvS 0)) 1 (by decide)) $$ H
  ihave ⟨H, Hr4⟩ := (launchCred_peel (.dma (recvS 4)) 3 (by decide)) $$ H
  ihave ⟨H, Hr3⟩ := (launchCred_peel (.dma (recvS 3)) 2 (by decide)) $$ H
  ihave ⟨H, Hr1⟩ := (launchCred_peel (.dma (recvS 1)) 1 (by decide)) $$ H
  ihave Hr5 := (Pipeline.launchCred_tallyAt (.dma (recvS 5)) (fwd 3) (bwd 3) (fwd_bwd 3) (bwd_fwd 3) () N2 c) $$ H
  isplitl [Hb1 Hb2 Hb3]
  · iapply (cred_three (F := F) (barCell c)); iframe
  iframe

def X (c : Dev nD) : sProp 𝕄 :=
  iprop(start m c ∗ (((c : Thread nD τ).loc main_arg0) ↦{fullShare} m ((c : Thread nD τ).loc main_arg0))
    ∗ (((c : Thread nD τ).loc main_v1) ↦{fullShare} m ((c : Thread nD τ).loc main_v1)))
def Y (c : Dev nD) : sProp 𝕄 :=
  iprop((((c : Thread nD τ).loc main_arg0) ↦{fullShare} m ((c : Thread nD τ).loc main_arg0))
    ∗ (((c : Thread nD τ).loc main_v1) ↦{fullShare} (outAt m c : Vec F S4x256x128 .f32)))

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨H, Hlev, Hcr, -, HG⟩
  ihave Hc := (creds_of (F := F) c) $$ Hcr
  imodintro
  unfold X start G'
  iframe

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X
  iintro ⟨⟨Hs, Hx⟩, -, H⟩
  iframe

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq]
  unfold Φ₁ Y Pipeline.ownSems0
  iintro ⟨H, Hz, Hx⟩
  iframe

-- What a device owes at launch it owes to a landing cell or to a barrier cell.
theorem O₀_pos {c : Dev nD} {g : GSem nD τ sig} {u : Unit} (h : 0 < O₀ c g u) :
    (∃ d k, g = recvCell d k) ∨ (∃ d, g = barCell d) := by
  unfold O₀ at h
  repeat' (rcases Pipeline.add_pos_cases h with h | h)
  all_goals first
    | exact Or.inl ⟨_, _, (Pipeline.tallyAt_pos h).1⟩
    | exact Or.inr ⟨_, (Pipeline.tallyAt_pos h).1⟩

-- A cell that is neither a barrier nor a landing cell sits at level 0, below everything a device owes to.
theorem mayWait_stage (c : Dev nD) (q : DmaSem sig) (hq : ∀ k : Fin 6, (SemLoc.dma q : SemLoc sig) ≠ .dma (recvS k))
    (O : CellTallies nD τ sig Unit) (hO : ∀ g u, 0 < O g u → (∃ d k, g = recvCell d k) ∨ (∃ d, g = barCell d)) :
    (levAts L lv : sProp 𝕄) ⊢ MayWait (c : Thread nD τ) (.dma q) () O := by
  refine Pipeline.mayWait_of_levAts (by rw [L_tc]; exact Finset.mem_singleton_self _) fun g u hg => ?_
  cases u
  rw [show lv ((c : Thread nD τ), .dma q) () = 0 by unfold lv; rw [if_neg (fun h => by cases h), if_neg (fun ⟨k, hk⟩ => hq k hk)]]
  rcases hO g () hg with ⟨d, k, rfl⟩ | ⟨d, rfl⟩
  · exact ⟨by rw [L_tc]; exact Finset.mem_singleton_self _, by rw [lv_recv]; decide⟩
  · exact ⟨by rw [L_tc]; exact Finset.mem_singleton_self _, by rw [show lv (barCell d) () = 1 from if_pos rfl]; decide⟩

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact fun _ _ => O₀_pos
      · exact fun _ _ h => absurd h (Nat.lt_irrefl 0))

set_option maxRecDepth 8000 in
theorem run_main (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v1) = Cert.KernelIdeal.KD.outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave ⟨HP, HX⟩ := (ownU_pair _ _) $$ Hu
      imod (fund_ring m) $$ HX with HG
      imodintro
      iframe)
    (hglob := glob m)
    (hA := fun _ _ => rfl) (hpf := fun _ k => k.elim0)
    (X := X m) (Y := Y m) (Z := fun _ => iprop(emp))
    (hX := start_intro m ρ) (hin := phi0_intro m) (hout := phi1_exit m)
    (QY := fun c s => s.mem ((c : Thread nD τ).loc main_v1) = outAt m c
      ∧ s.mem ((c : Thread nD τ).loc main_arg0) = m ((c : Thread nD τ).loc main_arg0))
    (hY := fun c s' => by
      unfold Y
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun s h c => ⟨(h c).2.2.1, (h c).2.2.2,
      ((h c).1 0).trans ((dats m 0 c).arrAt_in 0 rfl _),
      ((h c).1 1).trans ((dats m 0 c).arrAt_in 1 rfl _),
      ((h c).1 2).trans ((dats m 0 c).arrAt_in 2 rfl _)⟩)

end Cert.KernelIdeal.KRun

end
-- ==== Proof.RefTerm.lean ====
import proofs.«900517_g7700000000000518_dist_diff_adaln_cshard_i_b4_s256_c128_v7x_i4_f32_1_alg».proof.ReferenceIdeal
import proofs.«900517_g7700000000000518_dist_diff_adaln_cshard_i_b4_s256_c128_v7x_i4_f32_1_alg».proof.Proof.Gen.ReferenceIdeal
import Idealize.ShloMosaic.PureOps.Ideal

noncomputable section

namespace Cert.ReferenceIdeal.HandRun

open Cert.ReferenceIdeal Cert.ReferenceIdeal.Gen
open Idealize.ShloMosaic Idealize.SL.Sem

/-- Each row's sum over its 512 columns (from zero) divided by the scalar d, as a column. -/
def rowDivT (y : FVec Ideal S4x256x512 .f32) (d : FVec Ideal S_ .f32) : FVec Ideal S4x256x1 .f32 :=
  Host.divf
    (broadcastInDim S4x256x1 ![0, 1] bcast_S4x256_S4x256x1_0_1
      (Host.reduceAdd y (constant (F := Ideal) S_ .f32 0x00000000#32) reducesTo_S4x256x512_S4x256_d2 h_S_))
    (broadcastInDim S4x256x1 ![] bcast_S_S4x256x1 d)

def meanT (x : FVec Ideal S4x256x512 .f32) : FVec Ideal S4x256x1 .f32 :=
  rowDivT x (constant (F := Ideal) S_ .f32 0x44000000#32)

/-- x minus its row mean. -/
def centT (x : FVec Ideal S4x256x512 .f32) : FVec Ideal S4x256x512 .f32 :=
  subf x (broadcastInDim S4x256x512 ![0, 1, 2] bcast_S4x256x1_S4x256x512_0_1_2 (meanT x))

def divisorT : FVec Ideal S_ .f32 :=
  subf (constant (F := Ideal) S_ .f32 0x44000000#32) (sitofp .f32 (constantI S_ 32 0#32))

/-- What the variance function returns: under the guard divisor > 0, the squared deviations' row sum over the divisor 512 - 0. -/
def varT (x : FVec Ideal S4x256x512 .f32) : FVec Ideal S4x256x1 .f32 :=
  select
    (broadcastInDim S4x256x1 ![] bcast_S_S4x256x1
      (cmpf .ogt divisorT (constant (F := Ideal) S_ .f32 0x00000000#32)))
    (rowDivT (mulf (centT x) (centT x)) divisorT)
    (broadcastInDim S4x256x1 ![] bcast_S_S4x256x1 (id (constant (F := Ideal) S_ .f32 0x7FC00000#32)))

def normT (x : FVec Ideal S4x256x512 .f32) : FVec Ideal S4x256x512 .f32 :=
  Host.divf (centT x)
    (broadcastInDim S4x256x512 ![0, 1, 2] bcast_S4x256x1_S4x256x512_0_1_2
      (Host.sqrt (addf (varT x)
        (broadcastInDim S4x256x1 ![] bcast_S_S4x256x1 (constant (F := Ideal) S_ .f32 0x3727C5AC#32)))))

/-- The product of t with a weight array, as one row for each batch entry. -/
def projT (t : FVec Ideal S4x128 .f32) (w : FVec Ideal S128x512 .f32) : FVec Ideal S4x1x512 .f32 :=
  broadcastInDim S4x1x512 ![0, 2] bcast_S4x512_S4x1x512_0_2
    (Host.dotGeneral dot_S4x128_S128x512_S4x512_1_0_0_1_n_n none t w)

/-- The reference's operations composed in program order. -/
def refOut (x : FVec Ideal S4x256x512 .f32) (t : FVec Ideal S4x128 .f32) (wsc wsh : FVec Ideal S128x512 .f32) :
    FVec Ideal S4x256x512 .f32 :=
  addf
    (mulf (normT x)
      (broadcastInDim S4x256x512 ![0, 1, 2] bcast_S4x1x512_S4x256x512_0_1_2
        (addf (broadcastInDim S4x1x512 ![] bcast_S_S4x1x512 (constant (F := Ideal) S_ .f32 0x3F800000#32)) (projT t wsc))))
    (broadcastInDim S4x256x512 ![0, 1, 2] bcast_S4x1x512_S4x256x512_0_1_2 (projT t wsh))

end Cert.ReferenceIdeal.HandRun

end
-- ==== Proof.RefRun.lean ====
import proofs.«900517_g7700000000000518_dist_diff_adaln_cshard_i_b4_s256_c128_v7x_i4_f32_1_alg».proof.Proof.RefTerm
import Idealize.ShloMosaic.Lib.StableHlo.Run

noncomputable section

namespace Cert.ReferenceIdeal.HandRun

open Cert.ReferenceIdeal Cert.ReferenceIdeal.Gen
open Idealize.ShloMosaic Idealize.ShloMosaic.TcCoe Idealize.SL.Sem Idealize.ShloMosaic.StableHlo

section Line

variable {F : FTy → Type} [FloatOps F]

/-- The operations of @main in program order, its two calls replaced by the callees' operations. -/
abbrev ops : List (HloOp τ sig (Elt F)) :=
  [ nullary main_cst (constant S_ .f32 0x00000000#32),
    binary main_arg0 main_cst main_v0 (fun x v => Host.reduceAdd x v reducesTo_S4x256x512_S4x256_d2 h_S_),
    unary main_v0 main_v1 (broadcastInDim S4x256x1 ![0, 1] bcast_S4x256_S4x256x1_0_1),
    nullary main_cst_0 (constant S_ .f32 0x44000000#32),
    unary main_cst_0 main_v2 (broadcastInDim S4x256x1 ![] bcast_S_S4x256x1),
    binary main_v1 main_v2 main_v3 Host.divf,
    nullary main_c (constantI S_ 32 0#32),
    TRef.nullary main_call0.cst (constant S_ .f32 0x00000000#32),
    TRef.binary (.of main_arg0) main_call0.cst main_call0.v0 (fun x v => Host.reduceAdd x v reducesTo_S4x256x512_S4x256_d2 h_S_),
    TRef.unary main_call0.v0 main_call0.v1 (broadcastInDim S4x256x1 ![0, 1] bcast_S4x256_S4x256x1_0_1),
    TRef.nullary main_call0.cst_0 (constant S_ .f32 0x44000000#32),
    TRef.unary main_call0.cst_0 main_call0.v2 (broadcastInDim S4x256x1 ![] bcast_S_S4x256x1),
    TRef.binary main_call0.v1 main_call0.v2 main_call0.v3 Host.divf,
    TRef.unary main_call0.v3 main_call0.v4 (broadcastInDim S4x256x512 ![0, 1, 2] bcast_S4x256x1_S4x256x512_0_1_2),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x44000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4x256x512_S4x256_d2 h_S_),
    TRef.unary main_call0.v9 main_call0.v10 (broadcastInDim S4x256x1 ![0, 1] bcast_S4x256_S4x256x1_0_1),
    TRef.unary main_call0.v8 main_call0.v11 (broadcastInDim S4x256x1 ![] bcast_S_S4x256x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S4x256x1 ![] bcast_S_S4x256x1),
    TRef.ternary main_call0.v13 main_call0.v12 main_call0.call0.v1 main_call0.call0.v2 (fun p a b => select (broadcastInDim S4x256x1 ![] bcast_S_S4x256x1 p) a b),
    unary main_v3 main_v5 (broadcastInDim S4x256x512 ![0, 1, 2] bcast_S4x256x1_S4x256x512_0_1_2),
    binary main_arg0 main_v5 main_v6 subf,
    nullary main_cst_1 (constant S_ .f32 0x3727C5AC#32),
    unary main_cst_1 main_v7 (broadcastInDim S4x256x1 ![] bcast_S_S4x256x1),
    binary main_v4 main_v7 main_v8 addf,
    unary main_v8 main_v9 Host.sqrt,
    unary main_v9 main_v10 (broadcastInDim S4x256x512 ![0, 1, 2] bcast_S4x256x1_S4x256x512_0_1_2),
    binary main_v6 main_v10 main_v11 Host.divf,
    binary main_arg1 main_arg2 main_v12 (fun l r => Host.dotGeneral dot_S4x128_S128x512_S4x512_1_0_0_1_n_n none l r),
    binary main_arg1 main_arg3 main_v13 (fun l r => Host.dotGeneral dot_S4x128_S128x512_S4x512_1_0_0_1_n_n none l r),
    unary main_v12 main_v14 (broadcastInDim S4x1x512 ![0, 2] bcast_S4x512_S4x1x512_0_2),
    nullary main_cst_2 (constant S_ .f32 0x3F800000#32),
    unary main_cst_2 main_v15 (broadcastInDim S4x1x512 ![] bcast_S_S4x1x512),
    binary main_v15 main_v14 main_v16 addf,
    unary main_v16 main_v17 (broadcastInDim S4x256x512 ![0, 1, 2] bcast_S4x1x512_S4x256x512_0_1_2),
    binary main_v11 main_v17 main_v18 mulf,
    unary main_v13 main_v19 (broadcastInDim S4x1x512 ![0, 2] bcast_S4x512_S4x1x512_0_2),
    unary main_v19 main_v20 (broadcastInDim S4x256x512 ![0, 1, 2] bcast_S4x1x512_S4x256x512_0_1_2),
    binary main_v18 main_v20 main_v21 addf ]

set_option maxRecDepth 1024 in
theorem main_eq (c : Dev nD) : main (F := F) c = seq ops := by
  simp only [main, fn_var.body, fn_where.body, seq, bind_assoc, pure_bind]
  rfl

theorem ops_sub : (ops : List (HloOp τ sig (Elt F))).Forall fun op => op.bufs ⊆ tcRefs τ sig := by
  simp only [List.Forall, nullary_bufs_sub, unary_bufs_sub, binary_bufs_sub, ternary_bufs_sub, and_self]

end Line

set_option maxRecDepth 8192 in
/-- The result buffer ends at the composed term of the arguments, which no operation overwrites. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono
    (fun _ h c => ⟨(h c main_v21).trans (by after_results_simp; rfl), (h c main_arg0).trans (by after_results_simp <;> rfl),
      (h c main_arg1).trans (by after_results_simp <;> rfl), (h c main_arg2).trans (by after_results_simp <;> rfl),
      (h c main_arg3).trans (by after_results_simp <;> rfl)⟩)
    (run_seq (by decide) (by decide) (defs (F := Ideal)) (main (F := Ideal)) (fun _ => ops) main_eq (fun _ => ops_sub) m ρ)

end Cert.ReferenceIdeal.HandRun

end
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

abbrev SX : Shape := ⟨3, ![4, 256, 512]⟩
abbrev ST : Shape := ⟨2, ![4, 128]⟩
abbrev SW : Shape := ⟨2, ![128, 512]⟩

/-- ε: 0x3727C5AC read as a single-precision number, about 1e-5. -/
def eps : EReal := Ideal.ofBits .f32 0x3727C5AC#32

def rowSum (x : SX.Idx → EReal) (b : Fin 4) (s : Fin 256) : EReal := ∑ j : Fin 512, x (ix3 b s j)

def mean (x : SX.Idx → EReal) (b : Fin 4) (s : Fin 256) : EReal := Ideal.div (rowSum x b s) (512 : EReal)

/-- The mean of the squared deviations from the row mean. -/
def var (x : SX.Idx → EReal) (b : Fin 4) (s : Fin 256) : EReal :=
  Ideal.div (∑ j : Fin 512, (x (ix3 b s j) - mean x b s) * (x (ix3 b s j) - mean x b s)) (512 : EReal)

def proj (t : ST.Idx → EReal) (w : SW.Idx → EReal) (b : Fin 4) (j : Fin 512) : EReal :=
  ∑ k : Fin 128, t (ix2 b k) * w (ix2 k j)

/-- The normalised entry, scaled by 1 + t·W_scale and shifted by t·W_shift. -/
def G (x : SX.Idx → EReal) (t : ST.Idx → EReal) (wsc wsh : SW.Idx → EReal) (b : Fin 4) (s : Fin 256) (j : Fin 512) : EReal :=
  Ideal.div (x (ix3 b s j) - mean x b s) (Ideal.sqrt (var x b s + eps)) * (1 + proj t wsc b j) + proj t wsh b j

def Garr (x : SX.Idx → EReal) (t : ST.Idx → EReal) (wsc wsh : SW.Idx → EReal) : SX.Idx → EReal :=
  fun i => G x t wsc wsh (i 0) (i 1) (i 2)

end Cert.Spec

end
-- ==== Proof.RefValue.lean ====
import proofs.«900517_g7700000000000518_dist_diff_adaln_cshard_i_b4_s256_c128_v7x_i4_f32_1_alg».proof.Proof.RefTerm
import proofs.«900517_g7700000000000518_dist_diff_adaln_cshard_i_b4_s256_c128_v7x_i4_f32_1_alg».proof.Proof.Spec
import Idealize.ShloMosaic.PureOps.Ideal.Laws
import Idealize.ShloMosaic.Lib.IdealHost
import Idealize.ShloMosaic.Lib.StackMember
import Idealize.ShloMosaic.Lib.Pipeline.Value

noncomputable section

namespace Cert.ReferenceIdeal.RefValue

open Cert.ReferenceIdeal Cert.ReferenceIdeal.Gen Cert.ReferenceIdeal.HandRun
open Idealize.ShloMosaic Idealize.ShloMosaic.ValueIdx
open scoped BigOperators

/-- The host's row sum starts from its initial value. -/
theorem reduce_row (h' : S4x256x512.ReducesTo [2] S4x256) (hu : 0 < S_.numel)
    (x : FVec Ideal S4x256x512 .f32) (init : FVec Ideal S_ .f32) (b : Fin 4) (s : Fin 256) :
    Host.reduceAdd (F := Ideal) x init h' hu (ix2 b s) = init ix0 + ∑ j : Fin 512, x (ix3 b s j) := by
  rw [hostReduceAdd_apply, Ideal.hostReduceAdd_single h' (by decide), eq_ix0 (Shape.Idx.first hu)]
  exact congrArg (init ix0 + ·) (Finset.sum_congr rfl fun j _ => congrArg x (funext fun a => by fin_cases a <;> rfl))

theorem bcast_keep {α : Type} (h : S4x256.BroadcastsInDim S4x256x1 (![0, 1] : Fin 2 → Fin S4x256x1.rank))
    (v : S4x256.Idx → α) (b : Fin 4) (s : Fin 256) (z : Fin 1) :
    broadcastInDim S4x256x1 ![0, 1] h v (ix3 b s z) = v (ix2 b s) :=
  broadcastInDim_apply _ h v _ _ fun a => by fin_cases a <;> rfl

theorem bcast_col {α : Type} (h : S4x256x1.BroadcastsInDim S4x256x512 (![0, 1, 2] : Fin 3 → Fin S4x256x512.rank))
    (v : S4x256x1.Idx → α) (b : Fin 4) (s : Fin 256) (j : Fin 512) :
    broadcastInDim S4x256x512 ![0, 1, 2] h v (ix3 b s j) = v (ix3 b s 0) :=
  broadcastInDim_apply _ h v _ _ fun a => by fin_cases a <;> rfl

theorem bcast_mid {α : Type} (h : S4x512.BroadcastsInDim S4x1x512 (![0, 2] : Fin 2 → Fin S4x1x512.rank))
    (v : S4x512.Idx → α) (b : Fin 4) (z : Fin 1) (j : Fin 512) :
    broadcastInDim S4x1x512 ![0, 2] h v (ix3 b z j) = v (ix2 b j) :=
  broadcastInDim_apply _ h v _ _ fun a => by fin_cases a <;> rfl

theorem bcast_row {α : Type} (h : S4x1x512.BroadcastsInDim S4x256x512 (![0, 1, 2] : Fin 3 → Fin S4x256x512.rank))
    (v : S4x1x512.Idx → α) (b : Fin 4) (s : Fin 256) (j : Fin 512) :
    broadcastInDim S4x256x512 ![0, 1, 2] h v (ix3 b s j) = v (ix3 b 0 j) :=
  broadcastInDim_apply _ h v _ _ fun a => by fin_cases a <;> rfl

theorem dot_row [Facts₀] (t : FVec Ideal S4x128 .f32) (w : FVec Ideal S128x512 .f32) (b : Fin 4) (j : Fin 512) :
    Host.dotGeneral (F := Ideal) dot_S4x128_S128x512_S4x512_1_0_0_1_n_n none t w (ix2 b j)
      = ∑ k : Fin 128, t (ix2 b k) * w (ix2 k j) :=
  StackMember.dotGeneral_plain_apply (m := 4) (n := 512) (k := 128) none t w b j

theorem ofBits_512 : Ideal.ofBits .f32 0x44000000#32 = (512 : EReal) := by
  rw [show (512 : EReal) = ((512 : ℝ) : EReal) by norm_cast]
  simp [Ideal.ofBits, Ideal.ieee, -EReal.coe_mul]; norm_num

theorem hostSqrt_apply {sh : Shape} {φ : FTy} (a : FVec Ideal sh φ) (i : sh.Idx) : Host.sqrt a i = Ideal.sqrt (a i) := rfl

theorem cmp_512_gt : FloatOps.cmpf (F := Ideal) (φ := .f32) .ogt (512 : EReal) (0 : EReal) = 1#1 := by
  have h : (0 : EReal) < 512 := by exact_mod_cast (by norm_num : (0 : ℝ) < 512)
  show BitVec.ofBool (decide ((0 : EReal) < 512)) = 1#1
  simp [h]

theorem rowDivT_apply (y : FVec Ideal S4x256x512 .f32) (d : FVec Ideal S_ .f32) (b : Fin 4) (s : Fin 256) (z : Fin 1) :
    rowDivT y d (ix3 b s z) = Ideal.div (∑ j : Fin 512, y (ix3 b s j)) (d ix0) := by
  unfold rowDivT
  rw [hostDivf_apply, bcast_keep, reduce_row, broadcastInDim_scalar_apply, constant_apply, Ideal.ofBits_zero_f32, zero_add]

theorem meanT_apply (x : FVec Ideal S4x256x512 .f32) (b : Fin 4) (s : Fin 256) (z : Fin 1) :
    meanT x (ix3 b s z) = Cert.Spec.mean x b s := by
  unfold meanT
  rw [rowDivT_apply, constant_apply, ofBits_512]
  rfl

theorem centT_apply (x : FVec Ideal S4x256x512 .f32) (b : Fin 4) (s : Fin 256) (j : Fin 512) :
    centT x (ix3 b s j) = x (ix3 b s j) - Cert.Spec.mean x b s := by
  unfold centT
  rw [subf_apply, bcast_col, meanT_apply]

/-- The integer 0 converts to 0, so the divisor is 512. -/
theorem divisorT_apply : divisorT ix0 = (512 : EReal) := by
  unfold divisorT
  rw [subf_apply, constant_apply, sitofp_apply, ofBits_512]
  show (512 : EReal) - (((0#32 : BitVec 32).toInt : ℝ) : EReal) = 512
  simp

/-- Since 512 > 0 the selection keeps the quotient, never the not-a-number constant. -/
theorem varT_apply (x : FVec Ideal S4x256x512 .f32) (b : Fin 4) (s : Fin 256) (z : Fin 1) :
    varT x (ix3 b s z) = Cert.Spec.var x b s := by
  unfold varT
  rw [select_apply, broadcastInDim_scalar_apply, cmpf_apply, divisorT_apply, constant_apply, Ideal.ofBits_zero_f32,
    cmp_512_gt, select_one, rowDivT_apply, divisorT_apply]
  simp only [mulf_apply, centT_apply]
  rfl

theorem refOut_eq (x : FVec Ideal S4x256x512 .f32) (t : FVec Ideal S4x128 .f32) (wsc wsh : FVec Ideal S128x512 .f32) :
    Cert.ReferenceIdeal.HandRun.refOut x t wsc wsh = Cert.Spec.Garr x t wsc wsh := by
  funext i
  obtain ⟨b, s, j, rfl⟩ : ∃ (b : Fin 4) (s : Fin 256) (j : Fin 512), i = ix3 b s j := ⟨i 0, i 1, i 2, eq_ix3 i⟩
  unfold refOut normT projT
  rw [addf_apply, mulf_apply, hostDivf_apply, centT_apply, bcast_col, hostSqrt_apply, addf_apply, varT_apply,
    broadcastInDim_scalar_apply, constant_apply, bcast_row, addf_apply, broadcastInDim_scalar_apply, constant_apply,
    Ideal.ofBits_one_f32, bcast_mid, dot_row, bcast_row, bcast_mid, dot_row]
  rfl

end Cert.ReferenceIdeal.RefValue

end
-- ==== Proof.Algebra.lean ====
import proofs.«900517_g7700000000000518_dist_diff_adaln_cshard_i_b4_s256_c128_v7x_i4_f32_1_alg».proof.Proof.Spec

noncomputable section

namespace Cert.Spec

open Idealize.ShloMosaic Idealize.ShloMosaic.ValueIdx
open scoped BigOperators

/-- No entry is -∞ or +∞. -/
def Finite {S : Shape} (x : S.Idx → EReal) : Prop := ∀ i, ∃ r : ℝ, x i = (r : EReal)

/-- 2⁻⁹ = 1/512: the kernel multiplies by it where the specification divides by 512. -/
def c512 : EReal := Ideal.ofBits .f32 0x3B000000#32

/-- What the kernel computes at an entry xv from the row's sum S1 and sum of squares S2, with gain g and shift sh. -/
def Gk (S1 S2 xv g sh : EReal) : EReal :=
  (xv - S1 * c512) * Ideal.rsqrt (S2 * c512 - (S1 * c512) * (S1 * c512) + eps) * g + sh

def rowSq (x : SX.Idx → EReal) (b : Fin 4) (s : Fin 256) : EReal := ∑ j : Fin 512, x (ix3 b s j) * x (ix3 b s j)

theorem c512_eq : c512 = ((1 / 512 : ℝ) : EReal) := by
  simp [c512, Ideal.ofBits, Ideal.ieee, -EReal.coe_mul]; norm_num

theorem eps_pos : ∃ e : ℝ, 0 < e ∧ eps = (e : EReal) := by
  refine ⟨10995116 * (2 : ℝ) ^ (-40 : ℤ), by positivity, ?_⟩
  simp [eps, Ideal.ofBits, Ideal.ieee, -EReal.coe_mul]

theorem ereal_512 : (512 : EReal) = ((512 : ℝ) : EReal) := by norm_cast

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Expanding the square under the sum: the cross terms add to -2 · 512 μ² and the constants to 512 μ². -/
theorem var_forms (f : Fin 512 → ℝ) :
    (∑ j, (f j - (∑ k, f k) * (1 / 512)) * (f j - (∑ k, f k) * (1 / 512))) * (1 / 512)
      = (∑ j, f j * f j) * (1 / 512) - ((∑ k, f k) * (1 / 512)) * ((∑ k, f k) * (1 / 512)) := by
  have h : ∀ j, (f j - (∑ k, f k) * (1 / 512)) * (f j - (∑ k, f k) * (1 / 512))
      = f j * f j - (2 * ((∑ k, f k) * (1 / 512))) * f j
        + ((∑ k, f k) * (1 / 512)) * ((∑ k, f k) * (1 / 512)) := fun j => by ring
  rw [Finset.sum_congr rfl (fun j _ => h j), Finset.sum_add_distrib, Finset.sum_sub_distrib, ← Finset.mul_sum,
    Finset.sum_const, Finset.card_univ, Fintype.card_fin, nsmul_eq_mul]
  push_cast
  ring

/-- On a real row E[x²] - E[x]² is the centred variance, so σ² + ε > 0 and the reciprocal root is the root's inverse; g and sh enter both forms alike. -/
theorem Gk_eq_G (x : SX.Idx → EReal) (t : ST.Idx → EReal) (wsc wsh : SW.Idx → EReal)
    (hx : Finite x) (b : Fin 4) (s : Fin 256) (j : Fin 512) :
    Gk (rowSum x b s) (rowSq x b s) (x (ix3 b s j)) (1 + proj t wsc b j) (proj t wsh b j) = G x t wsc wsh b s j := by
  choose xr hxr using hx
  obtain ⟨e, he, hee⟩ := eps_pos
  let f : Fin 512 → ℝ := fun k => xr (ix3 b s k)
  have hf : ∀ k : Fin 512, x (ix3 b s k) = (f k : EReal) := fun k => hxr _
  have hS1 : rowSum x b s = ((∑ k, f k : ℝ) : EReal) := by
    rw [rowSum, coe_sum]; exact Finset.sum_congr rfl (fun k _ => hf k)
  have hS2 : rowSq x b s = ((∑ k, f k * f k : ℝ) : EReal) := by
    rw [rowSq, coe_sum]; exact Finset.sum_congr rfl (fun k _ => by rw [hf k, EReal.coe_mul])
  have hmean : mean x b s = (((∑ k, f k) * (1 / 512) : ℝ) : EReal) := by
    rw [mean, hS1, ereal_512, Ideal.div_coe (by norm_num), ← EReal.coe_mul]
  have hvar : var x b s
      = (((∑ k, f k * f k) * (1 / 512) - ((∑ k, f k) * (1 / 512)) * ((∑ k, f k) * (1 / 512)) : ℝ) : EReal) := by
    have hsum : (∑ k : Fin 512, (x (ix3 b s k) - mean x b s) * (x (ix3 b s k) - mean x b s))
        = ((∑ k, (f k - (∑ k, f k) * (1 / 512)) * (f k - (∑ k, f k) * (1 / 512)) : ℝ) : EReal) := by
      rw [coe_sum]
      exact Finset.sum_congr rfl (fun k _ => by rw [hf k, hmean, ← EReal.coe_sub, ← EReal.coe_mul])
    rw [var, hsum, ereal_512, Ideal.div_coe (by norm_num), ← EReal.coe_mul, var_forms]
  have hpos : 0 < (∑ k, f k * f k) * (1 / 512) - ((∑ k, f k) * (1 / 512)) * ((∑ k, f k) * (1 / 512)) + e := by
    rw [← var_forms]
    exact add_pos_of_nonneg_of_pos (mul_nonneg (Finset.sum_nonneg fun k _ => mul_self_nonneg _) (by norm_num)) he
  unfold Gk G
  refine congrArg (fun a => a * (1 + proj t wsc b j) + proj t wsh b j) ?_
  rw [hS1, hS2, hf j, hmean, hvar, hee, c512_eq]
  simp only [← EReal.coe_mul, ← EReal.coe_sub, ← EReal.coe_add]
  rw [Ideal.rsqrt_coe, if_neg (not_lt.mpr hpos.le), if_neg hpos.ne', Ideal.sqrt_coe, if_neg (not_lt.mpr hpos.le),
    Ideal.div_coe (Real.sqrt_pos.mpr hpos).ne']
  simp only [one_div]

end Cert.Spec

end
-- ==== Proof.KPay.lean ====
import proofs.«900517_g7700000000000518_dist_diff_adaln_cshard_i_b4_s256_c128_v7x_i4_f32_1_alg».proof.Proof.KernelIdealData
import proofs.«900517_g7700000000000518_dist_diff_adaln_cshard_i_b4_s256_c128_v7x_i4_f32_1_alg».proof.Proof.Algebra
import Idealize.ShloMosaic.Lib.ValueLayout
import Idealize.ShloMosaic.Lib.KernelVsHost
import Idealize.ShloMosaic.Lib.StackMember
import Idealize.ShloMosaic.Lib.IdealHost

noncomputable section

namespace Cert.KernelIdeal.KPay

open Cert.KernelIdeal Cert.KernelIdeal.Gen
open Idealize.ShloMosaic Idealize.ShloMosaic.ValueIdx Idealize.SL.Sem
open scoped BigOperators

/-- A product into the zero accumulator is the plain product of a 4×128 by a 128×128 matrix. -/
theorem pay7_apply (t : FVec Ideal S4x128 .f32) (w : FVec Ideal S128x128 .f32) (b : Fin 4) (j : Fin 128) :
    k0_pay7 (F := Ideal) t w (ix2 b j) = ∑ k : Fin 128, t (ix2 b k) * w (ix2 k j) := by
  unfold k0_pay7 k0_pay6
  rw [shapeCast_self, shapeCast_self, matmul_zero_eq_dotGeneral]
  exact StackMember.dotGeneral_plain_apply (m := 4) (n := 128) (k := 128) none t w b j

theorem pay8_apply (t : FVec Ideal S4x128 .f32) (w : FVec Ideal S128x128 .f32) (b : Fin 4) (j : Fin 128) :
    k0_pay8 (F := Ideal) t w (ix2 b j) = 1 + ∑ k : Fin 128, t (ix2 b k) * w (ix2 k j) := by
  show Ideal.ofBits .f32 0x3F800000#32 + k0_pay7 (F := Ideal) t w (ix2 b j) = _
  rw [pay7_apply, Ideal.ofBits_one_f32]

section Layout
variable {α : Type}

/-- A [4, 128] array as a column [4, 128, 1] spread over the 128 lanes. -/
theorem col_apply (v : S4x128.Idx → α) (h : S4x128.ShapeCasts S4x128x1) (h' : S4x128x1.Broadcasts S4x128x128)
    (b : Fin 4) (s j : Fin 128) : broadcastTo S4x128x128 (shapeCast S4x128x1 v h) h' (ix3 b s j) = v (ix2 b s) :=
  (broadcastTo_apply _ h' _ (ix3 b s (0 : Fin 1)) fun ax => by fin_cases ax <;> rfl).trans
    (shapeCast_apply v h _ _ (by
      rw [Shape.rowMajor_val_three, Shape.rowMajor_val_two]
      show b.val * 128 + s.val = (b.val * 128 + s.val) * 1 + 0
      omega))

/-- A [4, 128] array as a row [4, 1, 128] spread over the 128 rows. -/
theorem row_apply (v : S4x128.Idx → α) (h : S4x128.ShapeCasts S4x1x128) (h' : S4x1x128.Broadcasts S4x128x128)
    (b : Fin 4) (s j : Fin 128) : broadcastTo S4x128x128 (shapeCast S4x1x128 v h) h' (ix3 b s j) = v (ix2 b j) :=
  (broadcastTo_apply _ h' _ (ix3 b (0 : Fin 1) j) fun ax => by fin_cases ax <;> rfl).trans
    (shapeCast_apply v h _ _ (by
      rw [Shape.rowMajor_val_three, Shape.rowMajor_val_two]
      show b.val * 128 + j.val = (b.val * 1 + 0) * 128 + j.val
      omega))

theorem slice_row_apply (o : Nat) (v : S2x4x128.Idx → α) (h : S2x4x128.Slices ![o, 0, 0] S1x4x128) (r : Fin 2) (hr : r.val = o)
    (u : Fin 1) (b : Fin 4) (s : Fin 128) :
    extractStridedSlice S1x4x128 ![o, 0, 0] v h (ix3 u b s) = v (ix3 r b s) :=
  extractStridedSlice_apply _ v h _ _ (fun ax => by
    have hu : u.val = 0 := by omega
    match ax with
    | ⟨0, _⟩ => show r.val = o + u.val; omega
    | ⟨1, _⟩ => exact (Nat.zero_add _).symm
    | ⟨2, _⟩ => exact (Nat.zero_add _).symm)

end Layout

/-- A device's row sums: the sum over the last axis of its [4, 128, 128] rows, stored as [1, 1, 4, 128]. -/
theorem pay1_apply (x0 : FVec Ideal S4x128x128 .f32) (u w : Fin 1) (b : Fin 4) (s : Fin 128) :
    k0_pay1 (F := Ideal) x0 (ix4 u w b s) = ∑ j : Fin 128, x0 (ix3 b s j) := by
  refine (shapeCast_apply _ _ _ (ix2 b s) ?_).trans ((Ideal.multiReduction_add_single x0 _ _ _ _ (ix2 b s)).trans
    (Finset.sum_congr rfl fun j _ => congrArg x0 (funext fun a => by fin_cases a <;> rfl)))
  have hu : u.val = 0 := by omega
  have hw : w.val = 0 := by omega
  rw [Shape.rowMajor_val_four, Shape.rowMajor_val_two]
  show b.val * 128 + s.val = ((u.val * 1 + w.val) * 4 + b.val) * 128 + s.val
  omega

/-- Four devices' pairs added in the kernel's order, at row r of the pair. -/
def sum4 (a0 a1 a2 a3 : FVec Ideal S1x2x4x128 .f32) (r : Fin 2) (b : Fin 4) (s : Fin 128) : EReal :=
  a0 (ix4 (0 : Fin 1) r b s) + a1 (ix4 (0 : Fin 1) r b s) + a2 (ix4 (0 : Fin 1) r b s) + a3 (ix4 (0 : Fin 1) r b s)

theorem rsqrt_apply {s : Shape} (x : FVec Ideal s .f32) (i : s.Idx) : rsqrt x i = Ideal.rsqrt (x i) := rfl

/-- A half's result rows from the four pairs: the kernel's form of the result. -/
theorem half_form (sh g : FVec Ideal S4x128 .f32) (a0 a1 a2 a3 : FVec Ideal S1x2x4x128 .f32)
    (x0 : FVec Ideal S4x128x128 .f32) (u : Fin 1) (b : Fin 4) (s j : Fin 128) :
    k0_pay11 (F := Ideal) sh g (k0_pay9 a0 a1 a2 a3) (k0_pay10 a0 a1 a2 a3) x0 (ix4 u b s j)
      = Cert.Spec.Gk (sum4 a0 a1 a2 a3 0 b s) (sum4 a0 a1 a2 a3 1 b s) (x0 (ix3 b s j)) (g (ix2 b j)) (sh (ix2 b j)) := by
  unfold k0_pay11 k0_pay10 k0_pay9
  simp only [shapeCast_abc_1abc_apply, addf_apply, mulf_apply, subf_apply, rsqrt_apply, broadcast_apply,
    row_apply, col_apply, shapeCast_1ab_ab_apply,
    slice_row_apply 1 _ _ (1 : Fin 2) rfl, slice_row_apply 0 _ _ (0 : Fin 2) rfl, shapeCast_1abc_abc_apply]
  rfl

end Cert.KernelIdeal.KPay

end
-- ==== Proof.KFinite.lean ====
import proofs.«900517_g7700000000000518_dist_diff_adaln_cshard_i_b4_s256_c128_v7x_i4_f32_1_alg».proof.Defs
import proofs.«900517_g7700000000000518_dist_diff_adaln_cshard_i_b4_s256_c128_v7x_i4_f32_1_alg».proof.Proof.Gen.KernelIdeal
import proofs.«900517_g7700000000000518_dist_diff_adaln_cshard_i_b4_s256_c128_v7x_i4_f32_1_alg».proof.Proof.Gen.Pre_finite_inputs_Kernel
import proofs.«900517_g7700000000000518_dist_diff_adaln_cshard_i_b4_s256_c128_v7x_i4_f32_1_alg».proof.Proof.Algebra
import Idealize.ShloMosaic.Lib.ReduceAll

noncomputable section

namespace Cert.KernelIdeal.KFinite

open Cert.KernelIdeal Cert.KernelIdeal.Gen
open Idealize.ShloMosaic Idealize.ShloMosaic.TcCoe Idealize.ShloMosaic.ValueIdx Idealize.SL.Sem

instance : Subsingleton (⟨0, ![]⟩ : Shape).Idx := ⟨fun _ _ => funext fun d => d.elim0⟩

/-- max(x, -x) < +∞ rules out both infinities. -/
theorem real_of_abs_lt (x : EReal)
    (h : Ideal.cmp .olt (max x (-x)) (Ideal.ofBits .f32 0x7F800000#32) = 1#1) : ∃ r : ℝ, x = (r : EReal) := by
  rw [show Ideal.ofBits .f32 0x7F800000#32 = (⊤ : EReal) by simp [Ideal.ofBits, Ideal.ieee]] at h
  induction x using EReal.rec with
  | bot => simp [Ideal.cmp] at h
  | coe r => exact ⟨r, rfl⟩
  | top => simp [Ideal.cmp] at h

/-- Euclidean division by 128 splits a column of the whole x into a block and a column inside it. -/
theorem cover3 (h : Layout.Tiles ⟨3, ![4, 256, 128]⟩ ⟨3, ![4, 256, 512]⟩ 2 4) (i : (⟨3, ![4, 256, 512]⟩ : Shape).Idx) :
    ∃ (c : Fin 4) (i' : (⟨3, ![4, 256, 128]⟩ : Shape).Idx), h.idx c i' = i := by
  have h2 : (i 2).val < 512 := (i 2).isLt
  refine ⟨⟨(i 2).val / 128, by omega⟩, ix3 (i 0) (i 1) ⟨(i 2).val % 128, Nat.mod_lt _ (by norm_num)⟩, ?_⟩
  funext d
  apply Fin.ext
  fin_cases d
  · rfl
  · rfl
  · show (i 2).val / 128 * 128 + (i 2).val % 128 = (i 2).val; omega

/-- How the whole arrays are dealt to the devices: x and the weights by column blocks, t to every device. -/
def Blk (m : (ℓ : Loc nD τ sig) → Buf (Elt Ideal) ℓ)
    (X : FVec Ideal ⟨3, ![4, 256, 512]⟩ .f32) (T : FVec Ideal ⟨2, ![4, 128]⟩ .f32) (Wsc Wsh : FVec Ideal ⟨2, ![128, 512]⟩ .f32) : Prop :=
  ∀ c : Dev nD,
    m ((c.tc : Thread nD τ).loc main_arg0) = Layout.block ⟨3, ![4, 256, 128]⟩ ⟨3, ![4, 256, 512]⟩ 2 4 c X
    ∧ m ((c.tc : Thread nD τ).loc main_arg1) = T
    ∧ m ((c.tc : Thread nD τ).loc main_arg2) = Layout.block ⟨2, ![128, 128]⟩ ⟨2, ![128, 512]⟩ 1 4 c Wsc
    ∧ m ((c.tc : Thread nD τ).loc main_arg3) = Layout.block ⟨2, ![128, 128]⟩ ⟨2, ![128, 512]⟩ 1 4 c Wsh

/-- An entry of x lies in the block that holds its column, and the precondition's first conjunct bounds every entry of that block. -/
theorem finite_of_pre {m : (ℓ : Loc nD τ sig) → Buf (Elt Ideal) ℓ}
    {X : FVec Ideal ⟨3, ![4, 256, 512]⟩ .f32} {T : FVec Ideal ⟨2, ![4, 128]⟩ .f32} {Wsc Wsh : FVec Ideal ⟨2, ![128, 512]⟩ .f32}
    (hblk : Blk m X T Wsc Wsh) (hpre : Cert.Pre_KernelIdeal m) : Cert.Spec.Finite X := fun i => by
  obtain ⟨c, i', rfl⟩ := cover3 (by decide) i
  have h0 := congrFun (hpre c) ix0
  dsimp only [Cert.Pre_finite_inputs_Kernel.fn, Cert.Pre_finite_inputs_Kernel.fn_part1, andi] at h0
  obtain ⟨r, hr⟩ := real_of_abs_lt _
    (Host.reduce_andi_all _ _ _ _ ix0 (IntOp.andi_eq_one.1 (IntOp.andi_eq_one.1 (IntOp.andi_eq_one.1 h0).1).1).1 i')
  exact ⟨r, (congrFun (hblk c).1 i').symm.trans hr⟩

end Cert.KernelIdeal.KFinite

end
-- ==== Proof.KBlocks.lean ====
import proofs.«900517_g7700000000000518_dist_diff_adaln_cshard_i_b4_s256_c128_v7x_i4_f32_1_alg».proof.Proof.KPay
import proofs.«900517_g7700000000000518_dist_diff_adaln_cshard_i_b4_s256_c128_v7x_i4_f32_1_alg».proof.Proof.KFinite

noncomputable section

namespace Cert.KernelIdeal.KBlocks

open Cert.KernelIdeal Cert.KernelIdeal.Gen
open Idealize.ShloMosaic Idealize.ShloMosaic.TcCoe Idealize.ShloMosaic.ValueIdx Idealize.SL.Sem
open scoped BigOperators

/-- 512 = 4 · 128: the columns are summed block by block. -/
theorem sum_512 {M : Type*} [AddCommMonoid M] (f : Fin 512 → M) :
    ∑ j : Fin 512, f j
      = ∑ c : Fin 4, ∑ j : Fin 128, f ⟨c.val * 128 + j.val, by have := c.isLt; have := j.isLt; omega⟩ := by
  have h := Equiv.sum_comp (finProdFinEquiv (m := 4) (n := 128)) (f : Fin (4 * 128) → M)
  refine (show ∑ j : Fin 512, f j = ∑ i : Fin 4 × Fin 128, f (finProdFinEquiv i) from h.symm).trans ?_
  rw [Fintype.sum_prod_type]
  refine Finset.sum_congr rfl fun c _ => Finset.sum_congr rfl fun j _ => congrArg f (Fin.ext ?_)
  show j.val + 128 * c.val = c.val * 128 + j.val
  omega

/-- Stepping back 0, 1, 2 and 3 places from c on the ring of four meets every device once. -/
theorem ring_sum {M : Type*} [AddCommMonoid M] (F : Dev nD → M) (c : Dev nD) :
    F c + F (KD.bwd 1 c) + F (KD.bwd 2 c) + F (KD.bwd 3 c) = ∑ c' : Fin 4, F c' := by
  rw [Fin.sum_univ_four]
  fin_cases c
  · show F 0 + F 3 + F 2 + F 1 = _; abel
  · show F 1 + F 0 + F 3 + F 2 = _; abel
  · show F 2 + F 1 + F 0 + F 3 = _; abel
  · show F 3 + F 2 + F 1 + F 0 = _; abel

def row (h : Fin 2) (s : Fin 128) : Fin 256 := ⟨128 * h.val + s.val, by have := h.isLt; have := s.isLt; omega⟩
def col (c : Dev nD) (j : Fin 128) : Fin 512 := ⟨c.val * 128 + j.val, by have h : c.val < 4 := c.isLt; have := j.isLt; omega⟩

theorem idx3 (ht : Layout.Tiles ⟨3, ![4, 256, 128]⟩ ⟨3, ![4, 256, 512]⟩ 2 4) (c : Dev nD) (b : Fin 4) (r : Fin 256) (j : Fin 128) :
    ht.idx c (ix3 b r j) = ix3 b r (col c j) := funext fun a => Fin.ext (by fin_cases a <;> rfl)

theorem idx2 (ht : Layout.Tiles ⟨2, ![128, 128]⟩ ⟨2, ![128, 512]⟩ 1 4) (c : Dev nD) (k j : Fin 128) :
    ht.idx c (ix2 k j) = ix2 k (col c j) := funext fun a => Fin.ext (by fin_cases a <;> rfl)

/-- The entry (r = 0) or its square (r = 1): what the two rows of a device's pair sum. -/
def pw (r : Fin 2) (v : EReal) : EReal := if r.val = 0 then v else v * v

variable {m : (ℓ : Loc nD τ sig) → Buf (Elt Ideal) ℓ}
  {X : FVec Ideal ⟨3, ![4, 256, 512]⟩ .f32} {T : FVec Ideal ⟨2, ![4, 128]⟩ .f32} {Wsc Wsh : FVec Ideal ⟨2, ![128, 512]⟩ .f32}

theorem stat_apply (h : Fin 2) (c : Dev nD) (u : Fin 1) (r : Fin 2) (b : Fin 4) (s : Fin 128) :
    KD.stat m h c (ix4 u r b s) = ∑ j : Fin 128, pw r (KD.xh m h c (ix3 b s j)) := by
  fin_cases h <;> fin_cases r
  · exact KPay.pay1_apply (KD.xh m 0 c) 0 0 b s
  · exact KPay.pay1_apply (mulf (KD.xh m 0 c) (KD.xh m 0 c)) 0 0 b s
  · exact KPay.pay1_apply (KD.xh m 1 c) 0 0 b s
  · exact KPay.pay1_apply (mulf (KD.xh m 1 c) (KD.xh m 1 c)) 0 0 b s

variable (hblk : KFinite.Blk m X T Wsc Wsh)
include hblk

theorem xh_apply (h : Fin 2) (c : Dev nD) (b : Fin 4) (s j : Fin 128) :
    KD.xh m h c (ix3 b s j) = X (ix3 b (row h s) (col c j)) := by
  show m ((c.tc : Thread nD τ).loc main_arg0) (ix3 b (row h s) j) = _
  rw [(hblk c).1, Layout.block_apply, idx3]

theorem w_apply (c : Dev nD) (k j : Fin 128) :
    KD.wscA m c (ix2 k j) = Wsc (ix2 k (col c j)) ∧ KD.wshA m c (ix2 k j) = Wsh (ix2 k (col c j)) := by
  constructor
  · show m ((c.tc : Thread nD τ).loc main_arg2) (ix2 k j) = _
    rw [(hblk c).2.2.1, Layout.block_apply, idx2]
  · show m ((c.tc : Thread nD τ).loc main_arg3) (ix2 k j) = _
    rw [(hblk c).2.2.2, Layout.block_apply, idx2]

/-- Added round the ring from c, the devices' partial sums make the whole row's sum (r = 0) or sum of squares (r = 1). -/
theorem totals (h : Fin 2) (c : Dev nD) (r : Fin 2) (b : Fin 4) (s : Fin 128) :
    KPay.sum4 (KD.stat m h c) (KD.stat m h (KD.bwd 1 c)) (KD.stat m h (KD.bwd 2 c)) (KD.stat m h (KD.bwd 3 c)) r b s
      = ∑ j : Fin 512, pw r (X (ix3 b (row h s) j)) := by
  refine (ring_sum (fun c' => (KD.stat m h c' (ix4 (0 : Fin 1) r b s) : EReal)) c).trans ?_
  rw [sum_512]
  exact Finset.sum_congr rfl fun c' _ => (stat_apply h c' 0 r b s).trans
    (Finset.sum_congr rfl fun j _ => congrArg (pw r) (xh_apply hblk h c' b s j))

/-- A device multiplies t by its own column block of each weight array. -/
theorem proj_apply (c : Dev nD) (b : Fin 4) (j : Fin 128) :
    KD.gainv m c (ix2 b j) = 1 + Cert.Spec.proj T Wsc b (col c j) ∧ KD.shiftv m c (ix2 b j) = Cert.Spec.proj T Wsh b (col c j) := by
  constructor
  · refine (KPay.pay8_apply _ _ b j).trans (congrArg (1 + ·) (Finset.sum_congr rfl fun k _ => ?_))
    rw [show KD.tA m c = T from (hblk c).2.1, (w_apply hblk c k j).1]
  · refine (KPay.pay7_apply _ _ b j).trans (Finset.sum_congr rfl fun k _ => ?_)
    rw [show KD.tA m c = T from (hblk c).2.1, (w_apply hblk c k j).2]

/-- What device c stores for half h is the specification's entry at row R = 128h + s of its column block. -/
theorem half_eq (hpre : Cert.Pre_KernelIdeal m) (h : Fin 2) (c : Dev nD) (u : Fin 1) (b : Fin 4) (s j : Fin 128)
    (R : Fin 256) (hR : R.val = 128 * h.val + s.val) :
    k0_pay11 (KD.shiftv m c) (KD.gainv m c)
        (k0_pay9 (KD.stat m h c) (KD.stat m h (KD.bwd 1 c)) (KD.stat m h (KD.bwd 2 c)) (KD.stat m h (KD.bwd 3 c)))
        (k0_pay10 (KD.stat m h c) (KD.stat m h (KD.bwd 1 c)) (KD.stat m h (KD.bwd 2 c)) (KD.stat m h (KD.bwd 3 c)))
        (KD.xh m h c) (ix4 u b s j)
      = Cert.Spec.G X T Wsc Wsh b R (col c j) := by
  obtain rfl : R = row h s := Fin.ext hR
  rw [KPay.half_form, totals hblk, totals hblk, xh_apply hblk, (proj_apply hblk c b j).1, (proj_apply hblk c b j).2]
  exact Cert.Spec.Gk_eq_G X T Wsc Wsh (KFinite.finite_of_pre hblk hpre) b (row h s) (col c j)

end Cert.KernelIdeal.KBlocks

end
-- ==== Proof.KValue.lean ====
import proofs.«900517_g7700000000000518_dist_diff_adaln_cshard_i_b4_s256_c128_v7x_i4_f32_1_alg».proof.Proof.KBlocks

noncomputable section

namespace Cert.KernelIdeal.KValue

open Cert.KernelIdeal Cert.KernelIdeal.Gen
open Idealize.ShloMosaic Idealize.ShloMosaic.TcCoe Idealize.ShloMosaic.ValueIdx Idealize.SL.Sem

/-- Each row lies in one of the two halves, and in either half the stored rows are the specification's. -/
theorem outAt_eq (m : (ℓ : Loc nD τ sig) → Buf (Elt Ideal) ℓ)
    (X : FVec Ideal ⟨3, ![4, 256, 512]⟩ .f32) (T : FVec Ideal ⟨2, ![4, 128]⟩ .f32) (Wsc Wsh : FVec Ideal ⟨2, ![128, 512]⟩ .f32)
    (hblk : ∀ c : Dev nD,
      m ((c.tc : Thread nD τ).loc main_arg0) = Layout.block ⟨3, ![4, 256, 128]⟩ ⟨3, ![4, 256, 512]⟩ 2 4 c X
      ∧ m ((c.tc : Thread nD τ).loc main_arg1) = T
      ∧ m ((c.tc : Thread nD τ).loc main_arg2) = Layout.block ⟨2, ![128, 128]⟩ ⟨2, ![128, 512]⟩ 1 4 c Wsc
      ∧ m ((c.tc : Thread nD τ).loc main_arg3) = Layout.block ⟨2, ![128, 128]⟩ ⟨2, ![128, 512]⟩ 1 4 c Wsh)
    (hpre : Cert.Pre_KernelIdeal m) (c : Dev nD) :
    Cert.KernelIdeal.KD.outAt m c = Layout.block ⟨3, ![4, 256, 128]⟩ ⟨3, ![4, 256, 512]⟩ 2 4 c (Cert.Spec.Garr X T Wsc Wsh) := by
  have hb : KFinite.Blk m X T Wsc Wsh := hblk
  funext i
  obtain ⟨b, r, j, rfl⟩ : ∃ (b : Fin 4) (r : Fin 256) (j : Fin 128), i = ix3 b r j := ⟨i 0, i 1, i 2, eq_ix3 i⟩
  rw [Layout.block_apply, KBlocks.idx3]
  have hr256 : r.val < 256 := r.isLt
  by_cases hlt : r.val < 128
  · have e : KD.outAt m c (ix3 b r j) = KD.outh0 m c (ix4 (0 : Fin 1) b ⟨r.val, hlt⟩ j) := dif_pos hlt
    exact e.trans (KBlocks.half_eq hb hpre 0 c 0 b ⟨r.val, hlt⟩ j r (by show r.val = 128 * 0 + r.val; omega))
  · have e : KD.outAt m c (ix3 b r j) = KD.outh1 m c (ix4 (0 : Fin 1) b ⟨r.val - 128, by omega⟩ j) := dif_neg hlt
    exact e.trans (KBlocks.half_eq hb hpre 1 c 0 b ⟨r.val - 128, by omega⟩ j r (by show r.val = 128 * 1 + (r.val - 128); omega))

end Cert.KernelIdeal.KValue

end
-- ==== Proof.lean ====
import proofs.«900517_g7700000000000518_dist_diff_adaln_cshard_i_b4_s256_c128_v7x_i4_f32_1_alg».proof.Defs
import proofs.«900517_g7700000000000518_dist_diff_adaln_cshard_i_b4_s256_c128_v7x_i4_f32_1_alg».proof.Proof.Gen.Kernel
import proofs.«900517_g7700000000000518_dist_diff_adaln_cshard_i_b4_s256_c128_v7x_i4_f32_1_alg».proof.Proof.Gen.KernelIdeal
import proofs.«900517_g7700000000000518_dist_diff_adaln_cshard_i_b4_s256_c128_v7x_i4_f32_1_alg».proof.Proof.Gen.ReferenceIdeal
import proofs.«900517_g7700000000000518_dist_diff_adaln_cshard_i_b4_s256_c128_v7x_i4_f32_1_alg».proof.Proof.Gen.Pre_finite_inputs_Kernel
import proofs.«900517_g7700000000000518_dist_diff_adaln_cshard_i_b4_s256_c128_v7x_i4_f32_1_alg».proof.Proof.Gen.Pre_finite_inputs_ReferenceIdeal
import proofs.«900517_g7700000000000518_dist_diff_adaln_cshard_i_b4_s256_c128_v7x_i4_f32_1_alg».proof.Proof.KernelRun
import proofs.«900517_g7700000000000518_dist_diff_adaln_cshard_i_b4_s256_c128_v7x_i4_f32_1_alg».proof.Proof.KernelIdealRun
import proofs.«900517_g7700000000000518_dist_diff_adaln_cshard_i_b4_s256_c128_v7x_i4_f32_1_alg».proof.Proof.RefRun
import proofs.«900517_g7700000000000518_dist_diff_adaln_cshard_i_b4_s256_c128_v7x_i4_f32_1_alg».proof.Proof.RefValue
import proofs.«900517_g7700000000000518_dist_diff_adaln_cshard_i_b4_s256_c128_v7x_i4_f32_1_alg».proof.Proof.KValue
import Idealize.ShloMosaic.Adequacy
import Idealize.ShloMosaic.Init

noncomputable section

namespace Cert.Proof

open Idealize.ShloMosaic Idealize.SL.Sem

theorem frame_k : Cert.frame_Kernel := fun m ρ _ =>
  (θ_run (Cert.Kernel.defs (F := Bits)) _ _).mono (fun _ h c => (h c).2) (Cert.Kernel.KRun.run_main (F := Bits) m ρ)

theorem frame_ki : Cert.frame_KernelIdeal := fun m ρ _ =>
  (θ_run (Cert.KernelIdeal.defs (F := Ideal)) _ _).mono (fun _ h c => (h c).2) (Cert.KernelIdeal.KRun.run_main (F := Ideal) m ρ)

theorem frame_ri : Cert.frame_ReferenceIdeal := fun m ρ _ =>
  (θ_run (Cert.ReferenceIdeal.defs (F := Ideal)) _ _).mono (fun _ h c => (h c).2) (Cert.ReferenceIdeal.HandRun.run m ρ)

/-- Both runs end at the specification's array: each device at its column block of it, the reference at the whole. -/
theorem algebraic : Cert.algebraic_KernelIdeal_ReferenceIdeal := by
  intro m ρ m' ρ' hpre hagree
  refine ⟨Cert.Spec.Garr
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · exact (θ_run (Cert.KernelIdeal.defs (F := Ideal)) _ _).mono
      (fun _ h c => ⟨(h c).1.trans (Cert.KernelIdeal.KValue.outAt_eq m _ _ _ _ hagree hpre c), (h c).2⟩)
      (Cert.KernelIdeal.KRun.run_main (F := Ideal) m ρ)
  · exact (θ_run (Cert.ReferenceIdeal.defs (F := Ideal)) _ _).mono
      (fun _ h => ⟨(h 0).1.trans (Cert.ReferenceIdeal.RefValue.refOut_eq _ _ _ _), (h 0).2⟩)
      (Cert.ReferenceIdeal.HandRun.run m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
